-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S64x128 .f32 .bf16
  ∧ IdealRules.truncf_extf.Statement Cert.KernelIdeal.S2048x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10 : Shape := ⟨2, ![4096, 10]⟩
abbrev S8388608 : Shape := ⟨1, ![8388608]⟩
abbrev S4096 : Shape := ⟨1, ![4096]⟩
abbrev S_ : Shape := ⟨0, ![]⟩

class Facts : Prop where
  bcast_S_S4096x10 : S_.BroadcastsInDim S4096x10 (![] : Fin 0 → Fin S4096x10.rank)
  reducesTo_S4096x10_S_d0_1 : S4096x10.ReducesTo [0, 1] S_
  h_S_ : 0 < S_.numel
  bcast_S_S8388608 : S_.BroadcastsInDim S8388608 (![] : Fin 0 → Fin S8388608.rank)
  reducesTo_S8388608_S_d0 : S8388608.ReducesTo [0] S_

variable [Facts]

def fn_part1 {F : FTy → Type} [FloatOps F] (main_arg4 : FVec F S8388608 .f32) (main_v13 : IVec S_ 1) (main_v16 : IVec S8388608 1) : IVec S_ 1 :=
  let main_c_5 : IVec S_ 1 := constantI S_ 1 1#1
  let main_v17 : IVec S_ 1 := (fun x v => Host.reduce IntOp.andi x v reducesTo_S8388608_S_d0 h_S_) main_v16 main_c_5
  let main_v18 : IVec S_ 1 := andi main_v13 main_v17
  let main_v19 : FVec F S8388608 .f32 := Host.absf main_arg4
  let main_cst_6 : FVec F S_ .f32 := constant S_ .f32 0x7F800000#32
  let main_v20 : FVec F S8388608 .f32 := broadcastInDim S8388608 ![] bcast_S_S8388608 main_cst_6
  let main_v21 : IVec S8388608 1 := cmpf .olt main_v19 main_v20
  let main_c_7 : IVec S_ 1 := constantI S_ 1 1#1
  let main_v22 : IVec S_ 1 := (fun x v => Host.reduce IntOp.andi x v reducesTo_S8388608_S_d0 h_S_) main_v21 main_c_7
  let main_v23 : IVec S_ 1 := andi main_v18 main_v22
  main_v23

def fn {F : FTy → Type} [FloatOps F] (main_arg0 : FVec F S4096x10 .f32) (main_arg1 : FVec F S4096x10 .f32) (main_arg2 : FVec F S4096x10 .f32) (main_arg3 : FVec F S8388608 .f32) (main_arg4 : FVec F S8388608 .f32) (main_arg5 : IVec S4096 32) (main_arg6 : IVec S8388608 32) : IVec S_ 1 :=
  let main_v0 : FVec F S4096x10 .f32 := Host.absf main_arg0
  let main_cst : FVec F S_ .f32 := constant S_ .f32 0x7F800000#32
  let main_v1 : FVec F S4096x10 .f32 := broadcastInDim S4096x10 ![] bcast_S_S4096x10 main_cst
  let main_v2 : IVec S4096x10 1 := cmpf .olt main_v0 main_v1
  let main_c : IVec S_ 1 := constantI S_ 1 1#1
  let main_v3 : IVec S_ 1 := (fun x v => Host.reduce IntOp.andi x v reducesTo_S4096x10_S_d0_1 h_S_) main_v2 main_c
  let main_v4 : FVec F S4096x10 .f32 := Host.absf main_arg1
  let main_cst_0 : FVec F S_ .f32 := constant S_ .f32 0x7F800000#32
  let main_v5 : FVec F S4096x10 .f32 := broadcastInDim S4096x10 ![] bcast_S_S4096x10 main_cst_0
  let main_v6 : IVec S4096x10 1 := cmpf .olt main_v4 main_v5
  let main_c_1 : IVec S_ 1 := constantI S_ 1 1#1
  let main_v7 : IVec S_ 1 := (fun x v => Host.reduce IntOp.andi x v reducesTo_S4096x10_S_d0_1 h_S_) main_v6 main_c_1
  let main_v8 : IVec S_ 1 := andi main_v3 main_v7
  let main_v9 : FVec F S4096x10 .f32 := Host.absf main_arg2
  let main_cst_2 : FVec F S_ .f32 := constant S_ .f32 0x7F800000#32
  let main_v10 : FVec F S4096x10 .f32 := broadcastInDim S4096x10 ![] bcast_S_S4096x10 main_cst_2
  let main_v11 : IVec S4096x10 1 := cmpf .olt main_v9 main_v10
  let main_c_3 : IVec S_ 1 := constantI S_ 1 1#1
  let main_v12 : IVec S_ 1 := (fun x v => Host.reduce IntOp.andi x v reducesTo_S4096x10_S_d0_1 h_S_) main_v11 main_c_3
  let main_v13 : IVec S_ 1 := andi main_v8 main_v12
  let main_v14 : FVec F S8388608 .f32 := Host.absf main_arg3
  let main_cst_4 : FVec F S_ .f32 := constant S_ .f32 0x7F800000#32
  let main_v15 : FVec F S8388608 .f32 := broadcastInDim S8388608 ![] bcast_S_S8388608 main_cst_4
  let main_v16 : IVec S8388608 1 := cmpf .olt main_v14 main_v15
  fn_part1 (F := F) main_arg4 main_v13 main_v16
-- ==== Kernel.lean ====
abbrev S4096x10 : Shape := ⟨2, ![4096, 10]⟩
abbrev S8388608 : Shape := ⟨1, ![8388608]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S65536x128 : Shape := ⟨2, ![65536, 128]⟩
abbrev S2x64x192 : Shape := ⟨3, ![2, 64, 192]⟩
abbrev S16x128 : Shape := ⟨2, ![16, 128]⟩
abbrev S1x64x192 : Shape := ⟨3, ![1, 64, 192]⟩
abbrev S64x192 : Shape := ⟨2, ![64, 192]⟩
abbrev S2048x1 : Shape := ⟨2, ![2048, 1]⟩
abbrev S2048x64 : Shape := ⟨2, ![2048, 64]⟩
abbrev S2048x192 : Shape := ⟨2, ![2048, 192]⟩
abbrev S64x128 : Shape := ⟨2, ![64, 128]⟩
abbrev S2x64x128 : Shape := ⟨3, ![2, 64, 128]⟩
abbrev S1x64x128 : Shape := ⟨3, ![1, 64, 128]⟩
abbrev S2048x128 : Shape := ⟨2, ![2048, 128]⟩
abbrev S2048 : Shape := ⟨1, ![2048]⟩
abbrev S64x3x64 : Shape := ⟨3, ![64, 3, 64]⟩
abbrev S64x64x3 : Shape := ⟨3, ![64, 64, 3]⟩
abbrev S4096x3 : Shape := ⟨2, ![4096, 3]⟩
abbrev S64x2x64 : Shape := ⟨3, ![64, 2, 64]⟩
abbrev S64x64x2 : Shape := ⟨3, ![64, 64, 2]⟩
abbrev S4096x2 : Shape := ⟨2, ![4096, 2]⟩

abbrev nBuf : Space → Nat
  | .hbm => 102
  | .vmem => 19
  | .smem => 0
  | _ => 0

abbrev bufTy : (tb : Table) → Fin (tcTables nBuf tb) → BufTy
  | .hbm, ⟨0, _⟩ => ⟨S4096x10, .f32⟩
  | .hbm, ⟨1, _⟩ => ⟨S4096x10, .f32⟩
  | .hbm, ⟨2, _⟩ => ⟨S4096x10, .f32⟩
  | .hbm, ⟨3, _⟩ => ⟨S8388608, .f32⟩
  | .hbm, ⟨4, _⟩ => ⟨S8388608, .f32⟩
  | .hbm, ⟨5, _⟩ => ⟨S4096, .i32⟩
  | .hbm, ⟨6, _⟩ => ⟨S8388608, .i32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x10, .f32⟩
  | .hbm, ⟨14, _⟩ => ⟨S4096x10, .f32⟩
  | .hbm, ⟨15, _⟩ => ⟨S4096x10, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1, .f32⟩
  | .hbm, ⟨20, _⟩ => ⟨S4096x10, .f32⟩
  | .hbm, ⟨21, _⟩ => ⟨S4096x10, .f32⟩
  | .hbm, ⟨22, _⟩ => ⟨S4096x1, .i32⟩
  | .hbm, ⟨23, _⟩ => ⟨S_, .i32⟩
  | .hbm, ⟨24, _⟩ => ⟨S4096x1, .i32⟩
  | .hbm, ⟨25, _⟩ => ⟨S4096x1, .i1⟩
  | .hbm, ⟨26, _⟩ => ⟨S_, .i32⟩
  | .hbm, ⟨27, _⟩ => ⟨S4096x1, .i32⟩
  | .hbm, ⟨28, _⟩ => ⟨S4096x1, .i32⟩
  | .hbm, ⟨29, _⟩ => ⟨S4096x1, .i32⟩
  | .hbm, ⟨30, _⟩ => ⟨S4096x1x1, .i32⟩
  | .hbm, ⟨31, _⟩ => ⟨S1, .i32⟩
  | .hbm, ⟨32, _⟩ => ⟨S_, .i32⟩
  | .hbm, ⟨33, _⟩ => ⟨S4096x1x1, .i32⟩
  | .hbm, ⟨34, _⟩ => ⟨S4096x1x1, .i1⟩
  | .hbm, ⟨35, _⟩ => ⟨S1x1x1, .i32⟩
  | .hbm, ⟨36, _⟩ => ⟨S4096x1x1, .i32⟩
  | .hbm, ⟨37, _⟩ => ⟨S4096x1x1, .i1⟩
  | .hbm, ⟨38, _⟩ => ⟨S4096x1x1, .i1⟩
  | .hbm, ⟨39, _⟩ => ⟨S_, .i1⟩
  | .hbm, ⟨40, _⟩ => ⟨S4096x1, .i1⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S65536x128, .i32⟩
  | .hbm, ⟨51, _⟩ => ⟨S65536x128, .f32⟩
  | .hbm, ⟨52, _⟩ => ⟨S65536x128, .f32⟩
  | .hbm, ⟨53, _⟩ => ⟨S2x64x192, .f32⟩
  | .hbm, ⟨54, _⟩ => ⟨S_, .f32⟩
  | .hbm, ⟨55, _⟩ => ⟨S64x192, .f32⟩
  | .hbm, ⟨56, _⟩ => ⟨S64x128, .f32⟩
  | .hbm, ⟨57, _⟩ => ⟨S2x64x128, .f32⟩
  | .hbm, ⟨58, _⟩ => ⟨S_, .f32⟩
  | .hbm, ⟨59, _⟩ => ⟨S64x128, .f32⟩
  | .hbm, ⟨60, _⟩ => ⟨S64x3x64, .f32⟩
  | .hbm, ⟨61, _⟩ => ⟨S64x64x3, .f32⟩
  | .hbm, ⟨62, _⟩ => ⟨S4096x3, .f32⟩
  | .hbm, ⟨63, _⟩ => ⟨S4096x1, .f32⟩
  | .hbm, ⟨64, _⟩ => ⟨S4096, .f32⟩
  | .hbm, ⟨65, _⟩ => ⟨S64x2x64, .f32⟩
  | .hbm, ⟨66, _⟩ => ⟨S64x64x2, .f32⟩
  | .hbm, ⟨67, _⟩ => ⟨S4096x2, .f32⟩
  | .hbm, ⟨68, _⟩ => ⟨S4096x1, .f32⟩
  | .hbm, ⟨69, _⟩ => ⟨S4096, .f32⟩
  | .hbm, ⟨70, _⟩ => ⟨S4096x1, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .i1⟩
  | .hbm, ⟨75, _⟩ => ⟨S4096, .i32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S4096, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S4096x10, .f32⟩
  | .hbm, ⟨87, _⟩ => ⟨S4096x10, .f32⟩
  | .hbm, ⟨88, _⟩ => ⟨S4096x10, .f32⟩
  | .hbm, ⟨89, _⟩ => ⟨S4096x10, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .local _ .vmem, ⟨0, _⟩ => ⟨S16x128, .i32⟩
  | .local _ .vmem, ⟨1, _⟩ => ⟨S16x128, .i32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S1x64x192, .f32⟩
  | .local _ .vmem, ⟨7, _⟩ => ⟨S1x64x192, .f32⟩
  | .local _ .vmem, ⟨8, _⟩ => ⟨S64x192, .f32⟩
  | .local _ .vmem, ⟨9, _⟩ => ⟨S16x128, .i32⟩
  | .local _ .vmem, ⟨10, _⟩ => ⟨S16x128, .i32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S64x128, .f32⟩
  | .local _ .vmem, ⟨16, _⟩ => ⟨S1x64x128, .f32⟩
  | .local _ .vmem, ⟨17, _⟩ => ⟨S1x64x128, .f32⟩
  | .local _ .vmem, ⟨18, _⟩ => ⟨S64x128, .f32⟩
  | _, _ => ⟨S4096x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v0 : Ref sig .tc := ⟨.hbm, 21, rfl⟩
abbrev main_v1 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v2 : Ref sig .tc := ⟨.hbm, 44, rfl⟩
abbrev main_cst : Ref sig .tc := ⟨.hbm, 45, rfl⟩
abbrev main_v3 : Ref sig .tc := ⟨.hbm, 46, rfl⟩
abbrev main_cst_0 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst_1 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_cst_2 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_3 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_c : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_4 : Ref sig .tc := ⟨.hbm, 80, rfl⟩
abbrev main_v32 : Ref sig .tc := ⟨.hbm, 81, rfl⟩
abbrev main_cst_5 : Ref sig .tc := ⟨.hbm, 82, rfl⟩
abbrev main_v33 : Ref sig .tc := ⟨.hbm, 83, rfl⟩
abbrev main_v34 : Ref sig .tc := ⟨.hbm, 84, rfl⟩
abbrev main_cst_6 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_cst_7 : Ref sig .tc := ⟨.hbm, 90, rfl⟩
abbrev main_v39 : Ref sig .tc := ⟨.hbm, 91, rfl⟩
abbrev main_cst_8 : Ref sig .tc := ⟨.hbm, 92, rfl⟩
abbrev main_v40 : Ref sig .tc := ⟨.hbm, 93, rfl⟩
abbrev main_cst_9 : Ref sig .tc := ⟨.hbm, 94, rfl⟩
abbrev main_v41 : Ref sig .tc := ⟨.hbm, 95, rfl⟩
abbrev main_cst_10 : Ref sig .tc := ⟨.hbm, 96, rfl⟩
abbrev main_v42 : Ref sig .tc := ⟨.hbm, 97, rfl⟩
abbrev main_v43 : Ref sig .tc := ⟨.hbm, 98, rfl⟩
abbrev main_cst_11 : Ref sig .tc := ⟨.hbm, 99, rfl⟩
abbrev main_v44 : Ref sig .tc := ⟨.hbm, 100, rfl⟩
abbrev main_v45 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![2, 2048], ![false, false]⟩

def k0_cond2 (i : grid0.Coords) : BitVec 1 :=
  let arg1 : BitVec 32 := BitVec.ofNat 32 (i 1).val
  let c2047_i32 : BitVec 32 := 2047#32
  let v41 : BitVec 1 := Scalar.cmpi .eq arg1 c2047_i32
  let v42 : BitVec 32 := Scalar.extui v41
  let c0_i32_10 : BitVec 32 := 0#32
  let v43 : BitVec 1 := Scalar.cmpi .ne v42 c0_i32_10
  v43

def cc0_transform_0 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 2048], ![false, false]⟩

def k1_cond2 (i : grid1.Coords) : BitVec 1 :=
  let arg1 : BitVec 32 := BitVec.ofNat 32 (i 1).val
  let c2047_i32 : BitVec 32 := 2047#32
  let v84 : BitVec 1 := Scalar.cmpi .eq arg1 c2047_i32
  let v85 : BitVec 32 := Scalar.extui v84
  let c0_i32_23 : BitVec 32 := 0#32
  let v86 : BitVec 1 := Scalar.cmpi .ne v85 c0_i32_23
  v86

def cc1_transform_0 (i : grid1.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S4096x10_S4096_d1 : S4096x10.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  shapeCasts_S8388608_S65536x128 : S8388608.ShapeCasts S65536x128
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x128_S2048x1 : S16x128.ShapeCasts S2048x1
  iota_S2048x64_d1_w32 : S2048x64.Iotas .tc 32 [1]
  broadcasts_S2048x1_S2048x64 : S2048x1.Broadcasts S2048x64
  natLt_1_32 : 1 < 32
  bitsLt_bf16_f32 : FTy.bits .bf16 < FTy.bits .f32
  concatenates_S2048x64_S2048x64_S2048x64_S2048x192_d1 : Shape.Concatenates [S2048x64, S2048x64, S2048x64] S2048x192 1
  inb_S1x64x192_S1x64x192_0_0_0 : ∀ a, (![0, 0, 0] : Fin 3 → Nat) a + S1x64x192.size a ≤ S1x64x192.size a
  h_S1x64x192 : 0 < S1x64x192.numel
  shapeCasts_S1x64x192_S64x192 : S1x64x192.ShapeCasts S64x192
  shapeCasts_S64x192_S1x64x192 : S64x192.ShapeCasts S1x64x192
  reducesTo_S2x64x192_S64x192_d0 : S2x64x192.ReducesTo [0] S64x192
  slices_S64x192_S64x128_0_0 : S64x192.Slices ![0, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S2048x128_o0_0_S2048x64 : S2048x128.Slices ![0, 0] S2048x64
  reduces_S2048x64_S2048 : S2048x64.Reduces [1] S2048
  shapeCasts_S2048_S2048x1 : S2048.ShapeCasts S2048x1
  slices_S2048x128_o0_64_S2048x64 : S2048x128.Slices ![0, 64] S2048x64
  shapeCasts_S2048x1_S16x128 : S2048x1.ShapeCasts S16x128
  concatenates_S2048x64_S2048x64_S2048x128_d1 : Shape.Concatenates [S2048x64, S2048x64] S2048x128 1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  reducesTo_S2x64x128_S64x128_d0 : S2x64x128.ReducesTo [0] S64x128
  shapeCasts_S64x192_S64x3x64 : S64x192.ShapeCasts S64x3x64
  transposes_S64x3x64_S64x64x3_0_2_1 : S64x3x64.Transposes [0, 2, 1] S64x64x3
  shapeCasts_S64x64x3_S4096x3 : S64x64x3.ShapeCasts S4096x3
  slices_S4096x3_S4096x1_0_2 : S4096x3.Slices ![0, 2] S4096x1
  shapeCasts_S4096x1_S4096 : S4096x1.ShapeCasts S4096
  shapeCasts_S64x128_S64x2x64 : S64x128.ShapeCasts S64x2x64
  transposes_S64x2x64_S64x64x2_0_2_1 : S64x2x64.Transposes [0, 2, 1] S64x64x2
  shapeCasts_S64x64x2_S4096x2 : S64x64x2.ShapeCasts S4096x2
  slices_S4096x2_S4096x1_0_0 : S4096x2.Slices ![0, 0] S4096x1
  slices_S4096x2_S4096x1_0_1 : S4096x2.Slices ![0, 1] S4096x1
  reducesTo_S4096_S_d0 : S4096.ReducesTo [0] S_
  bcast_S_S4096x10 : S_.BroadcastsInDim S4096x10 (![] : Fin 0 → Fin S4096x10.rank)
  reducesTo_S4096x10_S_d0_1 : S4096x10.ReducesTo [0, 1] S_
  gather_S4096x10_S4096x1x1_S4096x1_n_1_0_0_1_2_11_wf : GatherDims.WF S4096x10 S4096x1x1 S4096x1 [] [1] [0] [1] [0] 2 ![1, 1]
  dot_S2048x64_S2048x192_S64x192_0_0_1_1_n_n_wf : DotDims.WF S2048x64 S2048x192 S64x192 [0] [0] [1] [1] [] []
  dot_S2048x64_S64x128_S2048x128_1_0_0_1_n_n_wf : DotDims.WF S2048x64 S64x128 S2048x128 [1] [0] [0] [1] [] []
  dot_S2048x64_S2048x128_S64x128_0_0_1_1_n_n_wf : DotDims.WF S2048x64 S2048x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S65536x128.size a
  hwx0_0 : ∀ i : grid0.Coords, EltTy.bits .i32 = 32 ∨ (Rect.block (s := S65536x128) S16x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S65536x128.size a
  hwx0_1 : ∀ i : grid0.Coords, EltTy.bits .f32 = 32 ∨ (Rect.block (s := S65536x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S65536x128.size a
  hwx0_2 : ∀ i : grid0.Coords, EltTy.bits .f32 = 32 ∨ (Rect.block (s := S65536x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x192.size a ≤ S2x64x192.size a
  hwx0_3 : ∀ i : grid0.Coords, EltTy.bits .f32 = 32 ∨ (Rect.block (s := S2x64x192) S1x64x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128.size a ≤ S65536x128.size a
  hwx1_0 : ∀ i : grid1.Coords, EltTy.bits .i32 = 32 ∨ (Rect.block (s := S65536x128) S16x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S65536x128.size a
  hwx1_1 : ∀ i : grid1.Coords, EltTy.bits .f32 = 32 ∨ (Rect.block (s := S65536x128) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S65536x128.size a
  hwx1_2 : ∀ i : grid1.Coords, EltTy.bits .f32 = 32 ∨ (Rect.block (s := S65536x128) S16x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x128.size a ≤ S2x64x128.size a
  hwx1_4 : ∀ i : grid1.Coords, EltTy.bits .f32 = 32 ∨ (Rect.block (s := S2x64x128) S1x64x128.size (cc1_transform_4 i) (hinb1_4 i)).WholeWords (EltTy.packing .f32)

variable [Facts₀]

def gather_S4096x10_S4096x1x1_S4096x1_n_1_0_0_1_2_11 : GatherDims S4096x10 S4096x1x1 S4096x1 where
  offsetDims := []
  collapsedSliceDims := [1]
  operandBatchingDims := [0]
  startIndicesBatchingDims := [0]
  startIndexMap := [1]
  indexVectorDim := 2
  sliceSizes := ![1, 1]
  wf := gather_S4096x10_S4096x1x1_S4096x1_n_1_0_0_1_2_11_wf
def dot_S2048x64_S2048x192_S64x192_0_0_1_1_n_n : DotDims S2048x64 S2048x192 S64x192 where
  lhsContracting := [0]
  rhsContracting := [0]
  lhsNonContracting := [1]
  rhsNonContracting := [1]
  lhsBatch := []
  rhsBatch := []
  wf := dot_S2048x64_S2048x192_S64x192_0_0_1_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x64_S2048x128_S64x128_0_0_1_1_n_n : DotDims S2048x64 S2048x128 S64x128 where
  lhsContracting := [0]
  rhsContracting := [0]
  lhsNonContracting := [1]
  rhsNonContracting := [1]
  lhsBatch := []
  rhsBatch := []
  wf := dot_S2048x64_S2048x128_S64x128_0_0_1_1_n_n_wf

abbrev win0_0 : Pipeline.Window sig grid0 :=
  Pipeline.Window.ofSpec (Memref.whole main_v6) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v6) S16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S16x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x64x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x10 : Shape := ⟨2, ![4096, 10]⟩
abbrev S8388608 : Shape := ⟨1, ![8388608]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S8388608x1 : Shape := ⟨2, ![8388608, 1]⟩

abbrev nBuf : Space → Nat
  | .hbm => 150
  | .vmem => 0
  | .smem => 0
  | _ => 0

abbrev hbmTy0_0 (i : Nat) : BufTy := match i % 128 with
  | 0 => ⟨S4096x10, .f32⟩
  | 1 => ⟨S4096x10, .f32⟩
  | 2 => ⟨S4096x10, .f32⟩
  | 3 => ⟨S8388608, .f32⟩
  | 4 => ⟨S8388608, .f32⟩
  | 5 => ⟨S4096, .i32⟩
  | 6 => ⟨S8388608, .i32⟩
  | 7 => ⟨S_, .f32⟩
  | 8 => ⟨S4096, .f32⟩
  | 9 => ⟨S_, .f32⟩
  | 10 => ⟨S4096, .f32⟩
  | 11 => ⟨S4096, .f32⟩
  | 12 => ⟨S4096x1, .f32⟩
  | 13 => ⟨S4096x10, .f32⟩
  | 14 => ⟨S4096x10, .f32⟩
  | 15 => ⟨S4096x10, .f32⟩
  | 16 => ⟨S_, .f32⟩
  | 17 => ⟨S4096, .f32⟩
  | 18 => ⟨S4096x1, .f32⟩
  | 19 => ⟨S4096x1, .f32⟩
  | 20 => ⟨S4096x10, .f32⟩
  | 21 => ⟨S4096x10, .f32⟩
  | 22 => ⟨S4096x1, .i32⟩
  | 23 => ⟨S_, .i32⟩
  | 24 => ⟨S4096x1, .i32⟩
  | 25 => ⟨S4096x1, .i1⟩
  | 26 => ⟨S_, .i32⟩
  | 27 => ⟨S4096x1, .i32⟩
  | 28 => ⟨S4096x1, .i32⟩
  | 29 => ⟨S4096x1, .i32⟩
  | 30 => ⟨S4096x1x1, .i32⟩
  | 31 => ⟨S1, .i32⟩
  | 32 => ⟨S_, .i32⟩
  | 33 => ⟨S4096x1x1, .i32⟩
  | 34 => ⟨S4096x1x1, .i1⟩
  | 35 => ⟨S1x1x1, .i32⟩
  | 36 => ⟨S4096x1x1, .i32⟩
  | 37 => ⟨S4096x1x1, .i1⟩
  | 38 => ⟨S4096x1x1, .i1⟩
  | 39 => ⟨S_, .i1⟩
  | 40 => ⟨S4096x1, .i1⟩
  | 41 => ⟨S4096x1, .f32⟩
  | 42 => ⟨S_, .f32⟩
  | 43 => ⟨S4096x1, .f32⟩
  | 44 => ⟨S4096x1, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S4096, .f32⟩
  | 52 => ⟨S8388608x1, .i32⟩
  | 53 => ⟨S4096, .f32⟩
  | 54 => ⟨S_, .f32⟩
  | 55 => ⟨S4096, .f32⟩
  | 56 => ⟨S8388608x1, .i32⟩
  | 57 => ⟨S4096, .f32⟩
  | 58 => ⟨S_, .i32⟩
  | 59 => ⟨S8388608, .i32⟩
  | 60 => ⟨S8388608, .i1⟩
  | 61 => ⟨S_, .i32⟩
  | 62 => ⟨S8388608, .i32⟩
  | 63 => ⟨S8388608, .i32⟩
  | 64 => ⟨S8388608, .i32⟩
  | 65 => ⟨S8388608x1, .i32⟩
  | 66 => ⟨S8388608, .f32⟩
  | 67 => ⟨S_, .f32⟩
  | 68 => ⟨S8388608, .f32⟩
  | 69 => ⟨S8388608, .f32⟩
  | 70 => ⟨S8388608, .f32⟩
  | 71 => ⟨S_, .i32⟩
  | 72 => ⟨S8388608, .i32⟩
  | 73 => ⟨S8388608, .i1⟩
  | 74 => ⟨S_, .i32⟩
  | 75 => ⟨S8388608, .i32⟩
  | 76 => ⟨S8388608, .i32⟩
  | 77 => ⟨S8388608, .i32⟩
  | 78 => ⟨S8388608x1, .i32⟩
  | 79 => ⟨S8388608, .f32⟩
  | 80 => ⟨S_, .f32⟩
  | 81 => ⟨S8388608, .f32⟩
  | 82 => ⟨S8388608, .f32⟩
  | 83 => ⟨S8388608, .f32⟩
  | 84 => ⟨S8388608, .f32⟩
  | 85 => ⟨S_, .f32⟩
  | 86 => ⟨S8388608, .f32⟩
  | 87 => ⟨S8388608, .f32⟩
  | 88 => ⟨S_, .f32⟩
  | 89 => ⟨S8388608, .f32⟩
  | 90 => ⟨S8388608, .f32⟩
  | 91 => ⟨S_, .f32⟩
  | 92 => ⟨S8388608, .f32⟩
  | 93 => ⟨S8388608, .f32⟩
  | 94 => ⟨S8388608, .f32⟩
  | 95 => ⟨S8388608, .f32⟩
  | 96 => ⟨S8388608, .f32⟩
  | 97 => ⟨S_, .f32⟩
  | 98 => ⟨S4096, .f32⟩
  | 99 => ⟨S8388608x1, .i32⟩
  | 100 => ⟨S4096, .f32⟩
  | 101 => ⟨S_, .f32⟩
  | 102 => ⟨S8388608, .f32⟩
  | 103 => ⟨S8388608, .f32⟩
  | 104 => ⟨S_, .f32⟩
  | 105 => ⟨S8388608, .f32⟩
  | 106 => ⟨S8388608, .f32⟩
  | 107 => ⟨S8388608, .f32⟩
  | 108 => ⟨S8388608, .f32⟩
  | 109 => ⟨S8388608, .f32⟩
  | 110 => ⟨S_, .f32⟩
  | 111 => ⟨S4096, .f32⟩
  | 112 => ⟨S8388608x1, .i32⟩
  | 113 => ⟨S4096, .f32⟩
  | 114 => ⟨S_, .f32⟩
  | 115 => ⟨S8388608, .f32⟩
  | 116 => ⟨S_, .f32⟩
  | 117 => ⟨S4096, .f32⟩
  | 118 => ⟨S8388608x1, .i32⟩
  | 119 => ⟨S4096, .f32⟩
  | 120 => ⟨S_, .f32⟩
  | 121 => ⟨S4096, .f32⟩
  | 122 => ⟨S4096, .i1⟩
  | 123 => ⟨S4096, .i32⟩
  | 124 => ⟨S_, .i32⟩
  | 125 => ⟨S_, .i32⟩
  | 126 => ⟨S_, .f32⟩
  | 127 => ⟨S4096, .f32⟩
  | _ => ⟨S4096x10, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S4096x10, .f32⟩
  | 7 => ⟨S4096x10, .f32⟩
  | 8 => ⟨S4096x10, .f32⟩
  | 9 => ⟨S4096x10, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S4096x10, .f32⟩

abbrev hbmTy (i : Nat) : BufTy := match i / 128 with
  | 0 => hbmTy0_0 i
  | 1 => hbmTy0_1 i
  | _ => ⟨S4096x10, .f32⟩

abbrev bufTy : (tb : Table) → Fin (tcTables nBuf tb) → BufTy
  | .hbm, ⟨i, _⟩ => hbmTy i
  | _, _ => ⟨S4096x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v0 : Ref sig .tc := ⟨.hbm, 21, rfl⟩
abbrev main_v1 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v2 : Ref sig .tc := ⟨.hbm, 44, rfl⟩
abbrev main_cst : Ref sig .tc := ⟨.hbm, 45, rfl⟩
abbrev main_v3 : Ref sig .tc := ⟨.hbm, 46, rfl⟩
abbrev main_cst_0 : Ref sig .tc := ⟨.hbm, 47, rfl⟩
abbrev main_v4 : Ref sig .tc := ⟨.hbm, 48, rfl⟩
abbrev main_v5 : Ref sig .tc := ⟨.hbm, 49, rfl⟩
abbrev main_cst_1 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_cst_2 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_c : Ref sig .tc := ⟨.hbm, 58, rfl⟩
abbrev main_v12 : Ref sig .tc := ⟨.hbm, 59, rfl⟩
abbrev main_v13 : Ref sig .tc := ⟨.hbm, 60, rfl⟩
abbrev main_c_3 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_cst_4 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_c_5 : Ref sig .tc := ⟨.hbm, 71, rfl⟩
abbrev main_v22 : Ref sig .tc := ⟨.hbm, 72, rfl⟩
abbrev main_v23 : Ref sig .tc := ⟨.hbm, 73, rfl⟩
abbrev main_c_6 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_7 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_8 : Ref sig .tc := ⟨.hbm, 85, rfl⟩
abbrev main_v33 : Ref sig .tc := ⟨.hbm, 86, rfl⟩
abbrev main_v34 : Ref sig .tc := ⟨.hbm, 87, rfl⟩
abbrev main_cst_9 : Ref sig .tc := ⟨.hbm, 88, rfl⟩
abbrev main_v35 : Ref sig .tc := ⟨.hbm, 89, rfl⟩
abbrev main_v36 : Ref sig .tc := ⟨.hbm, 90, rfl⟩
abbrev main_cst_10 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_cst_11 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_12 : Ref sig .tc := ⟨.hbm, 101, rfl⟩
abbrev main_v45 : Ref sig .tc := ⟨.hbm, 102, rfl⟩
abbrev main_v46 : Ref sig .tc := ⟨.hbm, 103, rfl⟩
abbrev main_cst_13 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_cst_14 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_15 : Ref sig .tc := ⟨.hbm, 114, rfl⟩
abbrev main_v55 : Ref sig .tc := ⟨.hbm, 115, rfl⟩
abbrev main_cst_16 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_17 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_c_18 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_cst_19 : Ref sig .tc := ⟨.hbm, 128, rfl⟩
abbrev main_v65 : Ref sig .tc := ⟨.hbm, 129, rfl⟩
abbrev main_cst_20 : Ref sig .tc := ⟨.hbm, 130, rfl⟩
abbrev main_v66 : Ref sig .tc := ⟨.hbm, 131, rfl⟩
abbrev main_v67 : Ref sig .tc := ⟨.hbm, 132, rfl⟩
abbrev main_cst_21 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_22 : Ref sig .tc := ⟨.hbm, 138, rfl⟩
abbrev main_v72 : Ref sig .tc := ⟨.hbm, 139, rfl⟩
abbrev main_cst_23 : Ref sig .tc := ⟨.hbm, 140, rfl⟩
abbrev main_v73 : Ref sig .tc := ⟨.hbm, 141, rfl⟩
abbrev main_cst_24 : Ref sig .tc := ⟨.hbm, 142, rfl⟩
abbrev main_v74 : Ref sig .tc := ⟨.hbm, 143, rfl⟩
abbrev main_cst_25 : Ref sig .tc := ⟨.hbm, 144, rfl⟩
abbrev main_v75 : Ref sig .tc := ⟨.hbm, 145, rfl⟩
abbrev main_v76 : Ref sig .tc := ⟨.hbm, 146, rfl⟩
abbrev main_cst_26 : Ref sig .tc := ⟨.hbm, 147, rfl⟩
abbrev main_v77 : Ref sig .tc := ⟨.hbm, 148, rfl⟩
abbrev main_v78 : Ref sig .tc := ⟨.hbm, 149, rfl⟩

abbrev nD : Nat := 1
abbrev τ : Topo := Topo.v7x

variable {F : FTy → Type} [FloatOps F]

class Facts₀ : Prop where
  reducesTo_S4096x10_S4096_d1 : S4096x10.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  bcast_S8388608_S8388608x1_0 : S8388608.BroadcastsInDim S8388608x1 (![0] : Fin 1 → Fin S8388608x1.rank)
  bcast_S_S8388608 : S_.BroadcastsInDim S8388608 (![] : Fin 0 → Fin S8388608.rank)
  natLt_1_32 : 1 < 32
  reducesTo_S4096_S_d0 : S4096.ReducesTo [0] S_
  bcast_S_S4096x10 : S_.BroadcastsInDim S4096x10 (![] : Fin 0 → Fin S4096x10.rank)
  reducesTo_S4096x10_S_d0_1 : S4096x10.ReducesTo [0, 1] S_
  gather_S4096x10_S4096x1x1_S4096x1_n_1_0_0_1_2_11_wf : GatherDims.WF S4096x10 S4096x1x1 S4096x1 [] [1] [0] [1] [0] 2 ![1, 1]
  scatter_S4096_S8388608x1_S8388608_n_0_0_1_wf : ScatterDims.WF S4096 S8388608x1 S8388608 [] [0] [0] 1
  gather_S4096_S8388608x1_S8388608_n_0_n_n_0_1_1_wf : GatherDims.WF S4096 S8388608x1 S8388608 [] [0] [] [0] [] 1 ![1]

variable [Facts₀]

def gather_S4096x10_S4096x1x1_S4096x1_n_1_0_0_1_2_11 : GatherDims S4096x10 S4096x1x1 S4096x1 where
  offsetDims := []
  collapsedSliceDims := [1]
  operandBatchingDims := [0]
  startIndicesBatchingDims := [0]
  startIndexMap := [1]
  indexVectorDim := 2
  sliceSizes := ![1, 1]
  wf := gather_S4096x10_S4096x1x1_S4096x1_n_1_0_0_1_2_11_wf
def scatter_S4096_S8388608x1_S8388608_n_0_0_1 : ScatterDims S4096 S8388608x1 S8388608 where
  updateWindowDims := []
  insertedWindowDims := [0]
  scatterDimsToOperandDims := [0]
  indexVectorDim := 1
  wf := scatter_S4096_S8388608x1_S8388608_n_0_0_1_wf
def gather_S4096_S8388608x1_S8388608_n_0_n_n_0_1_1 : GatherDims S4096 S8388608x1 S8388608 where
  offsetDims := []
  collapsedSliceDims := [0]
  operandBatchingDims := []
  startIndicesBatchingDims := []
  startIndexMap := [0]
  indexVectorDim := 1
  sliceSizes := ![1]
  wf := gather_S4096_S8388608x1_S8388608_n_0_n_n_0_1_1_wf

class Facts : Prop extends Facts₀ where

variable [Facts]
-- ==== Proof.B_StatsRuns.lean ====
/- The first pass (statistics), its frame: what the three runs of the body share. A grid point is t = 2048 c + j; the 64 × 192 accumulator is
   cleared at j = 0 and copied into output block c at j = 2047. Everything is stated at any contents V of the arrays on entry. -/
import proofs.«400573_j52158082842660_3_alg».proof.Proof.Gen.Kernel.Launch
import proofs.«400573_j52158082842660_3_alg».proof.Proof.Gen.Kernel.Skeleton
import proofs.«400573_j52158082842660_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at point t, read off the array the region found. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (t : Fin cfg0.N) (d) : dat.before 0 t d = iblk0 V c 0 t := by
  unfold Dat.before
  rw [if_pos (fetch0_0 t)]
  unfold Dat.fetched Dat.blockOf iblk0
  rw [hA]; rfl

theorem before0_1_of {c : Dev nD} (dat : Dat τ (Elt F) Unit ℕ (UR sig nD τ) ℕ cfg0 c) (hA : dat.A 1 = V c (Pipeline.arrRef spec0 1))
    (t : Fin cfg0.N) (d) : dat.before 1 t d = iblk0 V c 1 t := by
  unfold Dat.before
  rw [if_pos (fetch0_1 t)]
  unfold Dat.fetched Dat.blockOf iblk0
  rw [hA]; rfl

theorem before0_2_of {c : Dev nD} (dat : Dat τ (Elt F) Unit ℕ (UR sig nD τ) ℕ cfg0 c) (hA : dat.A 2 = V c (Pipeline.arrRef spec0 2))
    (t : Fin cfg0.N) (d) : dat.before 2 t d = iblk0 V c 2 t := by
  unfold Dat.before
  rw [if_pos (fetch0_2 t)]
  unfold Dat.fetched Dat.blockOf iblk0
  rw [hA]; rfl

abbrev cond0_0 (i : grid0.Coords) : Prop :=
  (Scalar.cmpi .ne (Scalar.extui (Scalar.cmpi .eq (BitVec.ofNat 32 (i 1).val) 0#32)) 0#32) = 1#1

/-- The test j = 0 in closed form over the 4096 points. -/
theorem hcond0_0 : ∀ t : Fin cfg0.N, cond0_0 (grid0.coords t) ↔ t.val % 2048 = 0 :=
  (by decide +kernel : ∀ t : Fin grid0.N, cond0_0 (grid0.coords t) ↔ t.val % 2048 = 0)

abbrev cond0_1 (i : grid0.Coords) : Prop := k0_cond2 i = 1#1

/-- The test j = 2047 in closed form over the 4096 points. -/
theorem hcond0_1 : ∀ t : Fin cfg0.N, cond0_1 (grid0.coords t) ↔ t.val % 2048 = 2047 :=
  (by decide +kernel : ∀ t : Fin grid0.N, cond0_1 (grid0.coords t) ↔ t.val % 2048 = 2047)

theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl

theorem idleAt0_3 (t : Fin cfg0.N) (h : ¬ t.val % 2048 = 2047) : cfg0.idle 3 (grid0.coords t) = true := by
  have hc : ¬ k0_cond2 (grid0.coords t) = 1#1 := fun e => h ((hcond0_1 t).mp e)
  show (!(k0_cond2 (grid0.coords t) == 1#1)) = true
  rw [beq_eq_false_iff_ne.mpr hc]; rfl

theorem noFlush0_3 (t : Fin cfg0.N) (h : ¬ t.val % 2048 = 2047) : (cfg0.win 3).flush t = false :=
  Bool.eq_false_iff.mpr fun e => h ((flush0_3 t).mp e)

theorem liveAt0_3 (t : Fin cfg0.N) (h : t.val % 2048 = 2047) : cfg0.idle 3 (grid0.coords t) = false := by
  have hc : k0_cond2 (grid0.coords t) = 1#1 := (hcond0_1 t).mpr h
  show (!(k0_cond2 (grid0.coords t) == 1#1)) = false
  rw [hc]; rfl

abbrev VO0_3 : View sig .tc .vmem S1x64x192 .f32 := (Memref.whole cc0_stg3_0 : Memref sig .tc .vmem S1x64x192 .f32).view

abbrev ms0_0 (t : Fin cfg0.N) : Memref sig .tc .vmem S16x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x192 .f32 := win0_3.stage (cfg0.slots t 3)
abbrev hs0_3 (t : Fin cfg0.N) : (ms0_3 t).IsWhole := hstage0_3 ((cfg0.slots t 3).cast nbuf0_3)

abbrev scM0 : Memref sig .tc .vmem S64x192 .f32 := Memref.whole cc0_scratch0
abbrev VS0 : View sig .tc .vmem S64x192 .f32 := scM0.view

theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0])
        ∗ (∃ r, prngReg c r)) := by
  unfold Pipeline.ΦA
  rw [Pipeline.scopedRest_split_of_list spec0 c [cc0_scratch0] (by decide) (by decide)]
  simp only [bigSepL_singleton, scM0, owns_whole]
  rfl

end Cert.Kernel.Fr

end
-- ==== Proof.B_StatsRunReset.lean ====
/- The first pass: the body run at j = 0, where the accumulator is cleared first. -/
import proofs.«400573_j52158082842660_3_alg».proof.Proof.B_StatsRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- From the three input blocks and any accumulator the body reaches a continuation that gets the inputs back and the accumulator overwritten by the pieces the run finds. -/
noncomputable def kernelRun0_Reset (c : Dev nD) (i : grid0.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S1x64x192 .f32) (harg5 : arg5.IsWhole) (arg6 : Memref sig .tc .vmem S64x192 .f32) (harg6 : arg6.IsWhole) (hc0 : cond0_0 i) (hc1 : ¬cond0_1 i)
    (x0 : Vec F S16x128 .i32) (x1 : Vec F S16x128 .f32) (x2 : Vec F S16x128 .f32) :
    Σ' (L3 : List (View.Piece (Elt F) S1x64x192 .f32)), { LS0 : List (View.Piece (Elt F) S64x192 .f32) //
      ∀ (xi3 : Vec F S1x64x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg2 harg2 arg3 harg3 arg4 harg4 arg5 harg5 arg6 harg6) K } := by
  refine ⟨[], ?_, fun xi3 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.B_StatsRunStep.lean ====
/- The first pass: the body run at 0 < j < 2047, where it only accumulates. -/
import proofs.«400573_j52158082842660_3_alg».proof.Proof.B_StatsRunReset

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- As at j = 0, but the accumulator comes in at the contents xs0 the point before left. -/
noncomputable def kernelRun0_Step (c : Dev nD) (i : grid0.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S1x64x192 .f32) (harg5 : arg5.IsWhole) (arg6 : Memref sig .tc .vmem S64x192 .f32) (harg6 : arg6.IsWhole) (hc0 : ¬cond0_0 i) (hc1 : ¬cond0_1 i)
    (x0 : Vec F S16x128 .i32) (x1 : Vec F S16x128 .f32) (x2 : Vec F S16x128 .f32) (xs0 : Vec F S64x192 .f32) :
    Σ' (L3 : List (View.Piece (Elt F) S1x64x192 .f32)), { LS0 : List (View.Piece (Elt F) S64x192 .f32) //
      ∀ (xi3 : Vec F S1x64x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg2 harg2 arg3 harg3 arg4 harg4 arg5 harg5 arg6 harg6) K } := by
  refine ⟨[], ?_, fun xi3 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.B_StatsRunLast.lean ====
/- The first pass: the body run at j = 2047, where the accumulator is also copied to the output block. -/
import proofs.«400573_j52158082842660_3_alg».proof.Proof.B_StatsRunStep

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The accumulator comes in at xs0; the output block comes in at anything and goes out covered by one piece. -/
noncomputable def kernelRun0_Last (c : Dev nD) (i : grid0.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S1x64x192 .f32) (harg5 : arg5.IsWhole) (arg6 : Memref sig .tc .vmem S64x192 .f32) (harg6 : arg6.IsWhole) (hc0 : ¬cond0_0 i) (hc1 : cond0_1 i)
    (x0 : Vec F S16x128 .i32) (x1 : Vec F S16x128 .f32) (x2 : Vec F S16x128 .f32) (xs0 : Vec F S64x192 .f32) :
    Σ' (L3 : List (View.Piece (Elt F) S1x64x192 .f32)), { LS0 : List (View.Piece (Elt F) S64x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg2 harg2 arg3 harg3 arg4 harg4 arg5 harg5 arg6 harg6) K } := by
  refine ⟨?_, ?_, fun E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.B_StatsFrame.lean ====
/- The first pass, its frame: the accumulator after each point in closed form (the update of zero at j = 0, of the point before otherwise), the
   invariant along the points, the proof data at any entry contents V, and the body obligation. -/
import proofs.«400573_j52158082842660_3_alg».proof.Proof.B_StatsRunLast
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem isReset (t : Fin cfg0.N) (h : t.val % 2048 = 0) : cond0_0 (grid0.coords t) := (hcond0_0 t).mpr h
theorem notReset (t : Fin cfg0.N) (h : ¬ t.val % 2048 = 0) : ¬cond0_0 (grid0.coords t) := fun e => h ((hcond0_0 t).mp e)
theorem isLast (t : Fin cfg0.N) (h : t.val % 2048 = 2047) : cond0_1 (grid0.coords t) := (hcond0_1 t).mpr h
theorem notLast (t : Fin cfg0.N) (h : ¬ t.val % 2048 = 2047) : ¬cond0_1 (grid0.coords t) := fun e => h ((hcond0_1 t).mp e)

theorem zeroOff2 : (![0, 0] : Fin 2 → Nat) = fun _ => 0 := funext fun a => by fin_cases a <;> rfl
theorem zeroOff3 : (![0, 0, 0] : Fin 3 → Nat) = fun _ => 0 := funext fun a => by fin_cases a <;> rfl

section Pieces

variable (c : Dev nD) (i : grid0.Coords) (arg2 : Memref sig .tc .vmem S16x128 .i32) (harg2 : arg2.IsWhole)
  (arg3 : Memref sig .tc .vmem S16x128 .f32) (harg3 : arg3.IsWhole) (arg4 : Memref sig .tc .vmem S16x128 .f32) (harg4 : arg4.IsWhole)
  (arg5 : Memref sig .tc .vmem S1x64x192 .f32) (harg5 : arg5.IsWhole) (arg6 : Memref sig .tc .vmem S64x192 .f32) (harg6 : arg6.IsWhole)
  (x0 : Vec F S16x128 .i32) (x1 x2 : Vec F S16x128 .f32) (xs0 : Vec F S64x192 .f32)
  (v : View sig .tc .vmem S64x192 .f32) (f : v.ty.Contents (Elt F))
  (vo : View sig .tc .vmem S1x64x192 .f32) (fo : vo.ty.Contents (Elt F))

/-- The stores a run finds cover the accumulator, so it ends at the update of the block the run started from, whatever it held. -/
theorem acc_Reset (hc0 : cond0_0 i) (hc1 : ¬cond0_1 i) :
    v.read (Elt F) (v.writes (Elt F) f (kernelRun0_Reset c i arg2 harg2 arg3 harg3 arg4 harg4 arg5 harg5 arg6 harg6 hc0 hc1 x0 x1 x2).2.1) = k0_pay3 x0 x1 x2 k0_pay2 := by
  rw [View.read_writes_eq_canon _ _ _ (View.cover_of_tiledL (kernelRun0_Reset c i arg2 harg2 arg3 harg3 arg4 harg4 arg5 harg5 arg6 harg6 hc0 hc1 x0 x1 x2).2.1 S64x192.size (by sl_kernel_rfl))]
  unfold kernelRun0_Reset
  dsimp only
  sl_unfold_words
  rw [View.canon_cons_unit_zero (S := S64x192) zeroOff2, View.readCov_unit_zero (S := S64x192) _ zeroOff2]
  simp only [View.readAt_eq_ld, harg2.read_unread, harg3.read_unread, harg4.read_unread, harg6.read_unread,
    View.ld_unit_zero (S := S16x128) zeroOff2, View.ld_unit_zero (S := S64x192) zeroOff2]

theorem acc_Step (hc0 : ¬cond0_0 i) (hc1 : ¬cond0_1 i) :
    v.read (Elt F) (v.writes (Elt F) f (kernelRun0_Step c i arg2 harg2 arg3 harg3 arg4 harg4 arg5 harg5 arg6 harg6 hc0 hc1 x0 x1 x2 xs0).2.1) = k0_pay3 x0 x1 x2 xs0 := by
  rw [View.read_writes_eq_canon _ _ _ (View.cover_of_tiledL (kernelRun0_Step c i arg2 harg2 arg3 harg3 arg4 harg4 arg5 harg5 arg6 harg6 hc0 hc1 x0 x1 x2 xs0).2.1 S64x192.size (by sl_kernel_rfl))]
  unfold kernelRun0_Step
  dsimp only
  sl_unfold_words
  rw [View.canon_unit_zero zeroOff2]
  simp only [View.readAt_eq_ld, harg2.read_unread, harg3.read_unread, harg4.read_unread, harg6.read_unread,
    View.ld_unit_zero (S := S16x128) zeroOff2, View.ld_unit_zero (S := S64x192) zeroOff2]

theorem acc_Last (hc0 : ¬cond0_0 i) (hc1 : cond0_1 i) :
    v.read (Elt F) (v.writes (Elt F) f (kernelRun0_Last c i arg2 harg2 arg3 harg3 arg4 harg4 arg5 harg5 arg6 harg6 hc0 hc1 x0 x1 x2 xs0).2.1) = k0_pay3 x0 x1 x2 xs0 := by
  rw [View.read_writes_eq_canon _ _ _ (View.cover_of_tiledL (kernelRun0_Last c i arg2 harg2 arg3 harg3 arg4 harg4 arg5 harg5 arg6 harg6 hc0 hc1 x0 x1 x2 xs0).2.1 S64x192.size (by sl_kernel_rfl))]
  unfold kernelRun0_Last
  dsimp only
  sl_unfold_words
  rw [View.canon_unit_zero zeroOff2]
  simp only [View.readAt_eq_ld, harg2.read_unread, harg3.read_unread, harg4.read_unread, harg6.read_unread,
    View.ld_unit_zero (S := S16x128) zeroOff2, View.ld_unit_zero (S := S64x192) zeroOff2]

/-- At j = 2047 the output block receives the updated accumulator under a leading axis of extent one. -/
theorem out_Last (hc0 : ¬cond0_0 i) (hc1 : cond0_1 i) :
    vo.read (Elt F) (vo.writes (Elt F) fo (kernelRun0_Last c i arg2 harg2 arg3 harg3 arg4 harg4 arg5 harg5 arg6 harg6 hc0 hc1 x0 x1 x2 xs0).1) = k0_pay1 (k0_pay3 x0 x1 x2 xs0) := by
  rw [View.read_writes_eq_canon _ _ _ (View.cover_of_tiledL (kernelRun0_Last c i arg2 harg2 arg3 harg3 arg4 harg4 arg5 harg5 arg6 harg6 hc0 hc1 x0 x1 x2 xs0).1 S1x64x192.size (by sl_kernel_rfl))]
  unfold kernelRun0_Last
  dsimp only
  sl_unfold_words
  rw [View.canon_unit_zero zeroOff3, View.readCov_unit_zero (S := S64x192) _ zeroOff2]
  simp only [View.readAt_eq_ld, harg2.read_unread, harg3.read_unread, harg4.read_unread, harg6.read_unread,
    View.ld_unit_zero (S := S16x128) zeroOff2, View.ld_unit_zero (S := S64x192) zeroOff2]

end Pieces

/-- The accumulator after the body at position n: the update, by the point's three blocks, of zero at j = 0 and of what position n − 1 left otherwise. -/
def acc0 (c : Dev nD) : (n : ℕ) → n < cfg0.N → Vec F S64x192 .f32
  | 0, hn => k0_pay3 (iblk0 V c 0 ⟨0, hn⟩) (iblk0 V c 1 ⟨0, hn⟩) (iblk0 V c 2 ⟨0, hn⟩) k0_pay2
  | n + 1, hn => k0_pay3 (iblk0 V c 0 ⟨n + 1, hn⟩) (iblk0 V c 1 ⟨n + 1, hn⟩) (iblk0 V c 2 ⟨n + 1, hn⟩)
      (if (n + 1) % 2048 = 0 then k0_pay2 else acc0 c n (Nat.lt_of_succ_lt hn))

theorem acc0_reset (c : Dev nD) (t : Fin cfg0.N) (h0 : t.val % 2048 = 0) :
    acc0 V c t.val t.isLt = k0_pay3 (iblk0 V c 0 t) (iblk0 V c 1 t) (iblk0 V c 2 t) k0_pay2 := by
  obtain ⟨n, hn⟩ := t
  cases n with
  | zero => rfl
  | succ n => exact congrArg (k0_pay3 _ _ _) (if_pos h0)

theorem acc0_step (c : Dev nD) (t : Fin cfg0.N) (h0 : ¬ t.val % 2048 = 0) :
    acc0 V c t.val t.isLt = k0_pay3 (iblk0 V c 0 t) (iblk0 V c 1 t) (iblk0 V c 2 t) (acc0 V c (t.val - 1) (Nat.lt_of_le_of_lt (Nat.sub_le _ _) t.isLt)) := by
  obtain ⟨n, hn⟩ := t
  cases n with
  | zero => exact absurd (Nat.zero_mod _) h0
  | succ n => exact congrArg (k0_pay3 _ _ _) (if_neg h0)

abbrev others0 (c : Dev nD) : sProp 𝕄 :=
  Pipeline.scopedRestBut (Ix := Unit) (Name := ℕ) (U := UR sig nD τ) (Lvl := ℕ) (Val := Elt F) spec0 c [cc0_scratch0]

/-- Before position n the accumulator holds what position n − 1 left (anything at n = 0); everything else is at anything. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-- After the body the inputs are their blocks, and the output block is the accumulator under a leading axis of extent one. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (acc0 V c t.val t.isLt)
  Φ t := PhiS0 V c t.val (Nat.le_of_lt_succ t.isLt)
  q _ := fullShare
  owed _ := 0

theorem PhiS0_castSucc (c : Dev nD) (t : Fin cfg0.N) :
    (dat0 V c).Φ t.castSucc = PhiS0 V c t.val (Nat.le_of_lt t.isLt) := by
  dsimp only [dat0]; simp only [Fin.coe_castSucc]

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_out (c : Dev nD) (t : Fin cfg0.N) : (dat0 V c).after 3 t = k0_pay1 (acc0 V c t.val t.isLt) := by dsimp only [dat0]

theorem before0_0 (c : Dev nD) (t : Fin cfg0.N) (d) : (dat0 V c).before 0 t d = iblk0 V c 0 t :=
  before0_0_of V (dat0 V c) (A_eq0 V c 0) t d
theorem before0_1 (c : Dev nD) (t : Fin cfg0.N) (d) : (dat0 V c).before 1 t d = iblk0 V c 1 t :=
  before0_1_of V (dat0 V c) (A_eq0 V c 1) t d
theorem before0_2 (c : Dev nD) (t : Fin cfg0.N) (d) : (dat0 V c).before 2 t d = iblk0 V c 2 t :=
  before0_2_of V (dat0 V c) (A_eq0 V c 2) t d

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

/-- What the accumulator holds can be forgotten at any point. -/
theorem Phi_out0 (c : Dev nD) (t : Fin (cfg0.N + 1)) : (dat0 V c).Φ t ⊢ Pipeline.ΦA spec0 c := by
  by_cases ht : t.val = 0
  · rw [show (dat0 V c).Φ t = PhiS0 V c t.val (Nat.le_of_lt_succ t.isLt) from rfl, PhiS0_zero V c _ _ ht]
  rw [show (dat0 V c).Φ t = PhiS0 V c t.val (Nat.le_of_lt_succ t.isLt) from rfl, PhiS0_pos V c _ _ ht, PhiA0_eq]
  iintro ⟨⟨HS0, Hrest⟩, Hg⟩
  iframe Hrest Hg
  iexists _; iexact HS0

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: j = t % 2048 says which run applies; the run is handed the accumulator and gives it back at the point's update. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = iprop(iprop(owns (c : Thread nD τ) scM0 fullShare (acc0 V c t.val t.isLt) ∗ others0 c) ∗ (∃ r, prngReg c r)) from rfl]
  rw [leaves0_0, leaves0_1, leaves0_2]
  by_cases h0 : t.val % 2048 = 0
  · have h1 : ¬ t.val % 2048 = 2047 := by omega
    rw [Dat.leavesExact_idle (dat0 V c) 3 t (idleAt0_3 t h1) (noFlush0_3 t h1), acc0_reset V c t h0]
    refine (sep_mono (Phi_out0 V c t.castSucc) .rfl).trans ?_
    rw [PhiA0_eq]
    iintro ⟨⟨⟨HS0, Hrest⟩, Hg⟩, Ho, ⟨%d0, H0⟩, ⟨%d1, H1⟩, ⟨%d2, H2⟩, ⟨%d3, H3⟩⟩
    iapply ((kernelRun0_Reset c _ _ _ _ _ _ _ _ _ _ _ (isReset t h0) (notLast t h1) (iblk0 V c 0 t) (iblk0 V c 1 t) (iblk0 V c 2 t)).2.2 _ Set.univ _)
    iframe H0 H1 H2 H3 HS0
    iintro ⟨H0, H1, H2, H3, ⟨%es0, HS0⟩⟩
    iframe Hrest Hg Ho H0 H1 H2
    isplitl [HS0]
    · unfold owns; iexists _; isplitr
      swap; · iexact HS0
      ipureintro; exact acc_Reset c _ _ _ _ _ _ _ _ _ _ _ _ _ _ _ _ _ _
    iexists _; iexact H3
  · have hz : t.val ≠ 0 := fun e => h0 (by rw [e])
    rw [acc0_step V c t h0, PhiS0_castSucc V c t, PhiS0_pos V c _ _ hz]
    by_cases h1 : t.val % 2048 = 2047
    · rw [show (dat0 V c).leavesExact 3 t = owns (c : Thread nD τ) (ms0_3 t) fullShare ((dat0 V c).after 3 t) from by
        unfold Dat.leavesExact; rw [liveAt0_3 t h1], after0_out, acc0_step V c t h0]
      iintro ⟨⟨⟨HS0, Hrest⟩, Hg⟩, Ho, ⟨%d0, H0⟩, ⟨%d1, H1⟩, ⟨%d2, H2⟩, ⟨%d3, H3⟩⟩
      iapply ((kernelRun0_Last c _ _ _ _ _ _ _ _ _ _ _ (notReset t h0) (isLast t h1) (iblk0 V c 0 t) (iblk0 V c 1 t) (iblk0 V c 2 t) _).2.2 Set.univ _)
      iframe H0 H1 H2 HS0
      isplitl [H3]; · iexists _; iexact H3
      iintro ⟨H0, H1, H2, ⟨%e3, H3⟩, ⟨%es0, HS0⟩⟩
      iframe Hrest Hg Ho H0 H1 H2
      isplitl [HS0]
      · unfold owns; iexists _; isplitr
        swap; · iexact HS0
        ipureintro; exact acc_Last c _ _ _ _ _ _ _ _ _ _ _ _ _ _ _ _ _ _ _
      unfold owns; iexists _; isplitr
      swap; · iexact H3
      ipureintro; exact out_Last c _ _ _ _ _ _ _ _ _ _ _ _ _ _ _ _ _ _ _
    · rw [Dat.leavesExact_idle (dat0 V c) 3 t (idleAt0_3 t h1) (noFlush0_3 t h1)]
      iintro ⟨⟨⟨HS0, Hrest⟩, Hg⟩, Ho, ⟨%d0, H0⟩, ⟨%d1, H1⟩, ⟨%d2, H2⟩, ⟨%d3, H3⟩⟩
      iapply ((kernelRun0_Step c _ _ _ _ _ _ _ _ _ _ _ (notReset t h0) (notLast t h1) (iblk0 V c 0 t) (iblk0 V c 1 t) (iblk0 V c 2 t) _).2.2 _ Set.univ _)
      iframe H0 H1 H2 H3 HS0
      iintro ⟨H0, H1, H2, H3, ⟨%es0, HS0⟩⟩
      iframe Hrest Hg Ho H0 H1 H2
      isplitl [HS0]
      · unfold owns; iexists _; isplitr
        swap; · iexact HS0
        ipureintro; exact acc_Step c _ _ _ _ _ _ _ _ _ _ _ _ _ _ _ _ _ _ _
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c := Phi_out0 V c _

end Cert.Kernel.Fr

end
-- ==== Proof.B_KlRuns.lean ====
/- The second pass (the per-node divergence terms summed per graph), its frame: what the three runs of the body share. A grid point is
   t = 2048 c + j; the 64 × 128 accumulator is cleared at j = 0 and copied into output block c at j = 2047; the table is one block, the whole array. -/
import proofs.«400573_j52158082842660_3_alg».proof.Proof.Gen.Kernel.Launch
import proofs.«400573_j52158082842660_3_alg».proof.Proof.Gen.Kernel.Skeleton
import proofs.«400573_j52158082842660_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at point t, read off the array the region found. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input the body only reads is, at every point, the point's block of its array. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hblock : ∀ s, dat.blockOf 0 s = iblk1 V c 0 s := fun s => by
    unfold Dat.blockOf iblk1; rw [hA]
  have hkeep : ∀ s, (cfg1.win 0).cut (cfg1.grid.coords s) (dat.after 0 s) = dat.blockOf 0 s := fun s => by
    rw [hafter, hblock]; try rfl
  rw [dat.before_in_eq_fetched 0 rfl (fun _ => rfl) (fun _ _ _ => rfl) hkeep t d]
  unfold Dat.fetched; rw [hblock]; try rfl

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hblock : ∀ s, dat.blockOf 1 s = iblk1 V c 1 s := fun s => by
    unfold Dat.blockOf iblk1; rw [hA]
  have hkeep : ∀ s, (cfg1.win 1).cut (cfg1.grid.coords s) (dat.after 1 s) = dat.blockOf 1 s := fun s => by
    rw [hafter, hblock]; try rfl
  rw [dat.before_in_eq_fetched 1 rfl (fun _ => rfl) (fun _ _ _ => rfl) hkeep t d]
  unfold Dat.fetched; rw [hblock]; try rfl

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have hblock : ∀ s, dat.blockOf 2 s = iblk1 V c 2 s := fun s => by
    unfold Dat.blockOf iblk1; rw [hA]
  have hkeep : ∀ s, (cfg1.win 2).cut (cfg1.grid.coords s) (dat.after 2 s) = dat.blockOf 2 s := fun s => by
    rw [hafter, hblock]; try rfl
  rw [dat.before_in_eq_fetched 2 rfl (fun _ => rfl) (fun _ _ _ => rfl) hkeep t d]
  unfold Dat.fetched; rw [hblock]; try rfl

theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have hblock : ∀ s, dat.blockOf 3 s = iblk1 V c 3 s := fun s => by
    unfold Dat.blockOf iblk1; rw [hA]
  have hkeep : ∀ s, (cfg1.win 3).cut (cfg1.grid.coords s) (dat.after 3 s) = dat.blockOf 3 s := fun s => by
    rw [hafter, hblock]; try rfl
  rw [dat.before_in_eq_fetched 3 rfl (fun _ => rfl) (fun _ _ _ => rfl) hkeep t d]
  unfold Dat.fetched; rw [hblock]; try rfl

abbrev cond1_0 (i : grid1.Coords) : Prop :=
  (Scalar.cmpi .ne (Scalar.extui (Scalar.cmpi .eq (BitVec.ofNat 32 (i 1).val) 0#32)) 0#32) = 1#1

abbrev cond1_1 (i : grid1.Coords) : Prop := k1_cond2 i = 1#1

/-- The test j = 0 in closed form over the 4096 points. -/
theorem hcond1_0 : ∀ t : Fin cfg1.N, cond1_0 (grid1.coords t) ↔ t.val % 2048 = 0 :=
  (by decide +kernel : ∀ t : Fin grid1.N, cond1_0 (grid1.coords t) ↔ t.val % 2048 = 0)

/-- The test j = 2047 in closed form over the 4096 points. -/
theorem hcond1_1 : ∀ t : Fin cfg1.N, cond1_1 (grid1.coords t) ↔ t.val % 2048 = 2047 :=
  (by decide +kernel : ∀ t : Fin grid1.N, cond1_1 (grid1.coords t) ↔ t.val % 2048 = 2047)

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl

theorem idleAt1_4 (i : grid1.Coords) (h : ¬cond1_1 i) : cfg1.idle 4 i = true := by
  show (!(k1_cond2 i == 1#1)) = true
  rw [Bool.not_eq_true', beq_eq_false_iff_ne]; exact h

theorem liveAt1_4 (i : grid1.Coords) (h : cond1_1 i) : cfg1.idle 4 i = false := by
  show (!(k1_cond2 i == 1#1)) = false
  rw [Bool.not_eq_false', beq_iff_eq]; exact h

theorem noFlush1_4 (t : Fin cfg1.N) (h : ¬t.val % 2048 = 2047) : (cfg1.win 4).flush t = false :=
  Bool.eq_false_iff.mpr fun hf => h ((flush1_4 t).mp hf)

abbrev VO1_4 : View sig .tc .vmem S1x64x128 .f32 := (Memref.whole cc1_stg4_0 : Memref sig .tc .vmem S1x64x128 .f32).view

abbrev ms1_0 (t : Fin cfg1.N) : Memref sig .tc .vmem S16x128 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64x128 .f32 := win1_4.stage (cfg1.slots t 4)
abbrev hs1_4 (t : Fin cfg1.N) : (ms1_4 t).IsWhole := hstage1_4 ((cfg1.slots t 4).cast nbuf1_4)

abbrev scM1 : Memref sig .tc .vmem S64x128 .f32 := Memref.whole cc1_scratch0
abbrev VS1 : View sig .tc .vmem S64x128 .f32 := scM1.view

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA
  rw [Pipeline.scopedRest_split_of_list spec1 c [cc1_scratch0] (by decide) (by decide)]
  simp only [bigSepL_singleton, scM1, owns_whole]
  rfl

end Cert.Kernel.Fr

end
-- ==== Proof.B_KlRunReset.lean ====
/- The second pass: the body run at j = 0, where the accumulator is cleared first. -/
import proofs.«400573_j52158082842660_3_alg».proof.Proof.B_KlRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- From the four input blocks and any accumulator the body reaches a continuation that gets the inputs back and the accumulator overwritten by the pieces the run finds. -/
noncomputable def kernelRun1_Reset (c : Dev nD) (i : grid1.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S64x128 .f32) (harg5 : arg5.IsWhole) (arg6 : Memref sig .tc .vmem S1x64x128 .f32) (harg6 : arg6.IsWhole) (arg7 : Memref sig .tc .vmem S64x128 .f32) (harg7 : arg7.IsWhole) (hc0 : cond1_0 i) (hc1 : ¬cond1_1 i)
    (x0 : Vec F S16x128 .i32) (x1 : Vec F S16x128 .f32) (x2 : Vec F S16x128 .f32) (x3 : Vec F S64x128 .f32) :
    Σ' (L4 : List (View.Piece (Elt F) S1x64x128 .f32)), { LS0 : List (View.Piece (Elt F) S64x128 .f32) //
      ∀ (xi4 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__kl_kernel i arg2 harg2 arg3 harg3 arg4 harg4 arg5 harg5 arg6 harg6 arg7 harg7) K } := by
  refine ⟨[], ?_, fun xi4 E K => ?run⟩
  case run =>
    simp only [cc1__kl_kernel_eq_skeleton]; unfold cc1__kl_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.B_KlRunStep.lean ====
/- The second pass: the body run at 0 < j < 2047, where it only accumulates. -/
import proofs.«400573_j52158082842660_3_alg».proof.Proof.B_KlRunReset

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- As at j = 0, but the accumulator comes in at the contents xs0 the point before left. -/
noncomputable def kernelRun1_Step (c : Dev nD) (i : grid1.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S64x128 .f32) (harg5 : arg5.IsWhole) (arg6 : Memref sig .tc .vmem S1x64x128 .f32) (harg6 : arg6.IsWhole) (arg7 : Memref sig .tc .vmem S64x128 .f32) (harg7 : arg7.IsWhole) (hc0 : ¬cond1_0 i) (hc1 : ¬cond1_1 i)
    (x0 : Vec F S16x128 .i32) (x1 : Vec F S16x128 .f32) (x2 : Vec F S16x128 .f32) (x3 : Vec F S64x128 .f32) (xs0 : Vec F S64x128 .f32) :
    Σ' (L4 : List (View.Piece (Elt F) S1x64x128 .f32)), { LS0 : List (View.Piece (Elt F) S64x128 .f32) //
      ∀ (xi4 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__kl_kernel i arg2 harg2 arg3 harg3 arg4 harg4 arg5 harg5 arg6 harg6 arg7 harg7) K } := by
  refine ⟨[], ?_, fun xi4 E K => ?run⟩
  case run =>
    simp only [cc1__kl_kernel_eq_skeleton]; unfold cc1__kl_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.B_KlRunLast.lean ====
/- The second pass: the body run at j = 2047, where the accumulator is also copied to the output block. -/
import proofs.«400573_j52158082842660_3_alg».proof.Proof.B_KlRunStep

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The accumulator comes in at xs0; the output block comes in at anything and goes out covered by one piece. -/
noncomputable def kernelRun1_Last (c : Dev nD) (i : grid1.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S64x128 .f32) (harg5 : arg5.IsWhole) (arg6 : Memref sig .tc .vmem S1x64x128 .f32) (harg6 : arg6.IsWhole) (arg7 : Memref sig .tc .vmem S64x128 .f32) (harg7 : arg7.IsWhole) (hc0 : ¬cond1_0 i) (hc1 : cond1_1 i)
    (x0 : Vec F S16x128 .i32) (x1 : Vec F S16x128 .f32) (x2 : Vec F S16x128 .f32) (x3 : Vec F S64x128 .f32) (xs0 : Vec F S64x128 .f32) :
    Σ' (L4 : List (View.Piece (Elt F) S1x64x128 .f32)), { LS0 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__kl_kernel i arg2 harg2 arg3 harg3 arg4 harg4 arg5 harg5 arg6 harg6 arg7 harg7) K } := by
  refine ⟨?_, ?_, fun E K => ?run⟩
  case run =>
    simp only [cc1__kl_kernel_eq_skeleton]; unfold cc1__kl_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.B_KlFrame.lean ====
/- The second pass, its frame: the accumulator after each point in closed form, the invariant along the points, the proof data at any entry
   contents V, and the body obligation. -/
import proofs.«400573_j52158082842660_3_alg».proof.Proof.B_KlRunLast
import proofs.«400573_j52158082842660_3_alg».proof.Proof.B_StatsFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem isReset1 (t : Fin cfg1.N) (h : t.val % 2048 = 0) : cond1_0 (grid1.coords t) := (hcond1_0 t).mpr h
theorem notReset1 (t : Fin cfg1.N) (h : ¬ t.val % 2048 = 0) : ¬cond1_0 (grid1.coords t) := fun e => h ((hcond1_0 t).mp e)
theorem isLast1 (t : Fin cfg1.N) (h : t.val % 2048 = 2047) : cond1_1 (grid1.coords t) := (hcond1_1 t).mpr h
theorem notLast1 (t : Fin cfg1.N) (h : ¬ t.val % 2048 = 2047) : ¬cond1_1 (grid1.coords t) := fun e => h ((hcond1_1 t).mp e)

/-- What a point makes of the accumulator xs: the update by the point's node words, its two score blocks and the table. -/
abbrev upd1 (x0 : Vec F S16x128 .i32) (x1 x2 : Vec F S16x128 .f32) (x3 xs : Vec F S64x128 .f32) : Vec F S64x128 .f32 :=
  k1_pay12 (k1_pay4 x0) (k1_pay5 x0) (k1_pay6 x1) (k1_pay7 x2) (k1_pay10 x0 x3) (k1_pay11 x0 x3) xs

section Pieces

variable (c : Dev nD) (i : grid1.Coords) (arg2 : Memref sig .tc .vmem S16x128 .i32) (harg2 : arg2.IsWhole)
  (arg3 : Memref sig .tc .vmem S16x128 .f32) (harg3 : arg3.IsWhole) (arg4 : Memref sig .tc .vmem S16x128 .f32) (harg4 : arg4.IsWhole)
  (arg5 : Memref sig .tc .vmem S64x128 .f32) (harg5 : arg5.IsWhole) (arg6 : Memref sig .tc .vmem S1x64x128 .f32) (harg6 : arg6.IsWhole)
  (arg7 : Memref sig .tc .vmem S64x128 .f32) (harg7 : arg7.IsWhole)
  (x0 : Vec F S16x128 .i32) (x1 x2 : Vec F S16x128 .f32) (x3 xs0 : Vec F S64x128 .f32)
  (v : View sig .tc .vmem S64x128 .f32) (f : v.ty.Contents (Elt F))
  (vo : View sig .tc .vmem S1x64x128 .f32) (fo : vo.ty.Contents (Elt F))

/-- The stores a run finds cover the accumulator, so it ends at the update of the block the run started from, whatever it held. -/
theorem acc1_Reset (hc0 : cond1_0 i) (hc1 : ¬cond1_1 i) :
    v.read (Elt F) (v.writes (Elt F) f (kernelRun1_Reset c i arg2 harg2 arg3 harg3 arg4 harg4 arg5 harg5 arg6 harg6 arg7 harg7 hc0 hc1 x0 x1 x2 x3).2.1) = upd1 x0 x1 x2 x3 k1_pay2 := by
  rw [View.read_writes_eq_canon _ _ _ (View.cover_of_tiledL (kernelRun1_Reset c i arg2 harg2 arg3 harg3 arg4 harg4 arg5 harg5 arg6 harg6 arg7 harg7 hc0 hc1 x0 x1 x2 x3).2.1 S64x128.size (by sl_kernel_rfl))]
  unfold kernelRun1_Reset
  dsimp only
  sl_unfold_words
  rw [View.canon_cons_unit_zero (S := S64x128) zeroOff2]
  simp only [View.readAt_eq_ld, harg2.read_unread, harg3.read_unread, harg4.read_unread, harg5.read_unread, harg6.read_unread, harg7.read_unread,
    View.ld_unit_zero (S := S16x128) zeroOff2, View.ld_unit_zero (S := S64x128) zeroOff2, View.ld_unit_zero (S := S1x64x128) zeroOff3,
    View.readCov_unit_zero (S := S64x128) _ zeroOff2]

theorem acc1_Step (hc0 : ¬cond1_0 i) (hc1 : ¬cond1_1 i) :
    v.read (Elt F) (v.writes (Elt F) f (kernelRun1_Step c i arg2 harg2 arg3 harg3 arg4 harg4 arg5 harg5 arg6 harg6 arg7 harg7 hc0 hc1 x0 x1 x2 x3 xs0).2.1) = upd1 x0 x1 x2 x3 xs0 := by
  rw [View.read_writes_eq_canon _ _ _ (View.cover_of_tiledL (kernelRun1_Step c i arg2 harg2 arg3 harg3 arg4 harg4 arg5 harg5 arg6 harg6 arg7 harg7 hc0 hc1 x0 x1 x2 x3 xs0).2.1 S64x128.size (by sl_kernel_rfl))]
  unfold kernelRun1_Step
  dsimp only
  sl_unfold_words
  rw [View.canon_unit_zero zeroOff2]
  simp only [View.readAt_eq_ld, harg2.read_unread, harg3.read_unread, harg4.read_unread, harg5.read_unread, harg6.read_unread, harg7.read_unread,
    View.ld_unit_zero (S := S16x128) zeroOff2, View.ld_unit_zero (S := S64x128) zeroOff2, View.ld_unit_zero (S := S1x64x128) zeroOff3,
    View.readCov_unit_zero (S := S64x128) _ zeroOff2]

theorem acc1_Last (hc0 : ¬cond1_0 i) (hc1 : cond1_1 i) :
    v.read (Elt F) (v.writes (Elt F) f (kernelRun1_Last c i arg2 harg2 arg3 harg3 arg4 harg4 arg5 harg5 arg6 harg6 arg7 harg7 hc0 hc1 x0 x1 x2 x3 xs0).2.1) = upd1 x0 x1 x2 x3 xs0 := by
  rw [View.read_writes_eq_canon _ _ _ (View.cover_of_tiledL (kernelRun1_Last c i arg2 harg2 arg3 harg3 arg4 harg4 arg5 harg5 arg6 harg6 arg7 harg7 hc0 hc1 x0 x1 x2 x3 xs0).2.1 S64x128.size (by sl_kernel_rfl))]
  unfold kernelRun1_Last
  dsimp only
  sl_unfold_words
  rw [View.canon_unit_zero zeroOff2]
  simp only [View.readAt_eq_ld, harg2.read_unread, harg3.read_unread, harg4.read_unread, harg5.read_unread, harg6.read_unread, harg7.read_unread,
    View.ld_unit_zero (S := S16x128) zeroOff2, View.ld_unit_zero (S := S64x128) zeroOff2, View.ld_unit_zero (S := S1x64x128) zeroOff3,
    View.readCov_unit_zero (S := S64x128) _ zeroOff2]

/-- At j = 2047 the output block receives the updated accumulator under a leading axis of extent one. -/
theorem out1_Last (hc0 : ¬cond1_0 i) (hc1 : cond1_1 i) :
    vo.read (Elt F) (vo.writes (Elt F) fo (kernelRun1_Last c i arg2 harg2 arg3 harg3 arg4 harg4 arg5 harg5 arg6 harg6 arg7 harg7 hc0 hc1 x0 x1 x2 x3 xs0).1) = k1_pay1 (upd1 x0 x1 x2 x3 xs0) := by
  rw [View.read_writes_eq_canon _ _ _ (View.cover_of_tiledL (kernelRun1_Last c i arg2 harg2 arg3 harg3 arg4 harg4 arg5 harg5 arg6 harg6 arg7 harg7 hc0 hc1 x0 x1 x2 x3 xs0).1 S1x64x128.size (by sl_kernel_rfl))]
  unfold kernelRun1_Last
  dsimp only
  sl_unfold_words
  rw [View.canon_unit_zero zeroOff3]
  simp only [View.readAt_eq_ld, harg2.read_unread, harg3.read_unread, harg4.read_unread, harg5.read_unread, harg6.read_unread, harg7.read_unread,
    View.ld_unit_zero (S := S16x128) zeroOff2, View.ld_unit_zero (S := S64x128) zeroOff2, View.ld_unit_zero (S := S1x64x128) zeroOff3,
    View.readCov_unit_zero (S := S64x128) _ zeroOff2]

end Pieces

/-- The accumulator after the body at position n: the update of zero at j = 0 and of what position n − 1 left otherwise. -/
def acc1 (c : Dev nD) : (n : ℕ) → n < cfg1.N → Vec F S64x128 .f32
  | 0, hn => upd1 (iblk1 V c 0 ⟨0, hn⟩) (iblk1 V c 1 ⟨0, hn⟩) (iblk1 V c 2 ⟨0, hn⟩) (iblk1 V c 3 ⟨0, hn⟩) k1_pay2
  | n + 1, hn => upd1 (iblk1 V c 0 ⟨n + 1, hn⟩) (iblk1 V c 1 ⟨n + 1, hn⟩) (iblk1 V c 2 ⟨n + 1, hn⟩) (iblk1 V c 3 ⟨n + 1, hn⟩)
      (if (n + 1) % 2048 = 0 then k1_pay2 else acc1 c n (Nat.lt_of_succ_lt hn))

theorem acc1_reset (c : Dev nD) (t : Fin cfg1.N) (h0 : t.val % 2048 = 0) :
    acc1 V c t.val t.isLt = upd1 (iblk1 V c 0 t) (iblk1 V c 1 t) (iblk1 V c 2 t) (iblk1 V c 3 t) k1_pay2 := by
  obtain ⟨n, hn⟩ := t
  cases n with
  | zero => rfl
  | succ n => exact congrArg (upd1 _ _ _ _) (if_pos h0)

theorem acc1_step (c : Dev nD) (t : Fin cfg1.N) (h0 : ¬ t.val % 2048 = 0) :
    acc1 V c t.val t.isLt = upd1 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd (Nat.zero_mod _) h0
  | succ n => exact congrArg (upd1 _ _ _ _) (if_neg h0)

/-- Before position n the accumulator holds what position n − 1 left (anything at n = 0); everything else is at anything. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 (F := F) c) ∗ (∃ r, prngReg c r)) := by
  cases n with
  | zero => exact absurd rfl hz
  | succ n => rfl

/-- After the body the inputs are their blocks, and the output block is the accumulator under a leading axis of extent one. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the accumulator holds can be forgotten at any point. -/
theorem Phi_out1 (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
  rw [show (dat1 V c).Φ t = PhiS1 V c t.val (Nat.le_of_lt_succ t.isLt) from rfl, PhiS1_pos V c _ _ ht, PhiA1_eq]
  iintro ⟨⟨HS0, HR⟩, Hg⟩
  iframe HR Hg
  iexists _; iexact HS0

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: j = t % 2048 says which run applies; the run is handed the accumulator and gives it back at the point's update. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = iprop(iprop(owns (c : Thread nD τ) scM1 fullShare (acc1 V c t.val t.isLt) ∗ others1 (F := F) c) ∗ (∃ r, prngReg c r)) from rfl]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 2048 = 0
  · have h1 : ¬t.val % 2048 = 2047 := by omega
    rw [Dat.leavesExact_idle (dat1 V c) 4 t (idleAt1_4 _ (notLast1 t h1)) (noFlush1_4 t h1), acc1_reset V c t h0]
    refine (sep_mono (Phi_out1 V c t.castSucc) .rfl).trans ?_
    rw [PhiA1_eq]
    iintro ⟨⟨⟨HS0, HR⟩, Hg⟩, Ho, ⟨%d0, H0⟩, ⟨%d1, H1⟩, ⟨%d2, H2⟩, ⟨%d3, H3⟩, ⟨%d4, H4⟩⟩
    iapply ((kernelRun1_Reset c (grid1.coords t) _ _ _ _ _ _ _ _ _ _ _ _ (isReset1 t h0) (notLast1 t h1) (iblk1 V c 0 t) (iblk1 V c 1 t) (iblk1 V c 2 t) (iblk1 V c 3 t)).2.2 _ Set.univ _)
    iframe H0 H1 H2 H3 H4 HS0
    iintro ⟨H0, H1, H2, H3, H4, ⟨%es0, HS0⟩⟩
    iframe HR Hg Ho H0 H1 H2 H3
    isplitl [HS0]
    · unfold owns; iexists _; isplitr
      swap; · iexact HS0
      ipureintro; exact acc1_Reset c _ _ _ _ _ _ _ _ _ _ _ _ _ _ _ _ _ _ _ _ _
    iexists _; iexact H4
  · have hz : t.val ≠ 0 := fun e => h0 (by rw [e])
    rw [acc1_step V c t h0, PhiS1_castSucc V c t, PhiS1_pos V c _ _ hz]
    by_cases h1 : t.val % 2048 = 2047
    · rw [show (dat1 V c).leavesExact 4 t = owns (c : Thread nD τ) (ms1_4 t) fullShare ((dat1 V c).after 4 t) from by
        unfold Dat.leavesExact; rw [liveAt1_4 _ (isLast1 t h1)], after1_4, acc1_step V c t h0]
      iintro ⟨⟨⟨HS0, HR⟩, Hg⟩, Ho, ⟨%d0, H0⟩, ⟨%d1, H1⟩, ⟨%d2, H2⟩, ⟨%d3, H3⟩, ⟨%d4, H4⟩⟩
      iapply ((kernelRun1_Last c (grid1.coords t) _ _ _ _ _ _ _ _ _ _ _ _ (notReset1 t h0) (isLast1 t h1) (iblk1 V c 0 t) (iblk1 V c 1 t) (iblk1 V c 2 t) (iblk1 V c 3 t) _).2.2 Set.univ _)
      iframe H0 H1 H2 H3 HS0
      isplitl [H4]; · iexists _; iexact H4
      iintro ⟨H0, H1, H2, H3, ⟨%e4, H4⟩, ⟨%es0, HS0⟩⟩
      iframe HR Hg Ho H0 H1 H2 H3
      isplitl [HS0]
      · unfold owns; iexists _; isplitr
        swap; · iexact HS0
        ipureintro; exact acc1_Last c _ _ _ _ _ _ _ _ _ _ _ _ _ _ _ _ _ _ _ _ _ _
      unfold owns; iexists _; isplitr
      swap; · iexact H4
      ipureintro; exact out1_Last c _ _ _ _ _ _ _ _ _ _ _ _ _ _ _ _ _ _ _ _ _ _
    · rw [Dat.leavesExact_idle (dat1 V c) 4 t (idleAt1_4 _ (notLast1 t h1)) (noFlush1_4 t h1)]
      iintro ⟨⟨⟨HS0, HR⟩, Hg⟩, Ho, ⟨%d0, H0⟩, ⟨%d1, H1⟩, ⟨%d2, H2⟩, ⟨%d3, H3⟩, ⟨%d4, H4⟩⟩
      iapply ((kernelRun1_Step c (grid1.coords t) _ _ _ _ _ _ _ _ _ _ _ _ (notReset1 t h0) (notLast1 t h1) (iblk1 V c 0 t) (iblk1 V c 1 t) (iblk1 V c 2 t) (iblk1 V c 3 t) _).2.2 _ Set.univ _)
      iframe H0 H1 H2 H3 H4 HS0
      iintro ⟨H0, H1, H2, H3, H4, ⟨%es0, HS0⟩⟩
      iframe HR Hg Ho H0 H1 H2 H3
      isplitl [HS0]
      · unfold owns; iexists _; isplitr
        swap; · iexact HS0
        ipureintro; exact acc1_Step c _ _ _ _ _ _ _ _ _ _ _ _ _ _ _ _ _ _ _ _ _ _
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := Phi_out1 V c _

end Cert.Kernel.Fr

end
-- ==== Proof.B_AsmData.lean ====
/- The contents of the arrays at the two regions' boundaries. @main is host operations, the first pass, host operations, the second pass, host
   operations; what each pass leaves in its output array is pinned to what its points' blocks fold to, and the two passes' proof data are one family. -/
import proofs.«400573_j52158082842660_3_alg».proof.Proof.B_StatsFrame
import proofs.«400573_j52158082842660_3_alg».proof.Proof.B_KlFrame
import proofs.«400573_j52158082842660_3_alg».proof.Proof.Gen.Kernel.Regions
import Idealize.ShloMosaic.Lib.Pipeline.Frame
import Idealize.ShloMosaic.Lib.Pipeline.FrameBody
import Idealize.ShloMosaic.Lib.Pipeline.Regions
import Idealize.ShloMosaic.Lib.Pipeline.FrameSuffix
import Idealize.ShloMosaic.Lib.Pipeline.RegionsLoop
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Asm
variable (m : (ℓ : Loc nD τ sig) → Buf (Elt F) ℓ)

abbrev 𝒱₀ : Variants := Variants.none

abbrev Lv0 : GSem nD τ sig → Finset Unit := fun _ => ∅
abbrev lv0 : GSem nD τ sig → Unit → ℕ := fun _ _ => 0

abbrev Rest (c : Dev nD) : sProp 𝕄 := iprop((∃ r, prngReg c r) ∗ ∃ W, owes (c : Thread nD τ) (0 : CellTallies nD τ sig Unit) W)

abbrev Vr4 : (c : Dev nD) → (b : Ref sig .tc) → Buf (Elt F) ((c : Thread nD τ).loc b) := fun c b => V4 m c b

def W5 (c : Dev nD) : Valuation τ sig (Elt F) :=
  Pipeline.withArrays spec0 c (V4 m c) fun w => (dat0 (Vr4 m) c).arrAt w cfg0.N

def outsA : Outs (F := F) := fun _ r c => W5 m c (Proc.devRef .tc r)

theorem V5A_of (c : Dev nD) (r : Ref sig .tc) (h : r ∉ ([main_v9] : List (Ref sig .tc))) : V5 m (outsA m) c r = V4 m c r := V5_of m (outsA m) c r h

/-- After the first pass every window's array is what the next item finds there. -/
theorem exit0_arr (c : Dev nD) (w : Fin cfg0.W) : (dat0 (Vr4 m) c).arrAt w cfg0.N = V5 m (outsA m) c (Pipeline.arrRef spec0 w) := by
  match w with
  | ⟨0, _⟩ => exact ((dat0 (Vr4 m) c).arrAt_in 0 rfl _).trans ((A_eq0 (Vr4 m) c 0).trans (V5A_of m c main_v6 (by decide)).symm)
  | ⟨1, _⟩ => exact ((dat0 (Vr4 m) c).arrAt_in 1 rfl _).trans ((A_eq0 (Vr4 m) c 1).trans (V5A_of m c main_v7 (by decide)).symm)
  | ⟨2, _⟩ => exact ((dat0 (Vr4 m) c).arrAt_in 2 rfl _).trans ((A_eq0 (Vr4 m) c 2).trans (V5A_of m c main_v8 (by decide)).symm)
  | ⟨3, h3⟩ =>
    have e := Pipeline.withArrays_arr spec0 launch0.win.arr_inj c (V4 m c) (fun w => (dat0 (Vr4 m) c).arrAt w cfg0.N) ⟨3, h3⟩
    show _ = Function.update (V4 m c) (Proc.devRef .tc main_v9) (outsA m 5 main_v9 c) (Proc.devRef .tc main_v9)
    rw [Function.update_self]
    exact e.symm

theorem exit0_rest (c : Dev nD) : ∀ b, b ∉ Finset.univ.image (Pipeline.arrRef spec0) → V5 m (outsA m) c b = Vr4 m c b :=
  fun b hb => V5A_of m c b fun h => hb (by
    rw [List.mem_singleton] at h; subst h
    exact Finset.mem_image.mpr ⟨3, Finset.mem_univ _, rfl⟩)
end Asm

section Asm1
variable (m : (ℓ : Loc nD τ sig) → Buf (Elt F) ℓ)

abbrev Vr6 : (c : Dev nD) → (b : Ref sig .tc) → Buf (Elt F) ((c : Thread nD τ).loc b) := fun c b => V6 m (outsA m) c b

def W7 (c : Dev nD) : Valuation τ sig (Elt F) :=
  Pipeline.withArrays spec1 c (V6 m (outsA m) c) fun w => (dat1 (Vr6 m) c).arrAt w cfg1.N

/-- What the two passes leave in their output arrays. -/
def outsK : Outs (F := F) := fun j r c => if j = 5 then W5 m c (Proc.devRef .tc r) else W7 m c (Proc.devRef .tc r)

theorem V5K (c : Dev nD) : V5 m (outsK m) c = V5 m (outsA m) c := rfl
theorem V6K (c : Dev nD) : V6 m (outsK m) c = V6 m (outsA m) c := rfl

theorem V7K_of (c : Dev nD) (r : Ref sig .tc) (h : r ∉ ([main_v12] : List (Ref sig .tc))) : V7 m (outsK m) c r = V6 m (outsA m) c r :=
  (V7_of m (outsK m) c r h).trans (congrFun (V6K m c) _)

/-- After the second pass likewise. -/
theorem exit1_arr (c : Dev nD) (w : Fin cfg1.W) : (dat1 (Vr6 m) c).arrAt w cfg1.N = V7 m (outsK m) c (Pipeline.arrRef spec1 w) := by
  match w with
  | ⟨0, _⟩ => exact ((dat1 (Vr6 m) c).arrAt_in 0 rfl _).trans ((A_eq1 (Vr6 m) c 0).trans (V7K_of m c main_v6 (by decide)).symm)
  | ⟨1, _⟩ => exact ((dat1 (Vr6 m) c).arrAt_in 1 rfl _).trans ((A_eq1 (Vr6 m) c 1).trans (V7K_of m c main_v7 (by decide)).symm)
  | ⟨2, _⟩ => exact ((dat1 (Vr6 m) c).arrAt_in 2 rfl _).trans ((A_eq1 (Vr6 m) c 2).trans (V7K_of m c main_v8 (by decide)).symm)
  | ⟨3, _⟩ => exact ((dat1 (Vr6 m) c).arrAt_in 3 rfl _).trans ((A_eq1 (Vr6 m) c 3).trans (V7K_of m c main_v11 (by decide)).symm)
  | ⟨4, h4⟩ =>
    have e := Pipeline.withArrays_arr spec1 launch1.win.arr_inj c (V6 m (outsA m) c) (fun w => (dat1 (Vr6 m) c).arrAt w cfg1.N) ⟨4, h4⟩
    show _ = Function.update (V6 m (outsK m) c) (Proc.devRef .tc main_v12) (outsK m 7 main_v12 c) (Proc.devRef .tc main_v12)
    rw [Function.update_self]
    exact e.symm
theorem exit1_rest (c : Dev nD) : ∀ b, b ∉ Finset.univ.image (Pipeline.arrRef spec1) → V7 m (outsK m) c b = Vr6 m c b :=
  fun b hb => V7K_of m c b fun h => hb (by
    rw [List.mem_singleton] at h; subst h
    exact Finset.mem_image.mpr ⟨4, Finset.mem_univ _, rfl⟩)

theorem outsK_stats (c : Dev nD) : (dat0 (Vr4 m) c).arrAt ⟨3, by decide⟩ cfg0.N = outsK m 5 (Pipeline.arrRef spec0 ⟨3, by decide⟩) c := by
  have h3 : 3 < cfg0.W := by decide
  have e := Pipeline.withArrays_arr spec0 launch0.win.arr_inj c (V4 m c) (fun w => (dat0 (Vr4 m) c).arrAt w cfg0.N) ⟨3, h3⟩
  exact e.symm

theorem outsK_kl (c : Dev nD) : (dat1 (Vr6 m) c).arrAt ⟨4, by decide⟩ cfg1.N = outsK m 7 (Pipeline.arrRef spec1 ⟨4, by decide⟩) c := by
  have h4 : 4 < cfg1.W := by decide
  have e := Pipeline.withArrays_arr spec1 launch1.win.arr_inj c (V6 m (outsA m) c) (fun w => (dat1 (Vr6 m) c).arrAt w cfg1.N) ⟨4, h4⟩
  exact e.symm

theorem exit0_arrK (c : Dev nD) (w : Fin cfg0.W) : (dat0 (Vr4 m) c).arrAt w cfg0.N = V5 m (outsK m) c (Pipeline.arrRef spec0 w) := exit0_arr m c w
theorem exit0_restK (c : Dev nD) : ∀ b, b ∉ Finset.univ.image (Pipeline.arrRef spec0) → V5 m (outsK m) c b = Vr4 m c b := exit0_rest m c
end Asm1

section PD
variable (m : (ℓ : Loc nD τ sig) → Buf (Elt F) ℓ)

def pdats : (p : Fin 2) → (c : Dev nD) → Dat τ (Elt F) Unit ℕ (UR sig nD τ) ℕ (cfgs p) c
  | ⟨0, _⟩ => fun c => dat0 (Vr4 m) c
  | ⟨1, _⟩ => fun c => dat1 (Vr6 m) c
end PD

end Cert.Kernel.Fr

end
-- ==== Proof.B_AsmRegStats.lean ====
/- The first pass as one segment of @main's run: entered with the arrays at the contents the host operations before it leave, left with its
   output array at what its blocks fold to and every other array unchanged. -/
import proofs.«400573_j52158082842660_3_alg».proof.Proof.B_AsmData
import Idealize.ShloMosaic.Lib.Pipeline.Frame
import Idealize.ShloMosaic.Lib.Pipeline.FrameBody
import Idealize.ShloMosaic.Lib.Pipeline.Regions
import Idealize.ShloMosaic.Lib.Pipeline.FrameSuffix
import Idealize.ShloMosaic.Lib.Pipeline.RegionsLoop
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Regs
variable (m : (ℓ : Loc nD τ sig) → Buf (Elt F) ℓ)

set_option backward.isDefEq.respectTransparency.types false in
def reg0 : Pipeline.RegionSeg (pcfgs (F := F)) adm (pdats m) () defs₀ 𝒱₀ Lv0 lv0 0 where
  win := launch0.win.to₀
  block_pos := launch0.block_pos
  stage_whole := launch0.stage_whole
  K := PEmpty
  osem k := k.elim
  ho := Pipeline.OwnSemFacts.none _
  hbody c := (body_obligation0 (Vr4 m) c).loose
  hwaits := Pipeline.hwaits_of_owed_zero _ _ _ _ Lv0 lv0 0 fun _ _ => rfl
  pre c := iprop(StableHlo.held (c : Thread nD τ) (Pipeline.ucRefs τ sig) (V4 m c) ∗ Rest c)
  post c := iprop(StableHlo.held (c : Thread nD τ) (Pipeline.ucRefs τ sig) (V5 m (outsK m) c) ∗ Rest c)
  X c := iprop(∃ r, prngReg c r)
  Y c := iprop(∃ r, prngReg c r)
  Z c := Pipeline.unscopedRest (Ix := Unit) (Name := ℕ) (U := UR sig nD τ) (Lvl := ℕ) spec0 c (Vr4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vr4 m) c).Φ 0 from rfl]
    iintro ⟨Hp, -, Hr⟩
    iapply (hin0 (Vr4 m) c)
    unfold Pipeline.ΦA
    isplitl [Hr]; · iexact Hr
    iexact Hp
  hout c := by
    rw [Pipeline.ownSems0_none, show (pdats m 0 c).Φ (Fin.last _) = (dat0 (Vr4 m) c).Φ (Fin.last cfg0.N) from rfl]
    iintro H
    ihave H' := (hout0 (Vr4 m) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr4 m c) (fun b => V5 m (outsK m) c b) ((pdats m 0 c).arrAt · cfg0.N) (exit0_arrK m c) (exit0_restK m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regs

end Cert.Kernel.Fr

end
-- ==== Proof.B_AsmRegKl.lean ====
import proofs.«400573_j52158082842660_3_alg».proof.Proof.B_AsmRegStats
import Idealize.ShloMosaic.Lib.Pipeline.Frame
import Idealize.ShloMosaic.Lib.Pipeline.FrameBody
import Idealize.ShloMosaic.Lib.Pipeline.Regions
import Idealize.ShloMosaic.Lib.Pipeline.FrameSuffix
import Idealize.ShloMosaic.Lib.Pipeline.RegionsLoop
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Regs
variable (m : (ℓ : Loc nD τ sig) → Buf (Elt F) ℓ)

set_option backward.isDefEq.respectTransparency.types false in
def reg1 : Pipeline.RegionSeg (pcfgs (F := F)) adm (pdats m) () defs₀ 𝒱₀ Lv0 lv0 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ Lv0 lv0 1 fun _ _ => rfl
  pre c := iprop(StableHlo.held (c : Thread nD τ) (Pipeline.ucRefs τ sig) (V6 m (outsA m) c) ∗ Rest c)
  post c := iprop(StableHlo.held (c : Thread nD τ) (Pipeline.ucRefs τ sig) (V7 m (outsK m) c) ∗ Rest c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vr6 m) c).Φ 0 from rfl]
    iintro ⟨Hp, -, Hr⟩
    iapply (hin1 (Vr6 m) c)
    unfold Pipeline.ΦA
    isplitl [Hr]; · iexact Hr
    iexact Hp
  hout c := by
    rw [Pipeline.ownSems0_none, show (pdats m 1 c).Φ (Fin.last _) = (dat1 (Vr6 m) c).Φ (Fin.last cfg1.N) from rfl]
    iintro H
    ihave H' := (hout1 (Vr6 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (fun b => V7 m (outsK m) c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regs

end Cert.Kernel.Fr

end
-- ==== Proof.B_Assemble.lean ====
/- The frame of the word-level program: from any memory with zero counters every weakly fair execution of @main ends, faults nowhere, and leaves
   each of the seven argument arrays as launched. It is the conditional frame over the two passes' segments. -/
import proofs.«400573_j52158082842660_3_alg».proof.Proof.B_AsmRegKl
import Idealize.ShloMosaic.Lib.Pipeline.Frame
import Idealize.ShloMosaic.Lib.Pipeline.FrameBody
import Idealize.ShloMosaic.Lib.Pipeline.Regions
import Idealize.ShloMosaic.Lib.Pipeline.FrameSuffix
import Idealize.ShloMosaic.Lib.Pipeline.RegionsLoop
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Frame
variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond (m := m) (EP := emb₁) (ι := ()) (𝒱₀ := Variants.none) (L := Lv0) (lv := lv0) (hL := fun _ _ => rfl)
    (ρ := ρ) (outs := outsK m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ Rest c := fun c => by
        iintro ⟨-, HO, -, Hp, -⟩
        isplitl [Hp]; · iexists _; iexact Hp
        iexists ∅; iexact HO
      have h : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => Rest c) : sProp 𝕄) := bigSep_mono fun c _ => hc c
      iintro ⟨H, -⟩
      imodintro
      ihave H' := h $$ H
      iexact H')
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)
end Frame

end Cert.Kernel.Fr

end
-- ==== Proof.StatsRuns.lean ====
/- The first pass (statistics), its frame: what the three runs of the body share. A grid point is t = 2048 c + j; the 64 × 192 accumulator is
   cleared at j = 0 and copied into output block c at j = 2047. Everything is stated at any contents V of the arrays on entry. -/
import proofs.«400573_j52158082842660_3_alg».proof.Proof.Gen.KernelIdeal.Launch
import proofs.«400573_j52158082842660_3_alg».proof.Proof.Gen.KernelIdeal.Skeleton
import proofs.«400573_j52158082842660_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at point t, read off the array the region found. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (t : Fin cfg0.N) (d) : dat.before 0 t d = iblk0 V c 0 t := by
  unfold Dat.before
  rw [if_pos (fetch0_0 t)]
  unfold Dat.fetched Dat.blockOf iblk0
  rw [hA]; rfl

theorem before0_1_of {c : Dev nD} (dat : Dat τ (Elt F) Unit ℕ (UR sig nD τ) ℕ cfg0 c) (hA : dat.A 1 = V c (Pipeline.arrRef spec0 1))
    (t : Fin cfg0.N) (d) : dat.before 1 t d = iblk0 V c 1 t := by
  unfold Dat.before
  rw [if_pos (fetch0_1 t)]
  unfold Dat.fetched Dat.blockOf iblk0
  rw [hA]; rfl

theorem before0_2_of {c : Dev nD} (dat : Dat τ (Elt F) Unit ℕ (UR sig nD τ) ℕ cfg0 c) (hA : dat.A 2 = V c (Pipeline.arrRef spec0 2))
    (t : Fin cfg0.N) (d) : dat.before 2 t d = iblk0 V c 2 t := by
  unfold Dat.before
  rw [if_pos (fetch0_2 t)]
  unfold Dat.fetched Dat.blockOf iblk0
  rw [hA]; rfl

abbrev cond0_0 (i : grid0.Coords) : Prop :=
  (Scalar.cmpi .ne (Scalar.extui (Scalar.cmpi .eq (BitVec.ofNat 32 (i 1).val) 0#32)) 0#32) = 1#1

/-- The test j = 0 in closed form over the 4096 points. -/
theorem hcond0_0 : ∀ t : Fin cfg0.N, cond0_0 (grid0.coords t) ↔ t.val % 2048 = 0 :=
  (by decide +kernel : ∀ t : Fin grid0.N, cond0_0 (grid0.coords t) ↔ t.val % 2048 = 0)

abbrev cond0_1 (i : grid0.Coords) : Prop := k0_cond2 i = 1#1

/-- The test j = 2047 in closed form over the 4096 points. -/
theorem hcond0_1 : ∀ t : Fin cfg0.N, cond0_1 (grid0.coords t) ↔ t.val % 2048 = 2047 :=
  (by decide +kernel : ∀ t : Fin grid0.N, cond0_1 (grid0.coords t) ↔ t.val % 2048 = 2047)

theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl

theorem idleAt0_3 (t : Fin cfg0.N) (h : ¬ t.val % 2048 = 2047) : cfg0.idle 3 (grid0.coords t) = true := by
  have hc : ¬ k0_cond2 (grid0.coords t) = 1#1 := fun e => h ((hcond0_1 t).mp e)
  show (!(k0_cond2 (grid0.coords t) == 1#1)) = true
  rw [beq_eq_false_iff_ne.mpr hc]; rfl

theorem noFlush0_3 (t : Fin cfg0.N) (h : ¬ t.val % 2048 = 2047) : (cfg0.win 3).flush t = false :=
  Bool.eq_false_iff.mpr fun e => h ((flush0_3 t).mp e)

theorem liveAt0_3 (t : Fin cfg0.N) (h : t.val % 2048 = 2047) : cfg0.idle 3 (grid0.coords t) = false := by
  have hc : k0_cond2 (grid0.coords t) = 1#1 := (hcond0_1 t).mpr h
  show (!(k0_cond2 (grid0.coords t) == 1#1)) = false
  rw [hc]; rfl

abbrev VO0_3 : View sig .tc .vmem S1x64x192 .f32 := (Memref.whole cc0_stg3_0 : Memref sig .tc .vmem S1x64x192 .f32).view

abbrev ms0_0 (t : Fin cfg0.N) : Memref sig .tc .vmem S16x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x192 .f32 := win0_3.stage (cfg0.slots t 3)
abbrev hs0_3 (t : Fin cfg0.N) : (ms0_3 t).IsWhole := hstage0_3 ((cfg0.slots t 3).cast nbuf0_3)

abbrev scM0 : Memref sig .tc .vmem S64x192 .f32 := Memref.whole cc0_scratch0
abbrev VS0 : View sig .tc .vmem S64x192 .f32 := scM0.view

theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0])
        ∗ (∃ r, prngReg c r)) := by
  unfold Pipeline.ΦA
  rw [Pipeline.scopedRest_split_of_list spec0 c [cc0_scratch0] (by decide) (by decide)]
  simp only [bigSepL_singleton, scM0, owns_whole]
  rfl

end Cert.KernelIdeal.Fr

end
-- ==== Proof.StatsRunReset.lean ====
/- The first pass: the body run at j = 0, where the accumulator is cleared first. -/
import proofs.«400573_j52158082842660_3_alg».proof.Proof.StatsRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- From the three input blocks and any accumulator the body reaches a continuation that gets the inputs back and the accumulator overwritten by the pieces the run finds. -/
noncomputable def kernelRun0_Reset (c : Dev nD) (i : grid0.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S1x64x192 .f32) (harg5 : arg5.IsWhole) (arg6 : Memref sig .tc .vmem S64x192 .f32) (harg6 : arg6.IsWhole) (hc0 : cond0_0 i) (hc1 : ¬cond0_1 i)
    (x0 : Vec F S16x128 .i32) (x1 : Vec F S16x128 .f32) (x2 : Vec F S16x128 .f32) :
    Σ' (L3 : List (View.Piece (Elt F) S1x64x192 .f32)), { LS0 : List (View.Piece (Elt F) S64x192 .f32) //
      ∀ (xi3 : Vec F S1x64x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg2 harg2 arg3 harg3 arg4 harg4 arg5 harg5 arg6 harg6) K } := by
  refine ⟨[], ?_, fun xi3 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.StatsRunStep.lean ====
/- The first pass: the body run at 0 < j < 2047, where it only accumulates. -/
import proofs.«400573_j52158082842660_3_alg».proof.Proof.StatsRunReset

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- As at j = 0, but the accumulator comes in at the contents xs0 the point before left. -/
noncomputable def kernelRun0_Step (c : Dev nD) (i : grid0.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S1x64x192 .f32) (harg5 : arg5.IsWhole) (arg6 : Memref sig .tc .vmem S64x192 .f32) (harg6 : arg6.IsWhole) (hc0 : ¬cond0_0 i) (hc1 : ¬cond0_1 i)
    (x0 : Vec F S16x128 .i32) (x1 : Vec F S16x128 .f32) (x2 : Vec F S16x128 .f32) (xs0 : Vec F S64x192 .f32) :
    Σ' (L3 : List (View.Piece (Elt F) S1x64x192 .f32)), { LS0 : List (View.Piece (Elt F) S64x192 .f32) //
      ∀ (xi3 : Vec F S1x64x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg2 harg2 arg3 harg3 arg4 harg4 arg5 harg5 arg6 harg6) K } := by
  refine ⟨[], ?_, fun xi3 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.StatsRunLast.lean ====
/- The first pass: the body run at j = 2047, where the accumulator is also copied to the output block. -/
import proofs.«400573_j52158082842660_3_alg».proof.Proof.StatsRunStep

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The accumulator comes in at xs0; the output block comes in at anything and goes out covered by one piece. -/
noncomputable def kernelRun0_Last (c : Dev nD) (i : grid0.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S1x64x192 .f32) (harg5 : arg5.IsWhole) (arg6 : Memref sig .tc .vmem S64x192 .f32) (harg6 : arg6.IsWhole) (hc0 : ¬cond0_0 i) (hc1 : cond0_1 i)
    (x0 : Vec F S16x128 .i32) (x1 : Vec F S16x128 .f32) (x2 : Vec F S16x128 .f32) (xs0 : Vec F S64x192 .f32) :
    Σ' (L3 : List (View.Piece (Elt F) S1x64x192 .f32)), { LS0 : List (View.Piece (Elt F) S64x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg2 harg2 arg3 harg3 arg4 harg4 arg5 harg5 arg6 harg6) K } := by
  refine ⟨?_, ?_, fun E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.StatsFrame.lean ====
/- The first pass, its frame: the accumulator after each point in closed form (the update of zero at j = 0, of the point before otherwise), the
   invariant along the points, the proof data at any entry contents V, and the body obligation. -/
import proofs.«400573_j52158082842660_3_alg».proof.Proof.StatsRunLast
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem isReset (t : Fin cfg0.N) (h : t.val % 2048 = 0) : cond0_0 (grid0.coords t) := (hcond0_0 t).mpr h
theorem notReset (t : Fin cfg0.N) (h : ¬ t.val % 2048 = 0) : ¬cond0_0 (grid0.coords t) := fun e => h ((hcond0_0 t).mp e)
theorem isLast (t : Fin cfg0.N) (h : t.val % 2048 = 2047) : cond0_1 (grid0.coords t) := (hcond0_1 t).mpr h
theorem notLast (t : Fin cfg0.N) (h : ¬ t.val % 2048 = 2047) : ¬cond0_1 (grid0.coords t) := fun e => h ((hcond0_1 t).mp e)

theorem zeroOff2 : (![0, 0] : Fin 2 → Nat) = fun _ => 0 := funext fun a => by fin_cases a <;> rfl
theorem zeroOff3 : (![0, 0, 0] : Fin 3 → Nat) = fun _ => 0 := funext fun a => by fin_cases a <;> rfl

section Pieces

variable (c : Dev nD) (i : grid0.Coords) (arg2 : Memref sig .tc .vmem S16x128 .i32) (harg2 : arg2.IsWhole)
  (arg3 : Memref sig .tc .vmem S16x128 .f32) (harg3 : arg3.IsWhole) (arg4 : Memref sig .tc .vmem S16x128 .f32) (harg4 : arg4.IsWhole)
  (arg5 : Memref sig .tc .vmem S1x64x192 .f32) (harg5 : arg5.IsWhole) (arg6 : Memref sig .tc .vmem S64x192 .f32) (harg6 : arg6.IsWhole)
  (x0 : Vec F S16x128 .i32) (x1 x2 : Vec F S16x128 .f32) (xs0 : Vec F S64x192 .f32)
  (v : View sig .tc .vmem S64x192 .f32) (f : v.ty.Contents (Elt F))
  (vo : View sig .tc .vmem S1x64x192 .f32) (fo : vo.ty.Contents (Elt F))

/-- The stores a run finds cover the accumulator, so it ends at the update of the block the run started from, whatever it held. -/
theorem acc_Reset (hc0 : cond0_0 i) (hc1 : ¬cond0_1 i) :
    v.read (Elt F) (v.writes (Elt F) f (kernelRun0_Reset c i arg2 harg2 arg3 harg3 arg4 harg4 arg5 harg5 arg6 harg6 hc0 hc1 x0 x1 x2).2.1) = k0_pay3 x0 x1 x2 k0_pay2 := by
  rw [View.read_writes_eq_canon _ _ _ (View.cover_of_tiledL (kernelRun0_Reset c i arg2 harg2 arg3 harg3 arg4 harg4 arg5 harg5 arg6 harg6 hc0 hc1 x0 x1 x2).2.1 S64x192.size (by sl_kernel_rfl))]
  unfold kernelRun0_Reset
  dsimp only
  sl_unfold_words
  rw [View.canon_cons_unit_zero (S := S64x192) zeroOff2, View.readCov_unit_zero (S := S64x192) _ zeroOff2]
  simp only [View.readAt_eq_ld, harg2.read_unread, harg3.read_unread, harg4.read_unread, harg6.read_unread,
    View.ld_unit_zero (S := S16x128) zeroOff2, View.ld_unit_zero (S := S64x192) zeroOff2]

theorem acc_Step (hc0 : ¬cond0_0 i) (hc1 : ¬cond0_1 i) :
    v.read (Elt F) (v.writes (Elt F) f (kernelRun0_Step c i arg2 harg2 arg3 harg3 arg4 harg4 arg5 harg5 arg6 harg6 hc0 hc1 x0 x1 x2 xs0).2.1) = k0_pay3 x0 x1 x2 xs0 := by
  rw [View.read_writes_eq_canon _ _ _ (View.cover_of_tiledL (kernelRun0_Step c i arg2 harg2 arg3 harg3 arg4 harg4 arg5 harg5 arg6 harg6 hc0 hc1 x0 x1 x2 xs0).2.1 S64x192.size (by sl_kernel_rfl))]
  unfold kernelRun0_Step
  dsimp only
  sl_unfold_words
  rw [View.canon_unit_zero zeroOff2]
  simp only [View.readAt_eq_ld, harg2.read_unread, harg3.read_unread, harg4.read_unread, harg6.read_unread,
    View.ld_unit_zero (S := S16x128) zeroOff2, View.ld_unit_zero (S := S64x192) zeroOff2]

theorem acc_Last (hc0 : ¬cond0_0 i) (hc1 : cond0_1 i) :
    v.read (Elt F) (v.writes (Elt F) f (kernelRun0_Last c i arg2 harg2 arg3 harg3 arg4 harg4 arg5 harg5 arg6 harg6 hc0 hc1 x0 x1 x2 xs0).2.1) = k0_pay3 x0 x1 x2 xs0 := by
  rw [View.read_writes_eq_canon _ _ _ (View.cover_of_tiledL (kernelRun0_Last c i arg2 harg2 arg3 harg3 arg4 harg4 arg5 harg5 arg6 harg6 hc0 hc1 x0 x1 x2 xs0).2.1 S64x192.size (by sl_kernel_rfl))]
  unfold kernelRun0_Last
  dsimp only
  sl_unfold_words
  rw [View.canon_unit_zero zeroOff2]
  simp only [View.readAt_eq_ld, harg2.read_unread, harg3.read_unread, harg4.read_unread, harg6.read_unread,
    View.ld_unit_zero (S := S16x128) zeroOff2, View.ld_unit_zero (S := S64x192) zeroOff2]

/-- At j = 2047 the output block receives the updated accumulator under a leading axis of extent one. -/
theorem out_Last (hc0 : ¬cond0_0 i) (hc1 : cond0_1 i) :
    vo.read (Elt F) (vo.writes (Elt F) fo (kernelRun0_Last c i arg2 harg2 arg3 harg3 arg4 harg4 arg5 harg5 arg6 harg6 hc0 hc1 x0 x1 x2 xs0).1) = k0_pay1 (k0_pay3 x0 x1 x2 xs0) := by
  rw [View.read_writes_eq_canon _ _ _ (View.cover_of_tiledL (kernelRun0_Last c i arg2 harg2 arg3 harg3 arg4 harg4 arg5 harg5 arg6 harg6 hc0 hc1 x0 x1 x2 xs0).1 S1x64x192.size (by sl_kernel_rfl))]
  unfold kernelRun0_Last
  dsimp only
  sl_unfold_words
  rw [View.canon_unit_zero zeroOff3, View.readCov_unit_zero (S := S64x192) _ zeroOff2]
  simp only [View.readAt_eq_ld, harg2.read_unread, harg3.read_unread, harg4.read_unread, harg6.read_unread,
    View.ld_unit_zero (S := S16x128) zeroOff2, View.ld_unit_zero (S := S64x192) zeroOff2]

end Pieces

/-- The accumulator after the body at position n: the update, by the point's three blocks, of zero at j = 0 and of what position n − 1 left otherwise. -/
def acc0 (c : Dev nD) : (n : ℕ) → n < cfg0.N → Vec F S64x192 .f32
  | 0, hn => k0_pay3 (iblk0 V c 0 ⟨0, hn⟩) (iblk0 V c 1 ⟨0, hn⟩) (iblk0 V c 2 ⟨0, hn⟩) k0_pay2
  | n + 1, hn => k0_pay3 (iblk0 V c 0 ⟨n + 1, hn⟩) (iblk0 V c 1 ⟨n + 1, hn⟩) (iblk0 V c 2 ⟨n + 1, hn⟩)
      (if (n + 1) % 2048 = 0 then k0_pay2 else acc0 c n (Nat.lt_of_succ_lt hn))

theorem acc0_reset (c : Dev nD) (t : Fin cfg0.N) (h0 : t.val % 2048 = 0) :
    acc0 V c t.val t.isLt = k0_pay3 (iblk0 V c 0 t) (iblk0 V c 1 t) (iblk0 V c 2 t) k0_pay2 := by
  obtain ⟨n, hn⟩ := t
  cases n with
  | zero => rfl
  | succ n => exact congrArg (k0_pay3 _ _ _) (if_pos h0)

theorem acc0_step (c : Dev nD) (t : Fin cfg0.N) (h0 : ¬ t.val % 2048 = 0) :
    acc0 V c t.val t.isLt = k0_pay3 (iblk0 V c 0 t) (iblk0 V c 1 t) (iblk0 V c 2 t) (acc0 V c (t.val - 1) (Nat.lt_of_le_of_lt (Nat.sub_le _ _) t.isLt)) := by
  obtain ⟨n, hn⟩ := t
  cases n with
  | zero => exact absurd (Nat.zero_mod _) h0
  | succ n => exact congrArg (k0_pay3 _ _ _) (if_neg h0)

abbrev others0 (c : Dev nD) : sProp 𝕄 :=
  Pipeline.scopedRestBut (Ix := Unit) (Name := ℕ) (U := UR sig nD τ) (Lvl := ℕ) (Val := Elt F) spec0 c [cc0_scratch0]

/-- Before position n the accumulator holds what position n − 1 left (anything at n = 0); everything else is at anything. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-- After the body the inputs are their blocks, and the output block is the accumulator under a leading axis of extent one. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (acc0 V c t.val t.isLt)
  Φ t := PhiS0 V c t.val (Nat.le_of_lt_succ t.isLt)
  q _ := fullShare
  owed _ := 0

theorem PhiS0_castSucc (c : Dev nD) (t : Fin cfg0.N) :
    (dat0 V c).Φ t.castSucc = PhiS0 V c t.val (Nat.le_of_lt t.isLt) := by
  dsimp only [dat0]; simp only [Fin.coe_castSucc]

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_out (c : Dev nD) (t : Fin cfg0.N) : (dat0 V c).after 3 t = k0_pay1 (acc0 V c t.val t.isLt) := by dsimp only [dat0]

theorem before0_0 (c : Dev nD) (t : Fin cfg0.N) (d) : (dat0 V c).before 0 t d = iblk0 V c 0 t :=
  before0_0_of V (dat0 V c) (A_eq0 V c 0) t d
theorem before0_1 (c : Dev nD) (t : Fin cfg0.N) (d) : (dat0 V c).before 1 t d = iblk0 V c 1 t :=
  before0_1_of V (dat0 V c) (A_eq0 V c 1) t d
theorem before0_2 (c : Dev nD) (t : Fin cfg0.N) (d) : (dat0 V c).before 2 t d = iblk0 V c 2 t :=
  before0_2_of V (dat0 V c) (A_eq0 V c 2) t d

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

/-- What the accumulator holds can be forgotten at any point. -/
theorem Phi_out0 (c : Dev nD) (t : Fin (cfg0.N + 1)) : (dat0 V c).Φ t ⊢ Pipeline.ΦA spec0 c := by
  by_cases ht : t.val = 0
  · rw [show (dat0 V c).Φ t = PhiS0 V c t.val (Nat.le_of_lt_succ t.isLt) from rfl, PhiS0_zero V c _ _ ht]
  rw [show (dat0 V c).Φ t = PhiS0 V c t.val (Nat.le_of_lt_succ t.isLt) from rfl, PhiS0_pos V c _ _ ht, PhiA0_eq]
  iintro ⟨⟨HS0, Hrest⟩, Hg⟩
  iframe Hrest Hg
  iexists _; iexact HS0

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: j = t % 2048 says which run applies; the run is handed the accumulator and gives it back at the point's update. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = iprop(iprop(owns (c : Thread nD τ) scM0 fullShare (acc0 V c t.val t.isLt) ∗ others0 c) ∗ (∃ r, prngReg c r)) from rfl]
  rw [leaves0_0, leaves0_1, leaves0_2]
  by_cases h0 : t.val % 2048 = 0
  · have h1 : ¬ t.val % 2048 = 2047 := by omega
    rw [Dat.leavesExact_idle (dat0 V c) 3 t (idleAt0_3 t h1) (noFlush0_3 t h1), acc0_reset V c t h0]
    refine (sep_mono (Phi_out0 V c t.castSucc) .rfl).trans ?_
    rw [PhiA0_eq]
    iintro ⟨⟨⟨HS0, Hrest⟩, Hg⟩, Ho, ⟨%d0, H0⟩, ⟨%d1, H1⟩, ⟨%d2, H2⟩, ⟨%d3, H3⟩⟩
    iapply ((kernelRun0_Reset c _ _ _ _ _ _ _ _ _ _ _ (isReset t h0) (notLast t h1) (iblk0 V c 0 t) (iblk0 V c 1 t) (iblk0 V c 2 t)).2.2 _ Set.univ _)
    iframe H0 H1 H2 H3 HS0
    iintro ⟨H0, H1, H2, H3, ⟨%es0, HS0⟩⟩
    iframe Hrest Hg Ho H0 H1 H2
    isplitl [HS0]
    · unfold owns; iexists _; isplitr
      swap; · iexact HS0
      ipureintro; exact acc_Reset c _ _ _ _ _ _ _ _ _ _ _ _ _ _ _ _ _ _
    iexists _; iexact H3
  · have hz : t.val ≠ 0 := fun e => h0 (by rw [e])
    rw [acc0_step V c t h0, PhiS0_castSucc V c t, PhiS0_pos V c _ _ hz]
    by_cases h1 : t.val % 2048 = 2047
    · rw [show (dat0 V c).leavesExact 3 t = owns (c : Thread nD τ) (ms0_3 t) fullShare ((dat0 V c).after 3 t) from by
        unfold Dat.leavesExact; rw [liveAt0_3 t h1], after0_out, acc0_step V c t h0]
      iintro ⟨⟨⟨HS0, Hrest⟩, Hg⟩, Ho, ⟨%d0, H0⟩, ⟨%d1, H1⟩, ⟨%d2, H2⟩, ⟨%d3, H3⟩⟩
      iapply ((kernelRun0_Last c _ _ _ _ _ _ _ _ _ _ _ (notReset t h0) (isLast t h1) (iblk0 V c 0 t) (iblk0 V c 1 t) (iblk0 V c 2 t) _).2.2 Set.univ _)
      iframe H0 H1 H2 HS0
      isplitl [H3]; · iexists _; iexact H3
      iintro ⟨H0, H1, H2, ⟨%e3, H3⟩, ⟨%es0, HS0⟩⟩
      iframe Hrest Hg Ho H0 H1 H2
      isplitl [HS0]
      · unfold owns; iexists _; isplitr
        swap; · iexact HS0
        ipureintro; exact acc_Last c _ _ _ _ _ _ _ _ _ _ _ _ _ _ _ _ _ _ _
      unfold owns; iexists _; isplitr
      swap; · iexact H3
      ipureintro; exact out_Last c _ _ _ _ _ _ _ _ _ _ _ _ _ _ _ _ _ _ _
    · rw [Dat.leavesExact_idle (dat0 V c) 3 t (idleAt0_3 t h1) (noFlush0_3 t h1)]
      iintro ⟨⟨⟨HS0, Hrest⟩, Hg⟩, Ho, ⟨%d0, H0⟩, ⟨%d1, H1⟩, ⟨%d2, H2⟩, ⟨%d3, H3⟩⟩
      iapply ((kernelRun0_Step c _ _ _ _ _ _ _ _ _ _ _ (notReset t h0) (notLast t h1) (iblk0 V c 0 t) (iblk0 V c 1 t) (iblk0 V c 2 t) _).2.2 _ Set.univ _)
      iframe H0 H1 H2 H3 HS0
      iintro ⟨H0, H1, H2, H3, ⟨%es0, HS0⟩⟩
      iframe Hrest Hg Ho H0 H1 H2
      isplitl [HS0]
      · unfold owns; iexists _; isplitr
        swap; · iexact HS0
        ipureintro; exact acc_Step c _ _ _ _ _ _ _ _ _ _ _ _ _ _ _ _ _ _ _
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c := Phi_out0 V c _

end Cert.KernelIdeal.Fr

end
-- ==== Proof.KlRuns.lean ====
/- The second pass (the per-node divergence terms summed per graph), its frame: what the three runs of the body share. A grid point is
   t = 2048 c + j; the 64 × 128 accumulator is cleared at j = 0 and copied into output block c at j = 2047; the table is one block, the whole array. -/
import proofs.«400573_j52158082842660_3_alg».proof.Proof.Gen.KernelIdeal.Launch
import proofs.«400573_j52158082842660_3_alg».proof.Proof.Gen.KernelIdeal.Skeleton
import proofs.«400573_j52158082842660_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at point t, read off the array the region found. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input the body only reads is, at every point, the point's block of its array. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hblock : ∀ s, dat.blockOf 0 s = iblk1 V c 0 s := fun s => by
    unfold Dat.blockOf iblk1; rw [hA]
  have hkeep : ∀ s, (cfg1.win 0).cut (cfg1.grid.coords s) (dat.after 0 s) = dat.blockOf 0 s := fun s => by
    rw [hafter, hblock]; try rfl
  rw [dat.before_in_eq_fetched 0 rfl (fun _ => rfl) (fun _ _ _ => rfl) hkeep t d]
  unfold Dat.fetched; rw [hblock]; try rfl

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hblock : ∀ s, dat.blockOf 1 s = iblk1 V c 1 s := fun s => by
    unfold Dat.blockOf iblk1; rw [hA]
  have hkeep : ∀ s, (cfg1.win 1).cut (cfg1.grid.coords s) (dat.after 1 s) = dat.blockOf 1 s := fun s => by
    rw [hafter, hblock]; try rfl
  rw [dat.before_in_eq_fetched 1 rfl (fun _ => rfl) (fun _ _ _ => rfl) hkeep t d]
  unfold Dat.fetched; rw [hblock]; try rfl

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have hblock : ∀ s, dat.blockOf 2 s = iblk1 V c 2 s := fun s => by
    unfold Dat.blockOf iblk1; rw [hA]
  have hkeep : ∀ s, (cfg1.win 2).cut (cfg1.grid.coords s) (dat.after 2 s) = dat.blockOf 2 s := fun s => by
    rw [hafter, hblock]; try rfl
  rw [dat.before_in_eq_fetched 2 rfl (fun _ => rfl) (fun _ _ _ => rfl) hkeep t d]
  unfold Dat.fetched; rw [hblock]; try rfl

theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have hblock : ∀ s, dat.blockOf 3 s = iblk1 V c 3 s := fun s => by
    unfold Dat.blockOf iblk1; rw [hA]
  have hkeep : ∀ s, (cfg1.win 3).cut (cfg1.grid.coords s) (dat.after 3 s) = dat.blockOf 3 s := fun s => by
    rw [hafter, hblock]; try rfl
  rw [dat.before_in_eq_fetched 3 rfl (fun _ => rfl) (fun _ _ _ => rfl) hkeep t d]
  unfold Dat.fetched; rw [hblock]; try rfl

abbrev cond1_0 (i : grid1.Coords) : Prop :=
  (Scalar.cmpi .ne (Scalar.extui (Scalar.cmpi .eq (BitVec.ofNat 32 (i 1).val) 0#32)) 0#32) = 1#1

abbrev cond1_1 (i : grid1.Coords) : Prop := k1_cond2 i = 1#1

/-- The test j = 0 in closed form over the 4096 points. -/
theorem hcond1_0 : ∀ t : Fin cfg1.N, cond1_0 (grid1.coords t) ↔ t.val % 2048 = 0 :=
  (by decide +kernel : ∀ t : Fin grid1.N, cond1_0 (grid1.coords t) ↔ t.val % 2048 = 0)

/-- The test j = 2047 in closed form over the 4096 points. -/
theorem hcond1_1 : ∀ t : Fin cfg1.N, cond1_1 (grid1.coords t) ↔ t.val % 2048 = 2047 :=
  (by decide +kernel : ∀ t : Fin grid1.N, cond1_1 (grid1.coords t) ↔ t.val % 2048 = 2047)

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl

theorem idleAt1_4 (i : grid1.Coords) (h : ¬cond1_1 i) : cfg1.idle 4 i = true := by
  show (!(k1_cond2 i == 1#1)) = true
  rw [Bool.not_eq_true', beq_eq_false_iff_ne]; exact h

theorem liveAt1_4 (i : grid1.Coords) (h : cond1_1 i) : cfg1.idle 4 i = false := by
  show (!(k1_cond2 i == 1#1)) = false
  rw [Bool.not_eq_false', beq_iff_eq]; exact h

theorem noFlush1_4 (t : Fin cfg1.N) (h : ¬t.val % 2048 = 2047) : (cfg1.win 4).flush t = false :=
  Bool.eq_false_iff.mpr fun hf => h ((flush1_4 t).mp hf)

abbrev VO1_4 : View sig .tc .vmem S1x64x128 .f32 := (Memref.whole cc1_stg4_0 : Memref sig .tc .vmem S1x64x128 .f32).view

abbrev ms1_0 (t : Fin cfg1.N) : Memref sig .tc .vmem S16x128 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64x128 .f32 := win1_4.stage (cfg1.slots t 4)
abbrev hs1_4 (t : Fin cfg1.N) : (ms1_4 t).IsWhole := hstage1_4 ((cfg1.slots t 4).cast nbuf1_4)

abbrev scM1 : Memref sig .tc .vmem S64x128 .f32 := Memref.whole cc1_scratch0
abbrev VS1 : View sig .tc .vmem S64x128 .f32 := scM1.view

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA
  rw [Pipeline.scopedRest_split_of_list spec1 c [cc1_scratch0] (by decide) (by decide)]
  simp only [bigSepL_singleton, scM1, owns_whole]
  rfl

end Cert.KernelIdeal.Fr

end
-- ==== Proof.KlRunReset.lean ====
/- The second pass: the body run at j = 0, where the accumulator is cleared first. -/
import proofs.«400573_j52158082842660_3_alg».proof.Proof.KlRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- From the four input blocks and any accumulator the body reaches a continuation that gets the inputs back and the accumulator overwritten by the pieces the run finds. -/
noncomputable def kernelRun1_Reset (c : Dev nD) (i : grid1.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S64x128 .f32) (harg5 : arg5.IsWhole) (arg6 : Memref sig .tc .vmem S1x64x128 .f32) (harg6 : arg6.IsWhole) (arg7 : Memref sig .tc .vmem S64x128 .f32) (harg7 : arg7.IsWhole) (hc0 : cond1_0 i) (hc1 : ¬cond1_1 i)
    (x0 : Vec F S16x128 .i32) (x1 : Vec F S16x128 .f32) (x2 : Vec F S16x128 .f32) (x3 : Vec F S64x128 .f32) :
    Σ' (L4 : List (View.Piece (Elt F) S1x64x128 .f32)), { LS0 : List (View.Piece (Elt F) S64x128 .f32) //
      ∀ (xi4 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__kl_kernel i arg2 harg2 arg3 harg3 arg4 harg4 arg5 harg5 arg6 harg6 arg7 harg7) K } := by
  refine ⟨[], ?_, fun xi4 E K => ?run⟩
  case run =>
    simp only [cc1__kl_kernel_eq_skeleton]; unfold cc1__kl_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KlRunStep.lean ====
/- The second pass: the body run at 0 < j < 2047, where it only accumulates. -/
import proofs.«400573_j52158082842660_3_alg».proof.Proof.KlRunReset

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- As at j = 0, but the accumulator comes in at the contents xs0 the point before left. -/
noncomputable def kernelRun1_Step (c : Dev nD) (i : grid1.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S64x128 .f32) (harg5 : arg5.IsWhole) (arg6 : Memref sig .tc .vmem S1x64x128 .f32) (harg6 : arg6.IsWhole) (arg7 : Memref sig .tc .vmem S64x128 .f32) (harg7 : arg7.IsWhole) (hc0 : ¬cond1_0 i) (hc1 : ¬cond1_1 i)
    (x0 : Vec F S16x128 .i32) (x1 : Vec F S16x128 .f32) (x2 : Vec F S16x128 .f32) (x3 : Vec F S64x128 .f32) (xs0 : Vec F S64x128 .f32) :
    Σ' (L4 : List (View.Piece (Elt F) S1x64x128 .f32)), { LS0 : List (View.Piece (Elt F) S64x128 .f32) //
      ∀ (xi4 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__kl_kernel i arg2 harg2 arg3 harg3 arg4 harg4 arg5 harg5 arg6 harg6 arg7 harg7) K } := by
  refine ⟨[], ?_, fun xi4 E K => ?run⟩
  case run =>
    simp only [cc1__kl_kernel_eq_skeleton]; unfold cc1__kl_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KlRunLast.lean ====
/- The second pass: the body run at j = 2047, where the accumulator is also copied to the output block. -/
import proofs.«400573_j52158082842660_3_alg».proof.Proof.KlRunStep

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The accumulator comes in at xs0; the output block comes in at anything and goes out covered by one piece. -/
noncomputable def kernelRun1_Last (c : Dev nD) (i : grid1.Coords) (arg2 : Memref sig .tc .vmem S16x128 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S64x128 .f32) (harg5 : arg5.IsWhole) (arg6 : Memref sig .tc .vmem S1x64x128 .f32) (harg6 : arg6.IsWhole) (arg7 : Memref sig .tc .vmem S64x128 .f32) (harg7 : arg7.IsWhole) (hc0 : ¬cond1_0 i) (hc1 : cond1_1 i)
    (x0 : Vec F S16x128 .i32) (x1 : Vec F S16x128 .f32) (x2 : Vec F S16x128 .f32) (x3 : Vec F S64x128 .f32) (xs0 : Vec F S64x128 .f32) :
    Σ' (L4 : List (View.Piece (Elt F) S1x64x128 .f32)), { LS0 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__kl_kernel i arg2 harg2 arg3 harg3 arg4 harg4 arg5 harg5 arg6 harg6 arg7 harg7) K } := by
  refine ⟨?_, ?_, fun E K => ?run⟩
  case run =>
    simp only [cc1__kl_kernel_eq_skeleton]; unfold cc1__kl_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KlFrame.lean ====
/- The second pass, its frame: the accumulator after each point in closed form, the invariant along the points, the proof data at any entry
   contents V, and the body obligation. -/
import proofs.«400573_j52158082842660_3_alg».proof.Proof.KlRunLast
import proofs.«400573_j52158082842660_3_alg».proof.Proof.StatsFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem isReset1 (t : Fin cfg1.N) (h : t.val % 2048 = 0) : cond1_0 (grid1.coords t) := (hcond1_0 t).mpr h
theorem notReset1 (t : Fin cfg1.N) (h : ¬ t.val % 2048 = 0) : ¬cond1_0 (grid1.coords t) := fun e => h ((hcond1_0 t).mp e)
theorem isLast1 (t : Fin cfg1.N) (h : t.val % 2048 = 2047) : cond1_1 (grid1.coords t) := (hcond1_1 t).mpr h
theorem notLast1 (t : Fin cfg1.N) (h : ¬ t.val % 2048 = 2047) : ¬cond1_1 (grid1.coords t) := fun e => h ((hcond1_1 t).mp e)

/-- What a point makes of the accumulator xs: the update by the point's node words, its two score blocks and the table. -/
abbrev upd1 (x0 : Vec F S16x128 .i32) (x1 x2 : Vec F S16x128 .f32) (x3 xs : Vec F S64x128 .f32) : Vec F S64x128 .f32 :=
  k1_pay13 (k1_pay4 x0) (k1_pay6 x0) (k1_pay7 x1) (k1_pay8 x2) (k1_pay11 x0 x3) (k1_pay12 x0 x3) xs

section Pieces

variable (c : Dev nD) (i : grid1.Coords) (arg2 : Memref sig .tc .vmem S16x128 .i32) (harg2 : arg2.IsWhole)
  (arg3 : Memref sig .tc .vmem S16x128 .f32) (harg3 : arg3.IsWhole) (arg4 : Memref sig .tc .vmem S16x128 .f32) (harg4 : arg4.IsWhole)
  (arg5 : Memref sig .tc .vmem S64x128 .f32) (harg5 : arg5.IsWhole) (arg6 : Memref sig .tc .vmem S1x64x128 .f32) (harg6 : arg6.IsWhole)
  (arg7 : Memref sig .tc .vmem S64x128 .f32) (harg7 : arg7.IsWhole)
  (x0 : Vec F S16x128 .i32) (x1 x2 : Vec F S16x128 .f32) (x3 xs0 : Vec F S64x128 .f32)
  (v : View sig .tc .vmem S64x128 .f32) (f : v.ty.Contents (Elt F))
  (vo : View sig .tc .vmem S1x64x128 .f32) (fo : vo.ty.Contents (Elt F))

/-- The stores a run finds cover the accumulator, so it ends at the update of the block the run started from, whatever it held. -/
theorem acc1_Reset (hc0 : cond1_0 i) (hc1 : ¬cond1_1 i) :
    v.read (Elt F) (v.writes (Elt F) f (kernelRun1_Reset c i arg2 harg2 arg3 harg3 arg4 harg4 arg5 harg5 arg6 harg6 arg7 harg7 hc0 hc1 x0 x1 x2 x3).2.1) = upd1 x0 x1 x2 x3 k1_pay2 := by
  rw [View.read_writes_eq_canon _ _ _ (View.cover_of_tiledL (kernelRun1_Reset c i arg2 harg2 arg3 harg3 arg4 harg4 arg5 harg5 arg6 harg6 arg7 harg7 hc0 hc1 x0 x1 x2 x3).2.1 S64x128.size (by sl_kernel_rfl))]
  unfold kernelRun1_Reset
  dsimp only
  sl_unfold_words
  rw [View.canon_cons_unit_zero (S := S64x128) zeroOff2]
  simp only [View.readAt_eq_ld, harg2.read_unread, harg3.read_unread, harg4.read_unread, harg5.read_unread, harg6.read_unread, harg7.read_unread,
    View.ld_unit_zero (S := S16x128) zeroOff2, View.ld_unit_zero (S := S64x128) zeroOff2, View.ld_unit_zero (S := S1x64x128) zeroOff3,
    View.readCov_unit_zero (S := S64x128) _ zeroOff2]

theorem acc1_Step (hc0 : ¬cond1_0 i) (hc1 : ¬cond1_1 i) :
    v.read (Elt F) (v.writes (Elt F) f (kernelRun1_Step c i arg2 harg2 arg3 harg3 arg4 harg4 arg5 harg5 arg6 harg6 arg7 harg7 hc0 hc1 x0 x1 x2 x3 xs0).2.1) = upd1 x0 x1 x2 x3 xs0 := by
  rw [View.read_writes_eq_canon _ _ _ (View.cover_of_tiledL (kernelRun1_Step c i arg2 harg2 arg3 harg3 arg4 harg4 arg5 harg5 arg6 harg6 arg7 harg7 hc0 hc1 x0 x1 x2 x3 xs0).2.1 S64x128.size (by sl_kernel_rfl))]
  unfold kernelRun1_Step
  dsimp only
  sl_unfold_words
  rw [View.canon_unit_zero zeroOff2]
  simp only [View.readAt_eq_ld, harg2.read_unread, harg3.read_unread, harg4.read_unread, harg5.read_unread, harg6.read_unread, harg7.read_unread,
    View.ld_unit_zero (S := S16x128) zeroOff2, View.ld_unit_zero (S := S64x128) zeroOff2, View.ld_unit_zero (S := S1x64x128) zeroOff3,
    View.readCov_unit_zero (S := S64x128) _ zeroOff2]

theorem acc1_Last (hc0 : ¬cond1_0 i) (hc1 : cond1_1 i) :
    v.read (Elt F) (v.writes (Elt F) f (kernelRun1_Last c i arg2 harg2 arg3 harg3 arg4 harg4 arg5 harg5 arg6 harg6 arg7 harg7 hc0 hc1 x0 x1 x2 x3 xs0).2.1) = upd1 x0 x1 x2 x3 xs0 := by
  rw [View.read_writes_eq_canon _ _ _ (View.cover_of_tiledL (kernelRun1_Last c i arg2 harg2 arg3 harg3 arg4 harg4 arg5 harg5 arg6 harg6 arg7 harg7 hc0 hc1 x0 x1 x2 x3 xs0).2.1 S64x128.size (by sl_kernel_rfl))]
  unfold kernelRun1_Last
  dsimp only
  sl_unfold_words
  rw [View.canon_unit_zero zeroOff2]
  simp only [View.readAt_eq_ld, harg2.read_unread, harg3.read_unread, harg4.read_unread, harg5.read_unread, harg6.read_unread, harg7.read_unread,
    View.ld_unit_zero (S := S16x128) zeroOff2, View.ld_unit_zero (S := S64x128) zeroOff2, View.ld_unit_zero (S := S1x64x128) zeroOff3,
    View.readCov_unit_zero (S := S64x128) _ zeroOff2]

/-- At j = 2047 the output block receives the updated accumulator under a leading axis of extent one. -/
theorem out1_Last (hc0 : ¬cond1_0 i) (hc1 : cond1_1 i) :
    vo.read (Elt F) (vo.writes (Elt F) fo (kernelRun1_Last c i arg2 harg2 arg3 harg3 arg4 harg4 arg5 harg5 arg6 harg6 arg7 harg7 hc0 hc1 x0 x1 x2 x3 xs0).1) = k1_pay1 (upd1 x0 x1 x2 x3 xs0) := by
  rw [View.read_writes_eq_canon _ _ _ (View.cover_of_tiledL (kernelRun1_Last c i arg2 harg2 arg3 harg3 arg4 harg4 arg5 harg5 arg6 harg6 arg7 harg7 hc0 hc1 x0 x1 x2 x3 xs0).1 S1x64x128.size (by sl_kernel_rfl))]
  unfold kernelRun1_Last
  dsimp only
  sl_unfold_words
  rw [View.canon_unit_zero zeroOff3]
  simp only [View.readAt_eq_ld, harg2.read_unread, harg3.read_unread, harg4.read_unread, harg5.read_unread, harg6.read_unread, harg7.read_unread,
    View.ld_unit_zero (S := S16x128) zeroOff2, View.ld_unit_zero (S := S64x128) zeroOff2, View.ld_unit_zero (S := S1x64x128) zeroOff3,
    View.readCov_unit_zero (S := S64x128) _ zeroOff2]

end Pieces

/-- The accumulator after the body at position n: the update of zero at j = 0 and of what position n − 1 left otherwise. -/
def acc1 (c : Dev nD) : (n : ℕ) → n < cfg1.N → Vec F S64x128 .f32
  | 0, hn => upd1 (iblk1 V c 0 ⟨0, hn⟩) (iblk1 V c 1 ⟨0, hn⟩) (iblk1 V c 2 ⟨0, hn⟩) (iblk1 V c 3 ⟨0, hn⟩) k1_pay2
  | n + 1, hn => upd1 (iblk1 V c 0 ⟨n + 1, hn⟩) (iblk1 V c 1 ⟨n + 1, hn⟩) (iblk1 V c 2 ⟨n + 1, hn⟩) (iblk1 V c 3 ⟨n + 1, hn⟩)
      (if (n + 1) % 2048 = 0 then k1_pay2 else acc1 c n (Nat.lt_of_succ_lt hn))

theorem acc1_reset (c : Dev nD) (t : Fin cfg1.N) (h0 : t.val % 2048 = 0) :
    acc1 V c t.val t.isLt = upd1 (iblk1 V c 0 t) (iblk1 V c 1 t) (iblk1 V c 2 t) (iblk1 V c 3 t) k1_pay2 := by
  obtain ⟨n, hn⟩ := t
  cases n with
  | zero => rfl
  | succ n => exact congrArg (upd1 _ _ _ _) (if_pos h0)

theorem acc1_step (c : Dev nD) (t : Fin cfg1.N) (h0 : ¬ t.val % 2048 = 0) :
    acc1 V c t.val t.isLt = upd1 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd (Nat.zero_mod _) h0
  | succ n => exact congrArg (upd1 _ _ _ _) (if_neg h0)

/-- Before position n the accumulator holds what position n − 1 left (anything at n = 0); everything else is at anything. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 (F := F) c) ∗ (∃ r, prngReg c r)) := by
  cases n with
  | zero => exact absurd rfl hz
  | succ n => rfl

/-- After the body the inputs are their blocks, and the output block is the accumulator under a leading axis of extent one. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the accumulator holds can be forgotten at any point. -/
theorem Phi_out1 (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
  rw [show (dat1 V c).Φ t = PhiS1 V c t.val (Nat.le_of_lt_succ t.isLt) from rfl, PhiS1_pos V c _ _ ht, PhiA1_eq]
  iintro ⟨⟨HS0, HR⟩, Hg⟩
  iframe HR Hg
  iexists _; iexact HS0

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: j = t % 2048 says which run applies; the run is handed the accumulator and gives it back at the point's update. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = iprop(iprop(owns (c : Thread nD τ) scM1 fullShare (acc1 V c t.val t.isLt) ∗ others1 (F := F) c) ∗ (∃ r, prngReg c r)) from rfl]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 2048 = 0
  · have h1 : ¬t.val % 2048 = 2047 := by omega
    rw [Dat.leavesExact_idle (dat1 V c) 4 t (idleAt1_4 _ (notLast1 t h1)) (noFlush1_4 t h1), acc1_reset V c t h0]
    refine (sep_mono (Phi_out1 V c t.castSucc) .rfl).trans ?_
    rw [PhiA1_eq]
    iintro ⟨⟨⟨HS0, HR⟩, Hg⟩, Ho, ⟨%d0, H0⟩, ⟨%d1, H1⟩, ⟨%d2, H2⟩, ⟨%d3, H3⟩, ⟨%d4, H4⟩⟩
    iapply ((kernelRun1_Reset c (grid1.coords t) _ _ _ _ _ _ _ _ _ _ _ _ (isReset1 t h0) (notLast1 t h1) (iblk1 V c 0 t) (iblk1 V c 1 t) (iblk1 V c 2 t) (iblk1 V c 3 t)).2.2 _ Set.univ _)
    iframe H0 H1 H2 H3 H4 HS0
    iintro ⟨H0, H1, H2, H3, H4, ⟨%es0, HS0⟩⟩
    iframe HR Hg Ho H0 H1 H2 H3
    isplitl [HS0]
    · unfold owns; iexists _; isplitr
      swap; · iexact HS0
      ipureintro; exact acc1_Reset c _ _ _ _ _ _ _ _ _ _ _ _ _ _ _ _ _ _ _ _ _
    iexists _; iexact H4
  · have hz : t.val ≠ 0 := fun e => h0 (by rw [e])
    rw [acc1_step V c t h0, PhiS1_castSucc V c t, PhiS1_pos V c _ _ hz]
    by_cases h1 : t.val % 2048 = 2047
    · rw [show (dat1 V c).leavesExact 4 t = owns (c : Thread nD τ) (ms1_4 t) fullShare ((dat1 V c).after 4 t) from by
        unfold Dat.leavesExact; rw [liveAt1_4 _ (isLast1 t h1)], after1_4, acc1_step V c t h0]
      iintro ⟨⟨⟨HS0, HR⟩, Hg⟩, Ho, ⟨%d0, H0⟩, ⟨%d1, H1⟩, ⟨%d2, H2⟩, ⟨%d3, H3⟩, ⟨%d4, H4⟩⟩
      iapply ((kernelRun1_Last c (grid1.coords t) _ _ _ _ _ _ _ _ _ _ _ _ (notReset1 t h0) (isLast1 t h1) (iblk1 V c 0 t) (iblk1 V c 1 t) (iblk1 V c 2 t) (iblk1 V c 3 t) _).2.2 Set.univ _)
      iframe H0 H1 H2 H3 HS0
      isplitl [H4]; · iexists _; iexact H4
      iintro ⟨H0, H1, H2, H3, ⟨%e4, H4⟩, ⟨%es0, HS0⟩⟩
      iframe HR Hg Ho H0 H1 H2 H3
      isplitl [HS0]
      · unfold owns; iexists _; isplitr
        swap; · iexact HS0
        ipureintro; exact acc1_Last c _ _ _ _ _ _ _ _ _ _ _ _ _ _ _ _ _ _ _ _ _ _
      unfold owns; iexists _; isplitr
      swap; · iexact H4
      ipureintro; exact out1_Last c _ _ _ _ _ _ _ _ _ _ _ _ _ _ _ _ _ _ _ _ _ _
    · rw [Dat.leavesExact_idle (dat1 V c) 4 t (idleAt1_4 _ (notLast1 t h1)) (noFlush1_4 t h1)]
      iintro ⟨⟨⟨HS0, HR⟩, Hg⟩, Ho, ⟨%d0, H0⟩, ⟨%d1, H1⟩, ⟨%d2, H2⟩, ⟨%d3, H3⟩, ⟨%d4, H4⟩⟩
      iapply ((kernelRun1_Step c (grid1.coords t) _ _ _ _ _ _ _ _ _ _ _ _ (notReset1 t h0) (notLast1 t h1) (iblk1 V c 0 t) (iblk1 V c 1 t) (iblk1 V c 2 t) (iblk1 V c 3 t) _).2.2 _ Set.univ _)
      iframe H0 H1 H2 H3 H4 HS0
      iintro ⟨H0, H1, H2, H3, H4, ⟨%es0, HS0⟩⟩
      iframe HR Hg Ho H0 H1 H2 H3
      isplitl [HS0]
      · unfold owns; iexists _; isplitr
        swap; · iexact HS0
        ipureintro; exact acc1_Step c _ _ _ _ _ _ _ _ _ _ _ _ _ _ _ _ _ _ _ _ _ _
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := Phi_out1 V c _

end Cert.KernelIdeal.Fr

end
-- ==== Proof.AsmData.lean ====
/- The contents of the arrays at the two regions' boundaries. @main is host operations, the first pass, host operations, the second pass, host
   operations; what each pass leaves in its output array is pinned to what its points' blocks fold to, and the two passes' proof data are one family. -/
import proofs.«400573_j52158082842660_3_alg».proof.Proof.StatsFrame
import proofs.«400573_j52158082842660_3_alg».proof.Proof.KlFrame
import proofs.«400573_j52158082842660_3_alg».proof.Proof.Gen.KernelIdeal.Regions
import Idealize.ShloMosaic.Lib.Pipeline.Frame
import Idealize.ShloMosaic.Lib.Pipeline.FrameBody
import Idealize.ShloMosaic.Lib.Pipeline.Regions
import Idealize.ShloMosaic.Lib.Pipeline.FrameSuffix
import Idealize.ShloMosaic.Lib.Pipeline.RegionsLoop
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Asm
variable (m : (ℓ : Loc nD τ sig) → Buf (Elt F) ℓ)

abbrev 𝒱₀ : Variants := Variants.none

abbrev Lv0 : GSem nD τ sig → Finset Unit := fun _ => ∅
abbrev lv0 : GSem nD τ sig → Unit → ℕ := fun _ _ => 0

abbrev Rest (c : Dev nD) : sProp 𝕄 := iprop((∃ r, prngReg c r) ∗ ∃ W, owes (c : Thread nD τ) (0 : CellTallies nD τ sig Unit) W)

abbrev Vr4 : (c : Dev nD) → (b : Ref sig .tc) → Buf (Elt F) ((c : Thread nD τ).loc b) := fun c b => V4 m c b

def W5 (c : Dev nD) : Valuation τ sig (Elt F) :=
  Pipeline.withArrays spec0 c (V4 m c) fun w => (dat0 (Vr4 m) c).arrAt w cfg0.N

def outsA : Outs (F := F) := fun _ r c => W5 m c (Proc.devRef .tc r)

theorem V5A_of (c : Dev nD) (r : Ref sig .tc) (h : r ∉ ([main_v9] : List (Ref sig .tc))) : V5 m (outsA m) c r = V4 m c r := V5_of m (outsA m) c r h

/-- After the first pass every window's array is what the next item finds there. -/
theorem exit0_arr (c : Dev nD) (w : Fin cfg0.W) : (dat0 (Vr4 m) c).arrAt w cfg0.N = V5 m (outsA m) c (Pipeline.arrRef spec0 w) := by
  match w with
  | ⟨0, _⟩ => exact ((dat0 (Vr4 m) c).arrAt_in 0 rfl _).trans ((A_eq0 (Vr4 m) c 0).trans (V5A_of m c main_v6 (by decide)).symm)
  | ⟨1, _⟩ => exact ((dat0 (Vr4 m) c).arrAt_in 1 rfl _).trans ((A_eq0 (Vr4 m) c 1).trans (V5A_of m c main_v7 (by decide)).symm)
  | ⟨2, _⟩ => exact ((dat0 (Vr4 m) c).arrAt_in 2 rfl _).trans ((A_eq0 (Vr4 m) c 2).trans (V5A_of m c main_v8 (by decide)).symm)
  | ⟨3, h3⟩ =>
    have e := Pipeline.withArrays_arr spec0 launch0.win.arr_inj c (V4 m c) (fun w => (dat0 (Vr4 m) c).arrAt w cfg0.N) ⟨3, h3⟩
    show _ = Function.update (V4 m c) (Proc.devRef .tc main_v9) (outsA m 5 main_v9 c) (Proc.devRef .tc main_v9)
    rw [Function.update_self]
    exact e.symm

theorem exit0_rest (c : Dev nD) : ∀ b, b ∉ Finset.univ.image (Pipeline.arrRef spec0) → V5 m (outsA m) c b = Vr4 m c b :=
  fun b hb => V5A_of m c b fun h => hb (by
    rw [List.mem_singleton] at h; subst h
    exact Finset.mem_image.mpr ⟨3, Finset.mem_univ _, rfl⟩)
end Asm

section Asm1
variable (m : (ℓ : Loc nD τ sig) → Buf (Elt F) ℓ)

abbrev Vr6 : (c : Dev nD) → (b : Ref sig .tc) → Buf (Elt F) ((c : Thread nD τ).loc b) := fun c b => V6 m (outsA m) c b

def W7 (c : Dev nD) : Valuation τ sig (Elt F) :=
  Pipeline.withArrays spec1 c (V6 m (outsA m) c) fun w => (dat1 (Vr6 m) c).arrAt w cfg1.N

/-- What the two passes leave in their output arrays. -/
def outsK : Outs (F := F) := fun j r c => if j = 5 then W5 m c (Proc.devRef .tc r) else W7 m c (Proc.devRef .tc r)

theorem V5K (c : Dev nD) : V5 m (outsK m) c = V5 m (outsA m) c := rfl
theorem V6K (c : Dev nD) : V6 m (outsK m) c = V6 m (outsA m) c := rfl

theorem V7K_of (c : Dev nD) (r : Ref sig .tc) (h : r ∉ ([main_v12] : List (Ref sig .tc))) : V7 m (outsK m) c r = V6 m (outsA m) c r :=
  (V7_of m (outsK m) c r h).trans (congrFun (V6K m c) _)

/-- After the second pass likewise. -/
theorem exit1_arr (c : Dev nD) (w : Fin cfg1.W) : (dat1 (Vr6 m) c).arrAt w cfg1.N = V7 m (outsK m) c (Pipeline.arrRef spec1 w) := by
  match w with
  | ⟨0, _⟩ => exact ((dat1 (Vr6 m) c).arrAt_in 0 rfl _).trans ((A_eq1 (Vr6 m) c 0).trans (V7K_of m c main_v6 (by decide)).symm)
  | ⟨1, _⟩ => exact ((dat1 (Vr6 m) c).arrAt_in 1 rfl _).trans ((A_eq1 (Vr6 m) c 1).trans (V7K_of m c main_v7 (by decide)).symm)
  | ⟨2, _⟩ => exact ((dat1 (Vr6 m) c).arrAt_in 2 rfl _).trans ((A_eq1 (Vr6 m) c 2).trans (V7K_of m c main_v8 (by decide)).symm)
  | ⟨3, _⟩ => exact ((dat1 (Vr6 m) c).arrAt_in 3 rfl _).trans ((A_eq1 (Vr6 m) c 3).trans (V7K_of m c main_v11 (by decide)).symm)
  | ⟨4, h4⟩ =>
    have e := Pipeline.withArrays_arr spec1 launch1.win.arr_inj c (V6 m (outsA m) c) (fun w => (dat1 (Vr6 m) c).arrAt w cfg1.N) ⟨4, h4⟩
    show _ = Function.update (V6 m (outsK m) c) (Proc.devRef .tc main_v12) (outsK m 7 main_v12 c) (Proc.devRef .tc main_v12)
    rw [Function.update_self]
    exact e.symm
theorem exit1_rest (c : Dev nD) : ∀ b, b ∉ Finset.univ.image (Pipeline.arrRef spec1) → V7 m (outsK m) c b = Vr6 m c b :=
  fun b hb => V7K_of m c b fun h => hb (by
    rw [List.mem_singleton] at h; subst h
    exact Finset.mem_image.mpr ⟨4, Finset.mem_univ _, rfl⟩)

theorem outsK_stats (c : Dev nD) : (dat0 (Vr4 m) c).arrAt ⟨3, by decide⟩ cfg0.N = outsK m 5 (Pipeline.arrRef spec0 ⟨3, by decide⟩) c := by
  have h3 : 3 < cfg0.W := by decide
  have e := Pipeline.withArrays_arr spec0 launch0.win.arr_inj c (V4 m c) (fun w => (dat0 (Vr4 m) c).arrAt w cfg0.N) ⟨3, h3⟩
  exact e.symm

theorem outsK_kl (c : Dev nD) : (dat1 (Vr6 m) c).arrAt ⟨4, by decide⟩ cfg1.N = outsK m 7 (Pipeline.arrRef spec1 ⟨4, by decide⟩) c := by
  have h4 : 4 < cfg1.W := by decide
  have e := Pipeline.withArrays_arr spec1 launch1.win.arr_inj c (V6 m (outsA m) c) (fun w => (dat1 (Vr6 m) c).arrAt w cfg1.N) ⟨4, h4⟩
  exact e.symm

theorem exit0_arrK (c : Dev nD) (w : Fin cfg0.W) : (dat0 (Vr4 m) c).arrAt w cfg0.N = V5 m (outsK m) c (Pipeline.arrRef spec0 w) := exit0_arr m c w
theorem exit0_restK (c : Dev nD) : ∀ b, b ∉ Finset.univ.image (Pipeline.arrRef spec0) → V5 m (outsK m) c b = Vr4 m c b := exit0_rest m c
end Asm1

section PD
variable (m : (ℓ : Loc nD τ sig) → Buf (Elt F) ℓ)

def pdats : (p : Fin 2) → (c : Dev nD) → Dat τ (Elt F) Unit ℕ (UR sig nD τ) ℕ (cfgs p) c
  | ⟨0, _⟩ => fun c => dat0 (Vr4 m) c
  | ⟨1, _⟩ => fun c => dat1 (Vr6 m) c
end PD

end Cert.KernelIdeal.Fr

end
-- ==== Proof.AsmRegStats.lean ====
/- The first pass as one segment of @main's run: entered with the arrays at the contents the host operations before it leave, left with its
   output array at what its blocks fold to and every other array unchanged. -/
import proofs.«400573_j52158082842660_3_alg».proof.Proof.AsmData
import Idealize.ShloMosaic.Lib.Pipeline.Frame
import Idealize.ShloMosaic.Lib.Pipeline.FrameBody
import Idealize.ShloMosaic.Lib.Pipeline.Regions
import Idealize.ShloMosaic.Lib.Pipeline.FrameSuffix
import Idealize.ShloMosaic.Lib.Pipeline.RegionsLoop
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Regs
variable (m : (ℓ : Loc nD τ sig) → Buf (Elt F) ℓ)

set_option backward.isDefEq.respectTransparency.types false in
def reg0 : Pipeline.RegionSeg (pcfgs (F := F)) adm (pdats m) () defs₀ 𝒱₀ Lv0 lv0 0 where
  win := launch0.win.to₀
  block_pos := launch0.block_pos
  stage_whole := launch0.stage_whole
  K := PEmpty
  osem k := k.elim
  ho := Pipeline.OwnSemFacts.none _
  hbody c := (body_obligation0 (Vr4 m) c).loose
  hwaits := Pipeline.hwaits_of_owed_zero _ _ _ _ Lv0 lv0 0 fun _ _ => rfl
  pre c := iprop(StableHlo.held (c : Thread nD τ) (Pipeline.ucRefs τ sig) (V4 m c) ∗ Rest c)
  post c := iprop(StableHlo.held (c : Thread nD τ) (Pipeline.ucRefs τ sig) (V5 m (outsK m) c) ∗ Rest c)
  X c := iprop(∃ r, prngReg c r)
  Y c := iprop(∃ r, prngReg c r)
  Z c := Pipeline.unscopedRest (Ix := Unit) (Name := ℕ) (U := UR sig nD τ) (Lvl := ℕ) spec0 c (Vr4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vr4 m) c).Φ 0 from rfl]
    iintro ⟨Hp, -, Hr⟩
    iapply (hin0 (Vr4 m) c)
    unfold Pipeline.ΦA
    isplitl [Hr]; · iexact Hr
    iexact Hp
  hout c := by
    rw [Pipeline.ownSems0_none, show (pdats m 0 c).Φ (Fin.last _) = (dat0 (Vr4 m) c).Φ (Fin.last cfg0.N) from rfl]
    iintro H
    ihave H' := (hout0 (Vr4 m) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr4 m c) (fun b => V5 m (outsK m) c b) ((pdats m 0 c).arrAt · cfg0.N) (exit0_arrK m c) (exit0_restK m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regs

end Cert.KernelIdeal.Fr

end
-- ==== Proof.AsmRegKl.lean ====
import proofs.«400573_j52158082842660_3_alg».proof.Proof.AsmRegStats
import Idealize.ShloMosaic.Lib.Pipeline.Frame
import Idealize.ShloMosaic.Lib.Pipeline.FrameBody
import Idealize.ShloMosaic.Lib.Pipeline.Regions
import Idealize.ShloMosaic.Lib.Pipeline.FrameSuffix
import Idealize.ShloMosaic.Lib.Pipeline.RegionsLoop
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Regs
variable (m : (ℓ : Loc nD τ sig) → Buf (Elt F) ℓ)

set_option backward.isDefEq.respectTransparency.types false in
def reg1 : Pipeline.RegionSeg (pcfgs (F := F)) adm (pdats m) () defs₀ 𝒱₀ Lv0 lv0 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ Lv0 lv0 1 fun _ _ => rfl
  pre c := iprop(StableHlo.held (c : Thread nD τ) (Pipeline.ucRefs τ sig) (V6 m (outsA m) c) ∗ Rest c)
  post c := iprop(StableHlo.held (c : Thread nD τ) (Pipeline.ucRefs τ sig) (V7 m (outsK m) c) ∗ Rest c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vr6 m) c).Φ 0 from rfl]
    iintro ⟨Hp, -, Hr⟩
    iapply (hin1 (Vr6 m) c)
    unfold Pipeline.ΦA
    isplitl [Hr]; · iexact Hr
    iexact Hp
  hout c := by
    rw [Pipeline.ownSems0_none, show (pdats m 1 c).Φ (Fin.last _) = (dat1 (Vr6 m) c).Φ (Fin.last cfg1.N) from rfl]
    iintro H
    ihave H' := (hout1 (Vr6 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (fun b => V7 m (outsK m) c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regs

end Cert.KernelIdeal.Fr

end
-- ==== Proof.ValueRun.lean ====
/- The run of the idealized program with its results named: every weakly fair execution of @main ends, faulting nowhere, with the three results
   what the last host operations compute from the two passes' outputs, and every argument array as launched. -/
import proofs.«400573_j52158082842660_3_alg».proof.Proof.AsmRegKl
import proofs.«400573_j52158082842660_3_alg».proof.Proof.ValueCond
import Idealize.ShloMosaic.Lib.Pipeline.Frame
import Idealize.ShloMosaic.Lib.Pipeline.FrameBody
import Idealize.ShloMosaic.Lib.Pipeline.Regions
import Idealize.ShloMosaic.Lib.Pipeline.FrameSuffix
import Idealize.ShloMosaic.Lib.Pipeline.RegionsLoop
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section ValueRun
variable (m : (ℓ : Loc nD τ sig) → Buf (Elt F) ℓ) (ρ : Dev nD → PrngReg)

set_option backward.isDefEq.respectTransparency.types false in
theorem run_values : θ_run defs (onTc (τ := τ) (main (F := F))) ⟨m, fun _ => 0, ρ⟩ (fun r => ∀ c : Dev nD,
      r.2.mem ((c.tc : Thread nD τ).loc main_v45) = V8 m (outsK m) c main_v45
      ∧ r.2.mem ((c.tc : Thread nD τ).loc main_v5) = V8 m (outsK m) c main_v5
      ∧ r.2.mem ((c.tc : Thread nD τ).loc main_v43) = V8 m (outsK m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  GenV.frame_cond (m := m) (EP := emb₁) (ι := ()) (𝒱₀ := Variants.none) (L := Lv0) (lv := lv0) (hL := fun _ _ => rfl)
    (ρ := ρ) (outs := outsK m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ Rest c := fun c => by
        iintro ⟨-, HO, -, Hp, -⟩
        isplitl [Hp]; · iexists _; iexact Hp
        iexists ∅; iexact HO
      have h : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => Rest c) : sProp 𝕄) := bigSep_mono fun c _ => hc c
      iintro ⟨H, -⟩
      imodintro
      ihave H' := h $$ H
      iexact H')
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)
end ValueRun

end Cert.KernelIdeal.Fr

end
-- ==== Proof.Spec.lean ====
/- The mathematics both programs compute, over plain functions and importing no program. A node belongs to graph g when its 32-bit word, read
   signed, is g; a word that is negative or 4096 and beyond belongs to no graph. -/
import Idealize.ShloMosaic.PureOps.Ideal
import Idealize.ShloMosaic.Lib.ValueIdx

noncomputable section

namespace Cert.Spec

open Idealize.ShloMosaic
open scoped Classical

abbrev Nodes : Shape := ⟨1, ![8388608]⟩
abbrev Graphs : Shape := ⟨1, ![4096]⟩

def nodeOf (a : Fin 65536) (b : Fin 128) : Nodes.Idx := ValueIdx.ix1 ⟨128 * a.val + b.val, by omega⟩

def rows {α : Type} (x : Nodes.Idx → α) : (⟨2, ![65536, 128]⟩ : Shape).Idx → α := fun i => x (nodeOf (i 0) (i 1))

def graphOf (h l : Fin 64) : Graphs.Idx := ValueIdx.ix1 ⟨64 * h.val + l.val, by omega⟩

/-- Row r of block j of half c of the node arrays, as a node. -/
def nodeAt (c : Fin 2) (j r : Fin 2048) : Nodes.Idx :=
  nodeOf ⟨16 * (2048 * c.val + j.val) + r.val / 128, by omega⟩ ⟨r.val % 128, by omega⟩

/-- The one-hot entries of a word: its arithmetic shift right by 6 against h, its low six bits against l. -/
def ohHi (w : BitVec 32) (h : Fin 64) : EReal := if w.sshiftRight 6 = BitVec.ofNat 32 h.val then 1 else 0
def ohLo (w : BitVec 32) (l : Fin 64) : EReal := if w &&& 63#32 = BitVec.ofNat 32 l.val then 1 else 0

/-- Node n belongs to graph g. -/
def inGraph (id : Nodes.Idx → BitVec 32) (g : Graphs.Idx) (n : Nodes.Idx) : Prop :=
  (id n).toInt = ((g 0).val : Int)

/-- The sum of x over the nodes of graph g (an empty sum is 0). -/
def segSum (id : Nodes.Idx → BitVec 32) (x : Nodes.Idx → EReal) : Graphs.Idx → EReal :=
  fun g => ∑ n ∈ Finset.univ.filter (inGraph id g), x n

def counts (id : Nodes.Idx → BitVec 32) : Graphs.Idx → EReal := segSum id fun _ => 1

def eps : EReal := Ideal.ofBits .f32 0x322BCC77#32
def half : EReal := Ideal.ofBits .f32 0x3F000000#32

/-- A node's share of its graph's total, the midpoint of two shares, and the logarithmic term a · log((a + ε) / (m + ε)). -/
def share (x T : EReal) : EReal := Ideal.div x (T + eps)

def mid (a b : EReal) : EReal := half * (a + b)

def klTerm (a m : EReal) : EReal := a * Ideal.log (Ideal.div (a + eps) (m + eps))

def klpNode (x y P Q : EReal) : EReal := klTerm (share x P) (mid (share x P) (share y Q))

def klqNode (x y P Q : EReal) : EReal := klTerm (share y Q) (mid (share x P) (share y Q))

/-- The two divergence terms of every node of a graph, summed over the graph. -/
def klpG (id : Nodes.Idx → BitVec 32) (sp sn : Nodes.Idx → EReal) : Graphs.Idx → EReal :=
  fun g => ∑ n ∈ Finset.univ.filter (inGraph id g), klpNode (sp n) (sn n) (segSum id sp g) (segSum id sn g)

def klqG (id : Nodes.Idx → BitVec 32) (sp sn : Nodes.Idx → EReal) : Graphs.Idx → EReal :=
  fun g => ∑ n ∈ Finset.univ.filter (inGraph id g), klqNode (sp n) (sn n) (segSum id sp g) (segSum id sn g)

end Cert.Spec

end
-- ==== Proof.RefReadP.lean ====
/- The reference program one operation at a time: val_<buffer> is the value an operation writes as a function of the arguments it depends on,
   val_<buffer>_apply reads it at an index from its operands at an index, and val_<buffer>_eq says a result's term in the run is its val_. -/
import proofs.«400573_j52158082842660_3_alg».proof.Proof.RefRunP
import Idealize.ShloMosaic.Lib.Pipeline.Value
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_call0_cst : (⟨S_, .f32⟩ : BufTy).Contents (Elt F) :=
  constant S_ .f32 0xFF800000#32

def val_main_call0_v0 (x0 : (⟨S4096x10, .f32⟩ : BufTy).Contents (Elt F)) : (⟨S4096, .f32⟩ : BufTy).Contents (Elt F) :=
  Host.reduce FloatOps.maximumf (x0) (val_main_call0_cst (F := F)) reducesTo_S4096x10_S4096_d1 h_S_

def val_main_call0_cst_0 : (⟨S_, .f32⟩ : BufTy).Contents (Elt F) :=
  constant S_ .f32 0xFF800000#32

def val_main_call0_v1 : (⟨S4096, .f32⟩ : BufTy).Contents (Elt F) :=
  broadcastInDim S4096 ![] bcast_S_S4096 (val_main_call0_cst_0 (F := F))

def val_main_call0_v2 (x0 : (⟨S4096x10, .f32⟩ : BufTy).Contents (Elt F)) : (⟨S4096, .f32⟩ : BufTy).Contents (Elt F) :=
  maximumf (val_main_call0_v1 (F := F)) (val_main_call0_v0 (F := F) x0)

def val_main_call0_v3 (x0 : (⟨S4096x10, .f32⟩ : BufTy).Contents (Elt F)) : (⟨S4096x1, .f32⟩ : BufTy).Contents (Elt F) :=
  broadcastInDim S4096x1 ![0] bcast_S4096_S4096x1_0 (val_main_call0_v2 (F := F) x0)

def val_main_call0_v4 (x0 : (⟨S4096x10, .f32⟩ : BufTy).Contents (Elt F)) : (⟨S4096x10, .f32⟩ : BufTy).Contents (Elt F) :=
  broadcastInDim S4096x10 ![0, 1] bcast_S4096x1_S4096x10_0_1 (val_main_call0_v3 (F := F) x0)

def val_main_call0_v5 (x0 : (⟨S4096x10, .f32⟩ : BufTy).Contents (Elt F)) : (⟨S4096x10, .f32⟩ : BufTy).Contents (Elt F) :=
  subf (x0) (val_main_call0_v4 (F := F) x0)

def val_main_call0_v6 (x0 : (⟨S4096x10, .f32⟩ : BufTy).Contents (Elt F)) : (⟨S4096x10, .f32⟩ : BufTy).Contents (Elt F) :=
  Host.exp (val_main_call0_v5 (F := F) x0)

def val_main_call0_cst_1 : (⟨S_, .f32⟩ : BufTy).Contents (Elt F) :=
  constant S_ .f32 0x00000000#32

def val_main_call0_v7 (x0 : (⟨S4096x10, .f32⟩ : BufTy).Contents (Elt F)) : (⟨S4096, .f32⟩ : BufTy).Contents (Elt F) :=
  Host.reduceAdd (val_main_call0_v6 (F := F) x0) (val_main_call0_cst_1 (F := F)) reducesTo_S4096x10_S4096_d1 h_S_

def val_main_call0_v8 (x0 : (⟨S4096x10, .f32⟩ : BufTy).Contents (Elt F)) : (⟨S4096x1, .f32⟩ : BufTy).Contents (Elt F) :=
  broadcastInDim S4096x1 ![0] bcast_S4096_S4096x1_0 (val_main_call0_v7 (F := F) x0)

def val_main_call0_v9 (x0 : (⟨S4096x10, .f32⟩ : BufTy).Contents (Elt F)) : (⟨S4096x1, .f32⟩ : BufTy).Contents (Elt F) :=
  Host.log (val_main_call0_v8 (F := F) x0)

def val_main_call0_v10 (x0 : (⟨S4096x10, .f32⟩ : BufTy).Contents (Elt F)) : (⟨S4096x10, .f32⟩ : BufTy).Contents (Elt F) :=
  broadcastInDim S4096x10 ![0, 1] bcast_S4096x1_S4096x10_0_1 (val_main_call0_v9 (F := F) x0)

def val_main_v0 (x0 : (⟨S4096x10, .f32⟩ : BufTy).Contents (Elt F)) : (⟨S4096x10, .f32⟩ : BufTy).Contents (Elt F) :=
  subf (val_main_call0_v5 (F := F) x0) (val_main_call0_v10 (F := F) x0)

def val_main_v1 (x5 : (⟨S4096, .i32⟩ : BufTy).Contents (Elt F)) : (⟨S4096x1, .i32⟩ : BufTy).Contents (Elt F) :=
  broadcastInDim S4096x1 ![0] bcast_S4096_S4096x1_0 (x5)

def val_main_call1_c : (⟨S_, .i32⟩ : BufTy).Contents (Elt F) :=
  constantI S_ 32 0#32

def val_main_call1_v0 : (⟨S4096x1, .i32⟩ : BufTy).Contents (Elt F) :=
  broadcastInDim S4096x1 ![] bcast_S_S4096x1 (val_main_call1_c (F := F))

def val_main_call1_v1 (x5 : (⟨S4096, .i32⟩ : BufTy).Contents (Elt F)) : (⟨S4096x1, .i1⟩ : BufTy).Contents (Elt F) :=
  cmpi .slt (val_main_v1 (F := F) x5) (val_main_call1_v0 (F := F))

def val_main_call1_c_0 : (⟨S_, .i32⟩ : BufTy).Contents (Elt F) :=
  constantI S_ 32 10#32

def val_main_call1_v2 : (⟨S4096x1, .i32⟩ : BufTy).Contents (Elt F) :=
  broadcastInDim S4096x1 ![] bcast_S_S4096x1 (val_main_call1_c_0 (F := F))

def val_main_call1_v3 (x5 : (⟨S4096, .i32⟩ : BufTy).Contents (Elt F)) : (⟨S4096x1, .i32⟩ : BufTy).Contents (Elt F) :=
  addi (val_main_v1 (F := F) x5) (val_main_call1_v2 (F := F))

def val_main_call1_v4 (x5 : (⟨S4096, .i32⟩ : BufTy).Contents (Elt F)) : (⟨S4096x1, .i32⟩ : BufTy).Contents (Elt F) :=
  select (val_main_call1_v1 (F := F) x5) (val_main_call1_v3 (F := F) x5) (val_main_v1 (F := F) x5)

def val_main_call1_v5 (x5 : (⟨S4096, .i32⟩ : BufTy).Contents (Elt F)) : (⟨S4096x1x1, .i32⟩ : BufTy).Contents (Elt F) :=
  shapeCast _ (val_main_call1_v4 (F := F) x5) shapeCasts_S4096x1_S4096x1x1

def val_main_call1_c_1 : (⟨S1, .i32⟩ : BufTy).Contents (Elt F) :=
  constantI S1 32 9#32

def val_main_call1_c_2 : (⟨S_, .i32⟩ : BufTy).Contents (Elt F) :=
  constantI S_ 32 0#32

def val_main_call1_v6 : (⟨S4096x1x1, .i32⟩ : BufTy).Contents (Elt F) :=
  broadcastInDim S4096x1x1 ![] bcast_S_S4096x1x1 (val_main_call1_c_2 (F := F))

def val_main_call1_v7 (x5 : (⟨S4096, .i32⟩ : BufTy).Contents (Elt F)) : (⟨S4096x1x1, .i1⟩ : BufTy).Contents (Elt F) :=
  cmpi .sge (val_main_call1_v5 (F := F) x5) (val_main_call1_v6 (F := F))

def val_main_call1_v8 : (⟨S1x1x1, .i32⟩ : BufTy).Contents (Elt F) :=
  broadcastInDim S1x1x1 ![2] bcast_S1_S1x1x1_2 (val_main_call1_c_1 (F := F))

def val_main_call1_v9 : (⟨S4096x1x1, .i32⟩ : BufTy).Contents (Elt F) :=
  broadcastInDim S4096x1x1 ![0, 1, 2] bcast_S1x1x1_S4096x1x1_0_1_2 (val_main_call1_v8 (F := F))

def val_main_call1_v10 (x5 : (⟨S4096, .i32⟩ : BufTy).Contents (Elt F)) : (⟨S4096x1x1, .i1⟩ : BufTy).Contents (Elt F) :=
  cmpi .sle (val_main_call1_v5 (F := F) x5) (val_main_call1_v9 (F := F))

def val_main_call1_v11 (x5 : (⟨S4096, .i32⟩ : BufTy).Contents (Elt F)) : (⟨S4096x1x1, .i1⟩ : BufTy).Contents (Elt F) :=
  andi (val_main_call1_v7 (F := F) x5) (val_main_call1_v10 (F := F) x5)

def val_main_call1_c_3 : (⟨S_, .i1⟩ : BufTy).Contents (Elt F) :=
  constantI S_ 1 1#1

def val_main_call1_v12 (x5 : (⟨S4096, .i32⟩ : BufTy).Contents (Elt F)) : (⟨S4096x1, .i1⟩ : BufTy).Contents (Elt F) :=
  Host.reduce IntOp.andi (val_main_call1_v11 (F := F) x5) (val_main_call1_c_3 (F := F)) reducesTo_S4096x1x1_S4096x1_d2 h_S_

def val_main_call1_v13 (x0 : (⟨S4096x10, .f32⟩ : BufTy).Contents (Elt F)) (x5 : (⟨S4096, .i32⟩ : BufTy).Contents (Elt F)) : (⟨S4096x1, .f32⟩ : BufTy).Contents (Elt F) :=
  Host.gather gather_S4096x10_S4096x1x1_S4096x1_n_1_0_0_1_2_11 (val_main_v0 (F := F) x0) (val_main_call1_v5 (F := F) x5)

def val_main_call1_cst : (⟨S_, .f32⟩ : BufTy).Contents (Elt F) :=
  constant S_ .f32 0x7FC00000#32

def val_main_call1_v14 : (⟨S4096x1, .f32⟩ : BufTy).Contents (Elt F) :=
  broadcastInDim S4096x1 ![] bcast_S_S4096x1 (val_main_call1_cst (F := F))

def val_main_v2 (x0 : (⟨S4096x10, .f32⟩ : BufTy).Contents (Elt F)) (x5 : (⟨S4096, .i32⟩ : BufTy).Contents (Elt F)) : (⟨S4096x1, .f32⟩ : BufTy).Contents (Elt F) :=
  select (val_main_call1_v12 (F := F) x5) (val_main_call1_v13 (F := F) x0 x5) (val_main_call1_v14 (F := F))

def val_main_cst : (⟨S_, .f32⟩ : BufTy).Contents (Elt F) :=
  constant S_ .f32 0x00000000#32

def val_main_v3 (x0 : (⟨S4096x10, .f32⟩ : BufTy).Contents (Elt F)) (x5 : (⟨S4096, .i32⟩ : BufTy).Contents (Elt F)) : (⟨S_, .f32⟩ : BufTy).Contents (Elt F) :=
  Host.reduceAdd (val_main_v2 (F := F) x0 x5) (val_main_cst (F := F)) reducesTo_S4096x1_S_d0_1 h_S_

def val_main_cst_0 : (⟨S_, .f32⟩ : BufTy).Contents (Elt F) :=
  constant S_ .f32 0x45800000#32

def val_main_v4 (x0 : (⟨S4096x10, .f32⟩ : BufTy).Contents (Elt F)) (x5 : (⟨S4096, .i32⟩ : BufTy).Contents (Elt F)) : (⟨S_, .f32⟩ : BufTy).Contents (Elt F) :=
  Host.divf (val_main_v3 (F := F) x0 x5) (val_main_cst_0 (F := F))

def val_main_v5 (x0 : (⟨S4096x10, .f32⟩ : BufTy).Contents (Elt F)) (x5 : (⟨S4096, .i32⟩ : BufTy).Contents (Elt F)) : (⟨S_, .f32⟩ : BufTy).Contents (Elt F) :=
  Host.negf (val_main_v4 (F := F) x0 x5)

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v6 : (⟨S4096, .f32⟩ : BufTy).Contents (Elt F) :=
  broadcastInDim S4096 ![] bcast_S_S4096 (val_main_cst_1 (F := F))
abbrev idx_main_v6 (i : S4096.Idx) : S_.Idx := fun a => a.elim0
theorem val_main_v6_apply (i : S4096.Idx) :
    val_main_v6 (F := F) i = val_main_cst_1 (F := F) (idx_main_v6 i) := by
  unfold val_main_v6
  generalize val_main_cst_1 (F := F) = y
  exact broadcastInDim_apply _ bcast_S_S4096 y i (idx_main_v6 i) (fun a => a.elim0)

def val_main_v7 (x6 : (⟨S8388608, .i32⟩ : BufTy).Contents (Elt F)) : (⟨S8388608x1, .i32⟩ : BufTy).Contents (Elt F) :=
  broadcastInDim S8388608x1 ![0] bcast_S8388608_S8388608x1_0 (x6)
abbrev idx_main_v7 (i : S8388608x1.Idx) : S8388608.Idx := fun a => match a with
  | ⟨0, _⟩ => ⟨(i 0).val, (i 0).isLt⟩
theorem val_main_v7_apply (x6 : (⟨S8388608, .i32⟩ : BufTy).Contents (Elt F)) (i : S8388608x1.Idx) :
    val_main_v7 (F := F) x6 i = x6 (idx_main_v7 i) := by
  unfold val_main_v7
  exact broadcastInDim_apply _ bcast_S8388608_S8388608x1_0 x6 i (idx_main_v7 i) (fun a => match a with
    | ⟨0, _⟩ => by show (i 0).val = if (8388608 : Nat) = 1 then 0 else (i 0).val; rw [if_neg (by decide)])

def val_main_v8 (x3 : (⟨S8388608, .f32⟩ : BufTy).Contents (Elt F)) (x6 : (⟨S8388608, .i32⟩ : BufTy).Contents (Elt F)) : (⟨S4096, .f32⟩ : BufTy).Contents (Elt F) :=
  Host.scatterAdd scatter_S4096_S8388608x1_S8388608_n_0_0_1 (val_main_v6 (F := F)) (val_main_v7 (F := F) x6) (x3)

def val_main_cst_2 : (⟨S_, .f32⟩ : BufTy).Contents (Elt F) :=
  constant S_ .f32 0x00000000#32

def val_main_v9 : (⟨S4096, .f32⟩ : BufTy).Contents (Elt F) :=
  broadcastInDim S4096 ![] bcast_S_S4096 (val_main_cst_2 (F := F))

def val_main_v10 (x6 : (⟨S8388608, .i32⟩ : BufTy).Contents (Elt F)) : (⟨S8388608x1, .i32⟩ : BufTy).Contents (Elt F) :=
  broadcastInDim S8388608x1 ![0] bcast_S8388608_S8388608x1_0 (x6)

def val_main_v11 (x4 : (⟨S8388608, .f32⟩ : BufTy).Contents (Elt F)) (x6 : (⟨S8388608, .i32⟩ : BufTy).Contents (Elt F)) : (⟨S4096, .f32⟩ : BufTy).Contents (Elt F) :=
  Host.scatterAdd scatter_S4096_S8388608x1_S8388608_n_0_0_1 (val_main_v9 (F := F)) (val_main_v10 (F := F) x6) (x4)

def val_main_c : (⟨S_, .i32⟩ : BufTy).Contents (Elt F) :=
  constantI S_ 32 0#32
theorem val_main_c_apply (i : S_.Idx) :
    val_main_c (F := F) i = 0#32 := rfl

def val_main_v12 : (⟨S8388608, .i32⟩ : BufTy).Contents (Elt F) :=
  broadcastInDim S8388608 ![] bcast_S_S8388608 (val_main_c (F := F))
abbrev idx_main_v12 (i : S8388608.Idx) : S_.Idx := fun a => a.elim0
theorem val_main_v12_apply (i : S8388608.Idx) :
    val_main_v12 (F := F) i = val_main_c (F := F) (idx_main_v12 i) := by
  unfold val_main_v12
  generalize val_main_c (F := F) = y
  exact broadcastInDim_apply _ bcast_S_S8388608 y i (idx_main_v12 i) (fun a => a.elim0)

def val_main_v13 (x6 : (⟨S8388608, .i32⟩ : BufTy).Contents (Elt F)) : (⟨S8388608, .i1⟩ : BufTy).Contents (Elt F) :=
  cmpi .slt (x6) (val_main_v12 (F := F))
theorem val_main_v13_apply (x6 : (⟨S8388608, .i32⟩ : BufTy).Contents (Elt F)) (i : S8388608.Idx) :
    val_main_v13 (F := F) x6 i = IntOp.cmpi .slt (x6 i) (val_main_v12 (F := F) i) := rfl

def val_main_c_3 : (⟨S_, .i32⟩ : BufTy).Contents (Elt F) :=
  constantI S_ 32 4096#32
theorem val_main_c_3_apply (i : S_.Idx) :
    val_main_c_3 (F := F) i = 4096#32 := rfl

def val_main_v14 : (⟨S8388608, .i32⟩ : BufTy).Contents (Elt F) :=
  broadcastInDim S8388608 ![] bcast_S_S8388608 (val_main_c_3 (F := F))
abbrev idx_main_v14 (i : S8388608.Idx) : S_.Idx := fun a => a.elim0
theorem val_main_v14_apply (i : S8388608.Idx) :
    val_main_v14 (F := F) i = val_main_c_3 (F := F) (idx_main_v14 i) := by
  unfold val_main_v14
  generalize val_main_c_3 (F := F) = y
  exact broadcastInDim_apply _ bcast_S_S8388608 y i (idx_main_v14 i) (fun a => a.elim0)

def val_main_v15 (x6 : (⟨S8388608, .i32⟩ : BufTy).Contents (Elt F)) : (⟨S8388608, .i32⟩ : BufTy).Contents (Elt F) :=
  addi (x6) (val_main_v14 (F := F))
theorem val_main_v15_apply (x6 : (⟨S8388608, .i32⟩ : BufTy).Contents (Elt F)) (i : S8388608.Idx) :
    val_main_v15 (F := F) x6 i = IntOp.addi (x6 i) (val_main_v14 (F := F) i) := rfl

def val_main_v16 (x6 : (⟨S8388608, .i32⟩ : BufTy).Contents (Elt F)) : (⟨S8388608, .i32⟩ : BufTy).Contents (Elt F) :=
  select (val_main_v13 (F := F) x6) (val_main_v15 (F := F) x6) (x6)
theorem val_main_v16_apply (x6 : (⟨S8388608, .i32⟩ : BufTy).Contents (Elt F)) (i : S8388608.Idx) :
    val_main_v16 (F := F) x6 i = Scalar.select (val_main_v13 (F := F) x6 i) (val_main_v15 (F := F) x6 i) (x6 i) := rfl

def val_main_v17 (x6 : (⟨S8388608, .i32⟩ : BufTy).Contents (Elt F)) : (⟨S8388608x1, .i32⟩ : BufTy).Contents (Elt F) :=
  broadcastInDim S8388608x1 ![0] bcast_S8388608_S8388608x1_0 (val_main_v16 (F := F) x6)
abbrev idx_main_v17 (i : S8388608x1.Idx) : S8388608.Idx := fun a => match a with
  | ⟨0, _⟩ => ⟨(i 0).val, (i 0).isLt⟩
theorem val_main_v17_apply (x6 : (⟨S8388608, .i32⟩ : BufTy).Contents (Elt F)) (i : S8388608x1.Idx) :
    val_main_v17 (F := F) x6 i = val_main_v16 (F := F) x6 (idx_main_v17 i) := by
  unfold val_main_v17
  generalize val_main_v16 (F := F) x6 = y
  exact broadcastInDim_apply _ bcast_S8388608_S8388608x1_0 y i (idx_main_v17 i) (fun a => match a with
    | ⟨0, _⟩ => by show (i 0).val = if (8388608 : Nat) = 1 then 0 else (i 0).val; rw [if_neg (by decide)])

def val_main_v18 (x3 : (⟨S8388608, .f32⟩ : BufTy).Contents (Elt F)) (x6 : (⟨S8388608, .i32⟩ : BufTy).Contents (Elt F)) : (⟨S8388608, .f32⟩ : BufTy).Contents (Elt F) :=
  Host.gather gather_S4096_S8388608x1_S8388608_n_0_n_n_0_1_1 (val_main_v8 (F := F) x3 x6) (val_main_v17 (F := F) x6)

def val_main_cst_4 : (⟨S_, .f32⟩ : BufTy).Contents (Elt F) :=
  constant S_ .f32 0x322BCC77#32
theorem val_main_cst_4_apply (i : S_.Idx) :
    val_main_cst_4 (F := F) i = FloatOps.ofBits .f32 0x322BCC77#32 := rfl

def val_main_v19 : (⟨S8388608, .f32⟩ : BufTy).Contents (Elt F) :=
  broadcastInDim S8388608 ![] bcast_S_S8388608 (val_main_cst_4 (F := F))
abbrev idx_main_v19 (i : S8388608.Idx) : S_.Idx := fun a => a.elim0
theorem val_main_v19_apply (i : S8388608.Idx) :
    val_main_v19 (F := F) i = val_main_cst_4 (F := F) (idx_main_v19 i) := by
  unfold val_main_v19
  generalize val_main_cst_4 (F := F) = y
  exact broadcastInDim_apply _ bcast_S_S8388608 y i (idx_main_v19 i) (fun a => a.elim0)

def val_main_v20 (x3 : (⟨S8388608, .f32⟩ : BufTy).Contents (Elt F)) (x6 : (⟨S8388608, .i32⟩ : BufTy).Contents (Elt F)) : (⟨S8388608, .f32⟩ : BufTy).Contents (Elt F) :=
  addf (val_main_v18 (F := F) x3 x6) (val_main_v19 (F := F))
theorem val_main_v20_apply (x3 : (⟨S8388608, .f32⟩ : BufTy).Contents (Elt F)) (x6 : (⟨S8388608, .i32⟩ : BufTy).Contents (Elt F)) (i : S8388608.Idx) :
    val_main_v20 (F := F) x3 x6 i = FloatOps.addf (val_main_v18 (F := F) x3 x6 i) (val_main_v19 (F := F) i) := rfl

def val_main_v21 (x3 : (⟨S8388608, .f32⟩ : BufTy).Contents (Elt F)) (x6 : (⟨S8388608, .i32⟩ : BufTy).Contents (Elt F)) : (⟨S8388608, .f32⟩ : BufTy).Contents (Elt F) :=
  Host.divf (x3) (val_main_v20 (F := F) x3 x6)
theorem val_main_v21_apply (x3 : (⟨S8388608, .f32⟩ : BufTy).Contents (Elt F)) (x6 : (⟨S8388608, .i32⟩ : BufTy).Contents (Elt F)) (i : S8388608.Idx) :
    val_main_v21 (F := F) x3 x6 i = FloatOps.hostDivf (x3 i) (val_main_v20 (F := F) x3 x6 i) := rfl

def val_main_c_5 : (⟨S_, .i32⟩ : BufTy).Contents (Elt F) :=
  constantI S_ 32 0#32

def val_main_v22 : (⟨S8388608, .i32⟩ : BufTy).Contents (Elt F) :=
  broadcastInDim S8388608 ![] bcast_S_S8388608 (val_main_c_5 (F := F))

def val_main_v23 (x6 : (⟨S8388608, .i32⟩ : BufTy).Contents (Elt F)) : (⟨S8388608, .i1⟩ : BufTy).Contents (Elt F) :=
  cmpi .slt (x6) (val_main_v22 (F := F))

def val_main_c_6 : (⟨S_, .i32⟩ : BufTy).Contents (Elt F) :=
  constantI S_ 32 4096#32

def val_main_v24 : (⟨S8388608, .i32⟩ : BufTy).Contents (Elt F) :=
  broadcastInDim S8388608 ![] bcast_S_S8388608 (val_main_c_6 (F := F))

def val_main_v25 (x6 : (⟨S8388608, .i32⟩ : BufTy).Contents (Elt F)) : (⟨S8388608, .i32⟩ : BufTy).Contents (Elt F) :=
  addi (x6) (val_main_v24 (F := F))

def val_main_v26 (x6 : (⟨S8388608, .i32⟩ : BufTy).Contents (Elt F)) : (⟨S8388608, .i32⟩ : BufTy).Contents (Elt F) :=
  select (val_main_v23 (F := F) x6) (val_main_v25 (F := F) x6) (x6)

def val_main_v27 (x6 : (⟨S8388608, .i32⟩ : BufTy).Contents (Elt F)) : (⟨S8388608x1, .i32⟩ : BufTy).Contents (Elt F) :=
  broadcastInDim S8388608x1 ![0] bcast_S8388608_S8388608x1_0 (val_main_v26 (F := F) x6)

def val_main_v28 (x4 : (⟨S8388608, .f32⟩ : BufTy).Contents (Elt F)) (x6 : (⟨S8388608, .i32⟩ : BufTy).Contents (Elt F)) : (⟨S8388608, .f32⟩ : BufTy).Contents (Elt F) :=
  Host.gather gather_S4096_S8388608x1_S8388608_n_0_n_n_0_1_1 (val_main_v11 (F := F) x4 x6) (val_main_v27 (F := F) x6)

def val_main_cst_7 : (⟨S_, .f32⟩ : BufTy).Contents (Elt F) :=
  constant S_ .f32 0x322BCC77#32
theorem val_main_cst_7_apply (i : S_.Idx) :
    val_main_cst_7 (F := F) i = FloatOps.ofBits .f32 0x322BCC77#32 := rfl

def val_main_v29 : (⟨S8388608, .f32⟩ : BufTy).Contents (Elt F) :=
  broadcastInDim S8388608 ![] bcast_S_S8388608 (val_main_cst_7 (F := F))
abbrev idx_main_v29 (i : S8388608.Idx) : S_.Idx := fun a => a.elim0
theorem val_main_v29_apply (i : S8388608.Idx) :
    val_main_v29 (F := F) i = val_main_cst_7 (F := F) (idx_main_v29 i) := by
  unfold val_main_v29
  generalize val_main_cst_7 (F := F) = y
  exact broadcastInDim_apply _ bcast_S_S8388608 y i (idx_main_v29 i) (fun a => a.elim0)

def val_main_v30 (x4 : (⟨S8388608, .f32⟩ : BufTy).Contents (Elt F)) (x6 : (⟨S8388608, .i32⟩ : BufTy).Contents (Elt F)) : (⟨S8388608, .f32⟩ : BufTy).Contents (Elt F) :=
  addf (val_main_v28 (F := F) x4 x6) (val_main_v29 (F := F))
theorem val_main_v30_apply (x4 : (⟨S8388608, .f32⟩ : BufTy).Contents (Elt F)) (x6 : (⟨S8388608, .i32⟩ : BufTy).Contents (Elt F)) (i : S8388608.Idx) :
    val_main_v30 (F := F) x4 x6 i = FloatOps.addf (val_main_v28 (F := F) x4 x6 i) (val_main_v29 (F := F) i) := rfl

def val_main_v31 (x4 : (⟨S8388608, .f32⟩ : BufTy).Contents (Elt F)) (x6 : (⟨S8388608, .i32⟩ : BufTy).Contents (Elt F)) : (⟨S8388608, .f32⟩ : BufTy).Contents (Elt F) :=
  Host.divf (x4) (val_main_v30 (F := F) x4 x6)
theorem val_main_v31_apply (x4 : (⟨S8388608, .f32⟩ : BufTy).Contents (Elt F)) (x6 : (⟨S8388608, .i32⟩ : BufTy).Contents (Elt F)) (i : S8388608.Idx) :
    val_main_v31 (F := F) x4 x6 i = FloatOps.hostDivf (x4 i) (val_main_v30 (F := F) x4 x6 i) := rfl

def val_main_v32 (x3 x4 : (⟨S8388608, .f32⟩ : BufTy).Contents (Elt F)) (x6 : (⟨S8388608, .i32⟩ : BufTy).Contents (Elt F)) : (⟨S8388608, .f32⟩ : BufTy).Contents (Elt F) :=
  addf (val_main_v21 (F := F) x3 x6) (val_main_v31 (F := F) x4 x6)
theorem val_main_v32_apply (x3 x4 : (⟨S8388608, .f32⟩ : BufTy).Contents (Elt F)) (x6 : (⟨S8388608, .i32⟩ : BufTy).Contents (Elt F)) (i : S8388608.Idx) :
    val_main_v32 (F := F) x3 x4 x6 i = FloatOps.addf (val_main_v21 (F := F) x3 x6 i) (val_main_v31 (F := F) x4 x6 i) := rfl

def val_main_cst_8 : (⟨S_, .f32⟩ : BufTy).Contents (Elt F) :=
  constant S_ .f32 0x3F000000#32
theorem val_main_cst_8_apply (i : S_.Idx) :
    val_main_cst_8 (F := F) i = FloatOps.ofBits .f32 0x3F000000#32 := rfl

def val_main_v33 : (⟨S8388608, .f32⟩ : BufTy).Contents (Elt F) :=
  broadcastInDim S8388608 ![] bcast_S_S8388608 (val_main_cst_8 (F := F))
abbrev idx_main_v33 (i : S8388608.Idx) : S_.Idx := fun a => a.elim0
theorem val_main_v33_apply (i : S8388608.Idx) :
    val_main_v33 (F := F) i = val_main_cst_8 (F := F) (idx_main_v33 i) := by
  unfold val_main_v33
  generalize val_main_cst_8 (F := F) = y
  exact broadcastInDim_apply _ bcast_S_S8388608 y i (idx_main_v33 i) (fun a => a.elim0)

def val_main_v34 (x3 x4 : (⟨S8388608, .f32⟩ : BufTy).Contents (Elt F)) (x6 : (⟨S8388608, .i32⟩ : BufTy).Contents (Elt F)) : (⟨S8388608, .f32⟩ : BufTy).Contents (Elt F) :=
  mulf (val_main_v33 (F := F)) (val_main_v32 (F := F) x3 x4 x6)
theorem val_main_v34_apply (x3 x4 : (⟨S8388608, .f32⟩ : BufTy).Contents (Elt F)) (x6 : (⟨S8388608, .i32⟩ : BufTy).Contents (Elt F)) (i : S8388608.Idx) :
    val_main_v34 (F := F) x3 x4 x6 i = FloatOps.mulf (val_main_v33 (F := F) i) (val_main_v32 (F := F) x3 x4 x6 i) := rfl

def val_main_cst_9 : (⟨S_, .f32⟩ : BufTy).Contents (Elt F) :=
  constant S_ .f32 0x322BCC77#32
theorem val_main_cst_9_apply (i : S_.Idx) :
    val_main_cst_9 (F := F) i = FloatOps.ofBits .f32 0x322BCC77#32 := rfl

def val_main_v35 : (⟨S8388608, .f32⟩ : BufTy).Contents (Elt F) :=
  broadcastInDim S8388608 ![] bcast_S_S8388608 (val_main_cst_9 (F := F))
abbrev idx_main_v35 (i : S8388608.Idx) : S_.Idx := fun a => a.elim0
theorem val_main_v35_apply (i : S8388608.Idx) :
    val_main_v35 (F := F) i = val_main_cst_9 (F := F) (idx_main_v35 i) := by
  unfold val_main_v35
  generalize val_main_cst_9 (F := F) = y
  exact broadcastInDim_apply _ bcast_S_S8388608 y i (idx_main_v35 i) (fun a => a.elim0)

def val_main_v36 (x3 : (⟨S8388608, .f32⟩ : BufTy).Contents (Elt F)) (x6 : (⟨S8388608, .i32⟩ : BufTy).Contents (Elt F)) : (⟨S8388608, .f32⟩ : BufTy).Contents (Elt F) :=
  addf (val_main_v21 (F := F) x3 x6) (val_main_v35 (F := F))
theorem val_main_v36_apply (x3 : (⟨S8388608, .f32⟩ : BufTy).Contents (Elt F)) (x6 : (⟨S8388608, .i32⟩ : BufTy).Contents (Elt F)) (i : S8388608.Idx) :
    val_main_v36 (F := F) x3 x6 i = FloatOps.addf (val_main_v21 (F := F) x3 x6 i) (val_main_v35 (F := F) i) := rfl

def val_main_cst_10 : (⟨S_, .f32⟩ : BufTy).Contents (Elt F) :=
  constant S_ .f32 0x322BCC77#32
theorem val_main_cst_10_apply (i : S_.Idx) :
    val_main_cst_10 (F := F) i = FloatOps.ofBits .f32 0x322BCC77#32 := rfl

def val_main_v37 : (⟨S8388608, .f32⟩ : BufTy).Contents (Elt F) :=
  broadcastInDim S8388608 ![] bcast_S_S8388608 (val_main_cst_10 (F := F))
abbrev idx_main_v37 (i : S8388608.Idx) : S_.Idx := fun a => a.elim0
theorem val_main_v37_apply (i : S8388608.Idx) :
    val_main_v37 (F := F) i = val_main_cst_10 (F := F) (idx_main_v37 i) := by
  unfold val_main_v37
  generalize val_main_cst_10 (F := F) = y
  exact broadcastInDim_apply _ bcast_S_S8388608 y i (idx_main_v37 i) (fun a => a.elim0)

def val_main_v38 (x3 x4 : (⟨S8388608, .f32⟩ : BufTy).Contents (Elt F)) (x6 : (⟨S8388608, .i32⟩ : BufTy).Contents (Elt F)) : (⟨S8388608, .f32⟩ : BufTy).Contents (Elt F) :=
  addf (val_main_v34 (F := F) x3 x4 x6) (val_main_v37 (F := F))
theorem val_main_v38_apply (x3 x4 : (⟨S8388608, .f32⟩ : BufTy).Contents (Elt F)) (x6 : (⟨S8388608, .i32⟩ : BufTy).Contents (Elt F)) (i : S8388608.Idx) :
    val_main_v38 (F := F) x3 x4 x6 i = FloatOps.addf (val_main_v34 (F := F) x3 x4 x6 i) (val_main_v37 (F := F) i) := rfl

def val_main_v39 (x3 x4 : (⟨S8388608, .f32⟩ : BufTy).Contents (Elt F)) (x6 : (⟨S8388608, .i32⟩ : BufTy).Contents (Elt F)) : (⟨S8388608, .f32⟩ : BufTy).Contents (Elt F) :=
  Host.divf (val_main_v36 (F := F) x3 x6) (val_main_v38 (F := F) x3 x4 x6)
theorem val_main_v39_apply (x3 x4 : (⟨S8388608, .f32⟩ : BufTy).Contents (Elt F)) (x6 : (⟨S8388608, .i32⟩ : BufTy).Contents (Elt F)) (i : S8388608.Idx) :
    val_main_v39 (F := F) x3 x4 x6 i = FloatOps.hostDivf (val_main_v36 (F := F) x3 x6 i) (val_main_v38 (F := F) x3 x4 x6 i) := rfl

def val_main_v40 (x3 x4 : (⟨S8388608, .f32⟩ : BufTy).Contents (Elt F)) (x6 : (⟨S8388608, .i32⟩ : BufTy).Contents (Elt F)) : (⟨S8388608, .f32⟩ : BufTy).Contents (Elt F) :=
  Host.log (val_main_v39 (F := F) x3 x4 x6)
theorem val_main_v40_apply (x3 x4 : (⟨S8388608, .f32⟩ : BufTy).Contents (Elt F)) (x6 : (⟨S8388608, .i32⟩ : BufTy).Contents (Elt F)) (i : S8388608.Idx) :
    val_main_v40 (F := F) x3 x4 x6 i = FloatOps.hostUnary .log (val_main_v39 (F := F) x3 x4 x6 i) := rfl

def val_main_v41 (x3 x4 : (⟨S8388608, .f32⟩ : BufTy).Contents (Elt F)) (x6 : (⟨S8388608, .i32⟩ : BufTy).Contents (Elt F)) : (⟨S8388608, .f32⟩ : BufTy).Contents (Elt F) :=
  mulf (val_main_v21 (F := F) x3 x6) (val_main_v40 (F := F) x3 x4 x6)
theorem val_main_v41_apply (x3 x4 : (⟨S8388608, .f32⟩ : BufTy).Contents (Elt F)) (x6 : (⟨S8388608, .i32⟩ : BufTy).Contents (Elt F)) (i : S8388608.Idx) :
    val_main_v41 (F := F) x3 x4 x6 i = FloatOps.mulf (val_main_v21 (F := F) x3 x6 i) (val_main_v40 (F := F) x3 x4 x6 i) := rfl

def val_main_cst_11 : (⟨S_, .f32⟩ : BufTy).Contents (Elt F) :=
  constant S_ .f32 0x00000000#32

def val_main_v42 : (⟨S4096, .f32⟩ : BufTy).Contents (Elt F) :=
  broadcastInDim S4096 ![] bcast_S_S4096 (val_main_cst_11 (F := F))

def val_main_v43 (x6 : (⟨S8388608, .i32⟩ : BufTy).Contents (Elt F)) : (⟨S8388608x1, .i32⟩ : BufTy).Contents (Elt F) :=
  broadcastInDim S8388608x1 ![0] bcast_S8388608_S8388608x1_0 (x6)

def val_main_v44 (x3 x4 : (⟨S8388608, .f32⟩ : BufTy).Contents (Elt F)) (x6 : (⟨S8388608, .i32⟩ : BufTy).Contents (Elt F)) : (⟨S4096, .f32⟩ : BufTy).Contents (Elt F) :=
  Host.scatterAdd scatter_S4096_S8388608x1_S8388608_n_0_0_1 (val_main_v42 (F := F)) (val_main_v43 (F := F) x6) (val_main_v41 (F := F) x3 x4 x6)

def val_main_cst_12 : (⟨S_, .f32⟩ : BufTy).Contents (Elt F) :=
  constant S_ .f32 0x322BCC77#32
theorem val_main_cst_12_apply (i : S_.Idx) :
    val_main_cst_12 (F := F) i = FloatOps.ofBits .f32 0x322BCC77#32 := rfl

def val_main_v45 : (⟨S8388608, .f32⟩ : BufTy).Contents (Elt F) :=
  broadcastInDim S8388608 ![] bcast_S_S8388608 (val_main_cst_12 (F := F))
abbrev idx_main_v45 (i : S8388608.Idx) : S_.Idx := fun a => a.elim0
theorem val_main_v45_apply (i : S8388608.Idx) :
    val_main_v45 (F := F) i = val_main_cst_12 (F := F) (idx_main_v45 i) := by
  unfold val_main_v45
  generalize val_main_cst_12 (F := F) = y
  exact broadcastInDim_apply _ bcast_S_S8388608 y i (idx_main_v45 i) (fun a => a.elim0)

def val_main_v46 (x4 : (⟨S8388608, .f32⟩ : BufTy).Contents (Elt F)) (x6 : (⟨S8388608, .i32⟩ : BufTy).Contents (Elt F)) : (⟨S8388608, .f32⟩ : BufTy).Contents (Elt F) :=
  addf (val_main_v31 (F := F) x4 x6) (val_main_v45 (F := F))
theorem val_main_v46_apply (x4 : (⟨S8388608, .f32⟩ : BufTy).Contents (Elt F)) (x6 : (⟨S8388608, .i32⟩ : BufTy).Contents (Elt F)) (i : S8388608.Idx) :
    val_main_v46 (F := F) x4 x6 i = FloatOps.addf (val_main_v31 (F := F) x4 x6 i) (val_main_v45 (F := F) i) := rfl

def val_main_cst_13 : (⟨S_, .f32⟩ : BufTy).Contents (Elt F) :=
  constant S_ .f32 0x322BCC77#32
theorem val_main_cst_13_apply (i : S_.Idx) :
    val_main_cst_13 (F := F) i = FloatOps.ofBits .f32 0x322BCC77#32 := rfl

def val_main_v47 : (⟨S8388608, .f32⟩ : BufTy).Contents (Elt F) :=
  broadcastInDim S8388608 ![] bcast_S_S8388608 (val_main_cst_13 (F := F))
abbrev idx_main_v47 (i : S8388608.Idx) : S_.Idx := fun a => a.elim0
theorem val_main_v47_apply (i : S8388608.Idx) :
    val_main_v47 (F := F) i = val_main_cst_13 (F := F) (idx_main_v47 i) := by
  unfold val_main_v47
  generalize val_main_cst_13 (F := F) = y
  exact broadcastInDim_apply _ bcast_S_S8388608 y i (idx_main_v47 i) (fun a => a.elim0)

def val_main_v48 (x3 x4 : (⟨S8388608, .f32⟩ : BufTy).Contents (Elt F)) (x6 : (⟨S8388608, .i32⟩ : BufTy).Contents (Elt F)) : (⟨S8388608, .f32⟩ : BufTy).Contents (Elt F) :=
  addf (val_main_v34 (F := F) x3 x4 x6) (val_main_v47 (F := F))
theorem val_main_v48_apply (x3 x4 : (⟨S8388608, .f32⟩ : BufTy).Contents (Elt F)) (x6 : (⟨S8388608, .i32⟩ : BufTy).Contents (Elt F)) (i : S8388608.Idx) :
    val_main_v48 (F := F) x3 x4 x6 i = FloatOps.addf (val_main_v34 (F := F) x3 x4 x6 i) (val_main_v47 (F := F) i) := rfl

def val_main_v49 (x3 x4 : (⟨S8388608, .f32⟩ : BufTy).Contents (Elt F)) (x6 : (⟨S8388608, .i32⟩ : BufTy).Contents (Elt F)) : (⟨S8388608, .f32⟩ : BufTy).Contents (Elt F) :=
  Host.divf (val_main_v46 (F := F) x4 x6) (val_main_v48 (F := F) x3 x4 x6)
theorem val_main_v49_apply (x3 x4 : (⟨S8388608, .f32⟩ : BufTy).Contents (Elt F)) (x6 : (⟨S8388608, .i32⟩ : BufTy).Contents (Elt F)) (i : S8388608.Idx) :
    val_main_v49 (F := F) x3 x4 x6 i = FloatOps.hostDivf (val_main_v46 (F := F) x4 x6 i) (val_main_v48 (F := F) x3 x4 x6 i) := rfl

def val_main_v50 (x3 x4 : (⟨S8388608, .f32⟩ : BufTy).Contents (Elt F)) (x6 : (⟨S8388608, .i32⟩ : BufTy).Contents (Elt F)) : (⟨S8388608, .f32⟩ : BufTy).Contents (Elt F) :=
  Host.log (val_main_v49 (F := F) x3 x4 x6)
theorem val_main_v50_apply (x3 x4 : (⟨S8388608, .f32⟩ : BufTy).Contents (Elt F)) (x6 : (⟨S8388608, .i32⟩ : BufTy).Contents (Elt F)) (i : S8388608.Idx) :
    val_main_v50 (F := F) x3 x4 x6 i = FloatOps.hostUnary .log (val_main_v49 (F := F) x3 x4 x6 i) := rfl

def val_main_v51 (x3 x4 : (⟨S8388608, .f32⟩ : BufTy).Contents (Elt F)) (x6 : (⟨S8388608, .i32⟩ : BufTy).Contents (Elt F)) : (⟨S8388608, .f32⟩ : BufTy).Contents (Elt F) :=
  mulf (val_main_v31 (F := F) x4 x6) (val_main_v50 (F := F) x3 x4 x6)
theorem val_main_v51_apply (x3 x4 : (⟨S8388608, .f32⟩ : BufTy).Contents (Elt F)) (x6 : (⟨S8388608, .i32⟩ : BufTy).Contents (Elt F)) (i : S8388608.Idx) :
    val_main_v51 (F := F) x3 x4 x6 i = FloatOps.mulf (val_main_v31 (F := F) x4 x6 i) (val_main_v50 (F := F) x3 x4 x6 i) := rfl

def val_main_cst_14 : (⟨S_, .f32⟩ : BufTy).Contents (Elt F) :=
  constant S_ .f32 0x00000000#32

def val_main_v52 : (⟨S4096, .f32⟩ : BufTy).Contents (Elt F) :=
  broadcastInDim S4096 ![] bcast_S_S4096 (val_main_cst_14 (F := F))

def val_main_v53 (x6 : (⟨S8388608, .i32⟩ : BufTy).Contents (Elt F)) : (⟨S8388608x1, .i32⟩ : BufTy).Contents (Elt F) :=
  broadcastInDim S8388608x1 ![0] bcast_S8388608_S8388608x1_0 (x6)

def val_main_v54 (x3 x4 : (⟨S8388608, .f32⟩ : BufTy).Contents (Elt F)) (x6 : (⟨S8388608, .i32⟩ : BufTy).Contents (Elt F)) : (⟨S4096, .f32⟩ : BufTy).Contents (Elt F) :=
  Host.scatterAdd scatter_S4096_S8388608x1_S8388608_n_0_0_1 (val_main_v52 (F := F)) (val_main_v53 (F := F) x6) (val_main_v51 (F := F) x3 x4 x6)

def val_main_cst_15 : (⟨S_, .f32⟩ : BufTy).Contents (Elt F) :=
  constant S_ .f32 0x3F800000#32
theorem val_main_cst_15_apply (i : S_.Idx) :
    val_main_cst_15 (F := F) i = FloatOps.ofBits .f32 0x3F800000#32 := rfl

def val_main_v55 : (⟨S8388608, .f32⟩ : BufTy).Contents (Elt F) :=
  broadcastInDim S8388608 ![] bcast_S_S8388608 (val_main_cst_15 (F := F))
abbrev idx_main_v55 (i : S8388608.Idx) : S_.Idx := fun a => a.elim0
theorem val_main_v55_apply (i : S8388608.Idx) :
    val_main_v55 (F := F) i = val_main_cst_15 (F := F) (idx_main_v55 i) := by
  unfold val_main_v55
  generalize val_main_cst_15 (F := F) = y
  exact broadcastInDim_apply _ bcast_S_S8388608 y i (idx_main_v55 i) (fun a => a.elim0)

def val_main_cst_16 : (⟨S_, .f32⟩ : BufTy).Contents (Elt F) :=
  constant S_ .f32 0x00000000#32

def val_main_v56 : (⟨S4096, .f32⟩ : BufTy).Contents (Elt F) :=
  broadcastInDim S4096 ![] bcast_S_S4096 (val_main_cst_16 (F := F))

def val_main_v57 (x6 : (⟨S8388608, .i32⟩ : BufTy).Contents (Elt F)) : (⟨S8388608x1, .i32⟩ : BufTy).Contents (Elt F) :=
  broadcastInDim S8388608x1 ![0] bcast_S8388608_S8388608x1_0 (x6)

def val_main_v58 (x6 : (⟨S8388608, .i32⟩ : BufTy).Contents (Elt F)) : (⟨S4096, .f32⟩ : BufTy).Contents (Elt F) :=
  Host.scatterAdd scatter_S4096_S8388608x1_S8388608_n_0_0_1 (val_main_v56 (F := F)) (val_main_v57 (F := F) x6) (val_main_v55 (F := F))

def val_main_cst_17 : (⟨S_, .f32⟩ : BufTy).Contents (Elt F) :=
  constant S_ .f32 0x00000000#32

def val_main_v59 : (⟨S4096, .f32⟩ : BufTy).Contents (Elt F) :=
  broadcastInDim S4096 ![] bcast_S_S4096 (val_main_cst_17 (F := F))

def val_main_v60 (x6 : (⟨S8388608, .i32⟩ : BufTy).Contents (Elt F)) : (⟨S4096, .i1⟩ : BufTy).Contents (Elt F) :=
  cmpf .ogt (val_main_v58 (F := F) x6) (val_main_v59 (F := F))

def val_main_v61 (x6 : (⟨S8388608, .i32⟩ : BufTy).Contents (Elt F)) : (⟨S4096, .i32⟩ : BufTy).Contents (Elt F) :=
  extui 32 (val_main_v60 (F := F) x6) natLt_1_32

def val_main_c_18 : (⟨S_, .i32⟩ : BufTy).Contents (Elt F) :=
  constantI S_ 32 0#32

def val_main_v62 (x6 : (⟨S8388608, .i32⟩ : BufTy).Contents (Elt F)) : (⟨S_, .i32⟩ : BufTy).Contents (Elt F) :=
  Host.reduce IntOp.addi (val_main_v61 (F := F) x6) (val_main_c_18 (F := F)) reducesTo_S4096_S_d0 h_S_

def val_main_v63 (x6 : (⟨S8388608, .i32⟩ : BufTy).Contents (Elt F)) : (⟨S_, .f32⟩ : BufTy).Contents (Elt F) :=
  sitofp .f32 (val_main_v62 (F := F) x6)

def val_main_v64 (x3 x4 : (⟨S8388608, .f32⟩ : BufTy).Contents (Elt F)) (x6 : (⟨S8388608, .i32⟩ : BufTy).Contents (Elt F)) : (⟨S4096, .f32⟩ : BufTy).Contents (Elt F) :=
  addf (val_main_v44 (F := F) x3 x4 x6) (val_main_v54 (F := F) x3 x4 x6)

def val_main_cst_19 : (⟨S_, .f32⟩ : BufTy).Contents (Elt F) :=
  constant S_ .f32 0x00000000#32

def val_main_v65 (x3 x4 : (⟨S8388608, .f32⟩ : BufTy).Contents (Elt F)) (x6 : (⟨S8388608, .i32⟩ : BufTy).Contents (Elt F)) : (⟨S_, .f32⟩ : BufTy).Contents (Elt F) :=
  Host.reduceAdd (val_main_v64 (F := F) x3 x4 x6) (val_main_cst_19 (F := F)) reducesTo_S4096_S_d0 h_S_

def val_main_cst_20 : (⟨S_, .f32⟩ : BufTy).Contents (Elt F) :=
  constant S_ .f32 0x3F000000#32

def val_main_v66 (x3 x4 : (⟨S8388608, .f32⟩ : BufTy).Contents (Elt F)) (x6 : (⟨S8388608, .i32⟩ : BufTy).Contents (Elt F)) : (⟨S_, .f32⟩ : BufTy).Contents (Elt F) :=
  mulf (val_main_cst_20 (F := F)) (val_main_v65 (F := F) x3 x4 x6)

def val_main_v67 (x3 x4 : (⟨S8388608, .f32⟩ : BufTy).Contents (Elt F)) (x6 : (⟨S8388608, .i32⟩ : BufTy).Contents (Elt F)) : (⟨S_, .f32⟩ : BufTy).Contents (Elt F) :=
  Host.divf (val_main_v66 (F := F) x3 x4 x6) (val_main_v63 (F := F) x6)

def val_main_cst_21 : (⟨S_, .f32⟩ : BufTy).Contents (Elt F) :=
  constant S_ .f32 0x3F800000#32

def val_main_v68 : (⟨S4096x10, .f32⟩ : BufTy).Contents (Elt F) :=
  broadcastInDim S4096x10 ![] bcast_S_S4096x10 (val_main_cst_21 (F := F))

def val_main_v69 (x2 : (⟨S4096x10, .f32⟩ : BufTy).Contents (Elt F)) : (⟨S4096x10, .f32⟩ : BufTy).Contents (Elt F) :=
  subf (val_main_v68 (F := F)) (x2)

def val_main_v70 (x1 x2 : (⟨S4096x10, .f32⟩ : BufTy).Contents (Elt F)) : (⟨S4096x10, .f32⟩ : BufTy).Contents (Elt F) :=
  subf (x1) (val_main_v69 (F := F) x2)

def val_main_v71 (x1 x2 : (⟨S4096x10, .f32⟩ : BufTy).Contents (Elt F)) : (⟨S4096x10, .f32⟩ : BufTy).Contents (Elt F) :=
  mulf (val_main_v70 (F := F) x1 x2) (val_main_v70 (F := F) x1 x2)

def val_main_cst_22 : (⟨S_, .f32⟩ : BufTy).Contents (Elt F) :=
  constant S_ .f32 0x00000000#32

def val_main_v72 (x1 x2 : (⟨S4096x10, .f32⟩ : BufTy).Contents (Elt F)) : (⟨S_, .f32⟩ : BufTy).Contents (Elt F) :=
  Host.reduceAdd (val_main_v71 (F := F) x1 x2) (val_main_cst_22 (F := F)) reducesTo_S4096x10_S_d0_1 h_S_

def val_main_cst_23 : (⟨S_, .f32⟩ : BufTy).Contents (Elt F) :=
  constant S_ .f32 0x47200000#32

def val_main_v73 (x1 x2 : (⟨S4096x10, .f32⟩ : BufTy).Contents (Elt F)) : (⟨S_, .f32⟩ : BufTy).Contents (Elt F) :=
  Host.divf (val_main_v72 (F := F) x1 x2) (val_main_cst_23 (F := F))

def val_main_cst_24 : (⟨S_, .f32⟩ : BufTy).Contents (Elt F) :=
  constant S_ .f32 0x3F800000#32

def val_main_v74 (x3 x4 : (⟨S8388608, .f32⟩ : BufTy).Contents (Elt F)) (x6 : (⟨S8388608, .i32⟩ : BufTy).Contents (Elt F)) : (⟨S_, .f32⟩ : BufTy).Contents (Elt F) :=
  mulf (val_main_cst_24 (F := F)) (val_main_v67 (F := F) x3 x4 x6)

def val_main_cst_25 : (⟨S_, .f32⟩ : BufTy).Contents (Elt F) :=
  constant S_ .f32 0x3F800000#32

def val_main_v75 (x1 x2 : (⟨S4096x10, .f32⟩ : BufTy).Contents (Elt F)) : (⟨S_, .f32⟩ : BufTy).Contents (Elt F) :=
  mulf (val_main_cst_25 (F := F)) (val_main_v73 (F := F) x1 x2)

def val_main_v76 (x1 x2 : (⟨S4096x10, .f32⟩ : BufTy).Contents (Elt F)) (x3 x4 : (⟨S8388608, .f32⟩ : BufTy).Contents (Elt F)) (x6 : (⟨S8388608, .i32⟩ : BufTy).Contents (Elt F)) : (⟨S_, .f32⟩ : BufTy).Contents (Elt F) :=
  addf (val_main_v74 (F := F) x3 x4 x6) (val_main_v75 (F := F) x1 x2)

def val_main_cst_26 : (⟨S_, .f32⟩ : BufTy).Contents (Elt F) :=
  constant S_ .f32 0x3DCCCCCD#32

def val_main_v77 (x1 x2 : (⟨S4096x10, .f32⟩ : BufTy).Contents (Elt F)) (x3 x4 : (⟨S8388608, .f32⟩ : BufTy).Contents (Elt F)) (x6 : (⟨S8388608, .i32⟩ : BufTy).Contents (Elt F)) : (⟨S_, .f32⟩ : BufTy).Contents (Elt F) :=
  mulf (val_main_cst_26 (F := F)) (val_main_v76 (F := F) x1 x2 x3 x4 x6)

def val_main_v78 (x0 x1 x2 : (⟨S4096x10, .f32⟩ : BufTy).Contents (Elt F)) (x3 x4 : (⟨S8388608, .f32⟩ : BufTy).Contents (Elt F)) (x5 : (⟨S4096, .i32⟩ : BufTy).Contents (Elt F)) (x6 : (⟨S8388608, .i32⟩ : BufTy).Contents (Elt F)) : (⟨S_, .f32⟩ : BufTy).Contents (Elt F) :=
  addf (val_main_v5 (F := F) x0 x5) (val_main_v77 (F := F) x1 x2 x3 x4 x6)

theorem val_main_v78_eq (m : (ℓ : Loc nD τ sig) → Buf (Elt F) ℓ) (c : Dev nD) :
    Cert.ReferenceIdeal.Value.res_main_v78 m c = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v78; rfl

theorem val_main_v5_eq (x0 : (⟨S4096x10, .f32⟩ : BufTy).Contents (Elt F)) (x5 : (⟨S4096, .i32⟩ : BufTy).Contents (Elt F)) :
    Host.negf (Host.divf (Host.reduceAdd (select (Host.reduce IntOp.andi (andi (cmpi .sge (shapeCast _ (select (cmpi .slt (broadcastInDim S4096x1 ![0] bcast_S4096_S4096x1_0 (x5)) (broadcastInDim S4096x1 ![] bcast_S_S4096x1 (constantI S_ 32 0#32))) (addi (broadcastInDim S4096x1 ![0] bcast_S4096_S4096x1_0 (x5)) (broadcastInDim S4096x1 ![] bcast_S_S4096x1 (constantI S_ 32 10#32))) (broadcastInDim S4096x1 ![0] bcast_S4096_S4096x1_0 (x5))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (x5)) (broadcastInDim S4096x1 ![] bcast_S_S4096x1 (constantI S_ 32 0#32))) (addi (broadcastInDim S4096x1 ![0] bcast_S4096_S4096x1_0 (x5)) (broadcastInDim S4096x1 ![] bcast_S_S4096x1 (constantI S_ 32 10#32))) (broadcastInDim S4096x1 ![0] bcast_S4096_S4096x1_0 (x5))) shapeCasts_S4096x1_S4096x1x1) (broadcastInDim S4096x1x1 ![0, 1, 2] bcast_S1x1x1_S4096x1x1_0_1_2 (broadcastInDim S1x1x1 ![2] bcast_S1_S1x1x1_2 (constantI S1 32 9#32))))) (constantI S_ 1 1#1) reducesTo_S4096x1x1_S4096x1_d2 h_S_) (Host.gather gather_S4096x10_S4096x1x1_S4096x1_n_1_0_0_1_2_11 (subf (subf (x0) (broadcastInDim S4096x10 ![0, 1] bcast_S4096x1_S4096x10_0_1 (broadcastInDim S4096x1 ![0] bcast_S4096_S4096x1_0 (maximumf (broadcastInDim S4096 ![] bcast_S_S4096 (constant S_ .f32 0xFF800000#32)) (Host.reduce FloatOps.maximumf (x0) (constant S_ .f32 0xFF800000#32) reducesTo_S4096x10_S4096_d1 h_S_))))) (broadcastInDim S4096x10 ![0, 1] bcast_S4096x1_S4096x10_0_1 (Host.log (broadcastInDim S4096x1 ![0] bcast_S4096_S4096x1_0 (Host.reduceAdd (Host.exp (subf (x0) (broadcastInDim S4096x10 ![0, 1] bcast_S4096x1_S4096x10_0_1 (broadcastInDim S4096x1 ![0] bcast_S4096_S4096x1_0 (maximumf (broadcastInDim S4096 ![] bcast_S_S4096 (constant S_ .f32 0xFF800000#32)) (Host.reduce FloatOps.maximumf (x0) (constant S_ .f32 0xFF800000#32) reducesTo_S4096x10_S4096_d1 h_S_)))))) (constant S_ .f32 0x00000000#32) reducesTo_S4096x10_S4096_d1 h_S_))))) (shapeCast _ (select (cmpi .slt (broadcastInDim S4096x1 ![0] bcast_S4096_S4096x1_0 (x5)) (broadcastInDim S4096x1 ![] bcast_S_S4096x1 (constantI S_ 32 0#32))) (addi (broadcastInDim S4096x1 ![0] bcast_S4096_S4096x1_0 (x5)) (broadcastInDim S4096x1 ![] bcast_S_S4096x1 (constantI S_ 32 10#32))) (broadcastInDim S4096x1 ![0] bcast_S4096_S4096x1_0 (x5))) shapeCasts_S4096x1_S4096x1x1)) (broadcastInDim S4096x1 ![] bcast_S_S4096x1 (constant S_ .f32 0x7FC00000#32))) (constant S_ .f32 0x00000000#32) reducesTo_S4096x1_S_d0_1 h_S_) (constant S_ .f32 0x45800000#32))
      = val_main_v5 (F := F) x0 x5 := rfl

theorem val_main_v76_eq (m : (ℓ : Loc nD τ sig) → Buf (Elt F) ℓ) (c : Dev nD) :
    Cert.ReferenceIdeal.Value.res_main_v76 m c = val_main_v76 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) := by
  unfold Cert.ReferenceIdeal.Value.res_main_v76; rfl

end Cert.ReferenceIdeal.Read

end
-- ==== Proof.RefValue.lean ====
/- The reference's three results as the mathematics of the specification. An accumulating scatter along the column of node words lands an update on
   element g exactly when the node's word, read signed, is g; a gather whose start word is the node's word (4096 added when negative) reads the
   node's own graph. So the three per-graph vectors are the node counts and the two summed divergence terms. -/
import proofs.«400573_j52158082842660_3_alg».proof.Proof.RefRunP
import proofs.«400573_j52158082842660_3_alg».proof.Proof.RefReadP
import proofs.«400573_j52158082842660_3_alg».proof.Proof.Spec
import Idealize.ShloMosaic.PureOps.Ideal
import Idealize.ShloMosaic.PureOps.Ideal.Laws
import Idealize.ShloMosaic.Lib.ValueIdx
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.StableHlo.Predicate
open Cert.ReferenceIdeal.Read
open scoped Classical

theorem wrap_keeps (a k : BitVec 32) (h : 0 ≤ a.toInt) :
    Scalar.select (IntOp.cmpi .slt a 0#32) (IntOp.addi a k) a = a := by
  have hs : a.slt 0#32 = false := by
    simp only [BitVec.slt, BitVec.toInt_zero, decide_eq_false_iff_not, not_lt]
    exact h
  unfold IntOp.cmpi
  show Scalar.select (BitVec.ofBool (a.slt 0#32)) _ _ = _
  rw [hs]
  exact select_zero _ _

theorem ofFin_eq_ix1 {n : Nat} (k : Fin n) : Shape.Idx.ofFin k = ix1 k := by
  funext a
  have ha : a = 0 := Subsingleton.elim _ _
  subst ha
  rfl

/-- An update lands on element q exactly when its start word, read signed, is q; a word outside [0, 4096) lands nowhere. -/
theorem scatter_lands_iff {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (p : Fin n) (q : Fin N) :
    d.resultIdx? (ix1 p) idx = some (ix1 q) ↔ (idx (ixP p)).toInt = (q.val : Int) := by
  have hm : (0 : Fin 1) ∈ d.scatterDimsToOperandDims := by rw [hsd]; exact List.mem_singleton.mpr rfl
  have hk : (0 : Fin 1) ∉ d.sKept := by
    show (0 : Fin 1) ∉ (List.finRange 1).filter (· ∉ d.insertedWindowDims)
    rw [hiw]
    intro hmem
    have h2 := (List.mem_filter.1 hmem).2
    simp at h2

  have hstart : d.start (ix1 p) idx 0 = (idx (ixP p)).toInt := by
    unfold ScatterDims.start
    rw [dif_pos hm]
    congr 2
    funext b
    match b with
    | ⟨0, _⟩ =>
      unfold ScatterDims.siIdx
      rw [dif_neg (by rw [hivd]; exact Nat.zero_ne_one)]
      unfold ScatterDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp

  have hwin : d.window (ix1 p) 0 = 0 := by
    unfold ScatterDims.window
    rw [dif_neg hk]
  have hsz : (⟨1, ![N]⟩ : Shape).size 0 = N := rfl
  unfold ScatterDims.resultIdx?
  by_cases h : ∀ a, 0 ≤ d.start (ix1 p) idx a + d.window (ix1 p) a ∧
      d.start (ix1 p) idx a + d.window (ix1 p) a < (⟨1, ![N]⟩ : Shape).size a
  · rw [dif_pos h]
    have h0 := h 0
    rw [hstart, hwin] at h0
    constructor
    · intro e
      have e0 := congrArg (fun f : (⟨1, ![N]⟩ : Shape).Idx => (f 0).val) (Option.some.inj e)
      simp only [hstart, hwin] at e0
      have : ((idx (ixP p)).toInt + ((0 : Nat) : Int)).toNat = q.val := e0
      omega
    · intro e
      refine congrArg some ?_
      funext a
      have ha : a = 0 := Subsingleton.elim _ _
      subst ha
      apply Fin.ext
      show (d.start (ix1 p) idx 0 + d.window (ix1 p) 0).toNat = q.val
      rw [hstart, hwin, e]; simp
  · rw [dif_neg h]
    constructor
    · intro e; cases e
    · intro e
      exfalso
      apply h
      intro a
      have ha : a = 0 := Subsingleton.elim _ _
      subst ha
      rw [hstart, hwin, e, hsz]
      have := q.isLt
      constructor <;> omega

abbrev GraphF (F : FTy → Type) : Type := (⟨S4096, .f32⟩ : BufTy).Contents (Elt F)
abbrev NodeF (F : FTy → Type) : Type := (⟨S8388608, .f32⟩ : BufTy).Contents (Elt F)
abbrev NodeW (F : FTy → Type) : Type := (⟨S8388608, .i32⟩ : BufTy).Contents (Elt F)
abbrev ClassF (F : FTy → Type) : Type := (⟨S4096x10, .f32⟩ : BufTy).Contents (Elt F)
abbrev GraphW (F : FTy → Type) : Type := (⟨S4096, .i32⟩ : BufTy).Contents (Elt F)
abbrev OneF (F : FTy → Type) : Type := (⟨S_, .f32⟩ : BufTy).Contents (Elt F)

section Tail
variable {F : FTy → Type} [FloatOps F]

def numGraphs (cnt : GraphF F) : OneF F :=
  sitofp (F := F) .f32
    (Host.reduce IntOp.addi
      (extui 32 (cmpf (F := F) .ogt cnt (broadcastInDim S4096 ![] bcast_S_S4096 (constant S_ .f32 0x00000000#32))) natLt_1_32)
      (constantI S_ 32 0#32) reducesTo_S4096_S_d0 h_S_)

def klMean (cnt klp klq : GraphF F) : OneF F :=
  Host.divf
    (mulf (constant S_ .f32 0x3F000000#32)
      (Host.reduceAdd (addf klp klq) (constant S_ .f32 0x00000000#32) reducesTo_S4096_S_d0 h_S_))
    (numGraphs cnt)

def sqMean (a1 a2 : ClassF F) : OneF F :=
  Host.divf
    (Host.reduceAdd
      (mulf (subf a1 (subf (broadcastInDim S4096x10 ![] bcast_S_S4096x10 (constant S_ .f32 0x3F800000#32)) a2))
            (subf a1 (subf (broadcastInDim S4096x10 ![] bcast_S_S4096x10 (constant S_ .f32 0x3F800000#32)) a2)))
      (constant S_ .f32 0x00000000#32) reducesTo_S4096x10_S_d0_1 h_S_)
    (constant S_ .f32 0x47200000#32)

def resCor (cnt klp klq : GraphF F) (a0 a1 a2 : ClassF F) (a5 : GraphW F) : OneF F :=
  addf (mulf (constant S_ .f32 0x3F800000#32) (klMean cnt klp klq))
       (mulf (constant S_ .f32 0x3F800000#32) (sqMean a1 a2))

def resTrain (cnt klp klq : GraphF F) (a0 a1 a2 : ClassF F) (a5 : GraphW F) : OneF F :=
  val_main_v5 (F := F) a0 a5

def resTotal (cnt klp klq : GraphF F) (a0 a1 a2 : ClassF F) (a5 : GraphW F) : OneF F :=
  addf (resTrain cnt klp klq a0 a1 a2 a5)
       (mulf (constant S_ .f32 0x3DCCCCCD#32) (resCor cnt klp klq a0 a1 a2 a5))

theorem cor_stage (a0 a1 a2 : ClassF F) (a3 a4 : NodeF F) (a5 : GraphW F) (a6 : NodeW F) :
    val_main_v76 (F := F) a1 a2 a3 a4 a6
      = resCor (val_main_v58 (F := F) a6) (val_main_v44 (F := F) a3 a4 a6) (val_main_v54 (F := F) a3 a4 a6) a0 a1 a2 a5 := rfl

theorem total_stage (a0 a1 a2 : ClassF F) (a3 a4 : NodeF F) (a5 : GraphW F) (a6 : NodeW F) :
    val_main_v78 (F := F) a0 a1 a2 a3 a4 a5 a6
      = resTotal (val_main_v58 (F := F) a6) (val_main_v44 (F := F) a3 a4 a6) (val_main_v54 (F := F) a3 a4 a6) a0 a1 a2 a5 := rfl

end Tail

theorem col7 (x6 : NodeW Ideal) (p : Fin 8388608) : val_main_v7 (F := Ideal) x6 (ixP p) = x6 (ix1 p) :=
  (val_main_v7_apply x6 (ixP p)).trans (congrArg x6 (by funext a; match a with | ⟨0, _⟩ => rfl))

theorem col17 (x6 : NodeW Ideal) (p : Fin 8388608) : val_main_v17 (F := Ideal) x6 (ixP p) = val_main_v16 (F := Ideal) x6 (ix1 p) :=
  (val_main_v17_apply x6 (ixP p)).trans (congrArg (val_main_v16 (F := Ideal) x6) (by funext a; match a with | ⟨0, _⟩ => rfl))

theorem zero6 (i : S4096.Idx) : val_main_v6 (F := Ideal) i = 0 := by
  rw [val_main_v6_apply, val_main_cst_1_apply]; exact Ideal.ofBits_zero_f32

theorem one_f32 : Ideal.ofBits .f32 0x3F800000#32 = 1 := by
  simp [Ideal.ofBits, Ideal.ieee, -EReal.coe_mul]; norm_num

/-- Accumulating upd into zeros along the column of node words: element g is the sum of upd over the nodes of graph g. -/
theorem scatter_zeros (x : GraphF Ideal) (hx : ∀ i, x i = 0) (x6 : NodeW Ideal) (col : IVec S8388608x1 32)
    (hcol : ∀ p : Fin 8388608, col (ixP p) = x6 (ix1 p)) (upd : NodeF Ideal) (g : S4096.Idx) :
    Host.scatterAdd (F := Ideal) (φ := .f32) scatter_S4096_S8388608x1_S8388608_n_0_0_1 x col upd g
      = ∑ n ∈ Finset.univ.filter (Spec.inGraph x6 g), upd n := by
  show Ideal.hostScatterAdd scatter_S4096_S8388608x1_S8388608_n_0_0_1 x col upd g = _
  unfold Ideal.hostScatterAdd
  rw [hx, zero_add]
  refine Finset.sum_congr (Finset.filter_congr fun n _ => ?_) (fun _ _ => rfl)
  obtain ⟨p, rfl⟩ : ∃ p : Fin 8388608, n = ix1 p := ⟨n 0, eq_ix1 n⟩
  obtain ⟨q, rfl⟩ : ∃ q : Fin 4096, g = ix1 q := ⟨g 0, eq_ix1 g⟩
  rw [scatter_lands_iff scatter_S4096_S8388608x1_S8388608_n_0_0_1 rfl rfl rfl col p q, hcol p]
  rfl

theorem sump_eq (x3 : NodeF Ideal) (x6 : NodeW Ideal) (g : S4096.Idx) :
    val_main_v8 (F := Ideal) x3 x6 g = Spec.segSum x6 x3 g := by
  unfold val_main_v8
  exact scatter_zeros _ zero6 x6 _ (col7 x6) x3 g
theorem sumn_eq (x4 : NodeF Ideal) (x6 : NodeW Ideal) (g : S4096.Idx) :
    val_main_v11 (F := Ideal) x4 x6 g = Spec.segSum x6 x4 g := by
  unfold val_main_v11
  exact scatter_zeros _ zero6 x6 _ (col7 x6) x4 g

theorem counts_eq (x6 : NodeW Ideal) : val_main_v58 (F := Ideal) x6 = Spec.counts x6 := by
  funext g
  unfold val_main_v58
  rw [scatter_zeros (val_main_v56 (F := Ideal)) zero6 x6 (val_main_v57 (F := Ideal) x6) (col7 x6) _ g]
  unfold Spec.counts Spec.segSum
  refine Finset.sum_congr rfl fun n _ => ?_
  rw [val_main_v55_apply, val_main_cst_15_apply]
  exact one_f32

section Node
variable (x3 x4 : NodeF Ideal) (x6 : NodeW Ideal) (p : Fin 8388608) (q : Fin 4096)

theorem word_kept (h : Spec.inGraph x6 (ix1 q) (ix1 p)) : val_main_v16 (F := Ideal) x6 (ix1 p) = x6 (ix1 p) := by
  have hw : (x6 (ix1 p)).toInt = (q.val : Int) := h
  rw [val_main_v16_apply, val_main_v13_apply, val_main_v15_apply, val_main_v12_apply, val_main_c_apply,
    val_main_v14_apply, val_main_c_3_apply]
  exact wrap_keeps _ _ (by omega)

/-- A gather whose start word at row p is the number q < 4096 reads the table at q. -/
theorem gather_at (tbl : GraphF Ideal) (col : IVec S8388608x1 32) (h : (col (ixP p)).toInt = (q.val : Int)) :
    Host.gather gather_S4096_S8388608x1_S8388608_n_0_n_n_0_1_1 tbl col (ix1 p) = tbl (ix1 q) := by
  rw [← ofFin_eq_ix1 p,
    gather_take gather_S4096_S8388608x1_S8388608_n_0_n_n_0_1_1 rfl rfl rfl rfl tbl col p (by decide),
    ofFin_eq_ix1]
  refine congrArg (fun k : Fin 4096 => tbl (ix1 k)) (Fin.ext ?_)
  show min (col (ixP p)).toInt.toNat (4096 - 1) = q.val
  rw [h]
  have := q.isLt
  omega

theorem totp_at (h : Spec.inGraph x6 (ix1 q) (ix1 p)) :
    val_main_v18 (F := Ideal) x3 x6 (ix1 p) = Spec.segSum x6 x3 (ix1 q) := by
  unfold val_main_v18
  rw [gather_at p q (val_main_v8 (F := Ideal) x3 x6) (val_main_v17 (F := Ideal) x6) (by rw [col17, word_kept x6 p q h]; exact h)]
  exact sump_eq x3 x6 (ix1 q)
theorem totn_at (h : Spec.inGraph x6 (ix1 q) (ix1 p)) :
    val_main_v28 (F := Ideal) x4 x6 (ix1 p) = Spec.segSum x6 x4 (ix1 q) := by
  unfold val_main_v28
  rw [gather_at p q (val_main_v11 (F := Ideal) x4 x6) (val_main_v27 (F := Ideal) x6) (by rw [show val_main_v27 (F := Ideal) x6 (ixP p) = x6 (ix1 p) from (col17 x6 p).trans (word_kept x6 p q h)]; exact h)]
  exact sumn_eq x4 x6 (ix1 q)

theorem sharep_at (h : Spec.inGraph x6 (ix1 q) (ix1 p)) :
    val_main_v21 (F := Ideal) x3 x6 (ix1 p) = Spec.share (x3 (ix1 p)) (Spec.segSum x6 x3 (ix1 q)) := by
  rw [val_main_v21_apply, val_main_v20_apply, totp_at x3 x6 p q h, val_main_v19_apply, val_main_cst_4_apply]
  rfl
theorem sharen_at (h : Spec.inGraph x6 (ix1 q) (ix1 p)) :
    val_main_v31 (F := Ideal) x4 x6 (ix1 p) = Spec.share (x4 (ix1 p)) (Spec.segSum x6 x4 (ix1 q)) := by
  rw [val_main_v31_apply, val_main_v30_apply, totn_at x4 x6 p q h, val_main_v29_apply, val_main_cst_7_apply]
  rfl

theorem mid_at (h : Spec.inGraph x6 (ix1 q) (ix1 p)) :
    val_main_v34 (F := Ideal) x3 x4 x6 (ix1 p)
      = Spec.mid (Spec.share (x3 (ix1 p)) (Spec.segSum x6 x3 (ix1 q))) (Spec.share (x4 (ix1 p)) (Spec.segSum x6 x4 (ix1 q))) := by
  rw [val_main_v34_apply, val_main_v32_apply, sharep_at x3 x6 p q h, sharen_at x4 x6 p q h, val_main_v33_apply,
    val_main_cst_8_apply]
  rfl

theorem klp_at (h : Spec.inGraph x6 (ix1 q) (ix1 p)) :
    val_main_v41 (F := Ideal) x3 x4 x6 (ix1 p)
      = Spec.klpNode (x3 (ix1 p)) (x4 (ix1 p)) (Spec.segSum x6 x3 (ix1 q)) (Spec.segSum x6 x4 (ix1 q)) := by
  rw [val_main_v41_apply, val_main_v40_apply, val_main_v39_apply, val_main_v36_apply, val_main_v38_apply,
    mid_at x3 x4 x6 p q h, sharep_at x3 x6 p q h, val_main_v35_apply, val_main_cst_9_apply, val_main_v37_apply,
    val_main_cst_10_apply]
  simp only [Ideal.mulf_def, Ideal.addf_def, Ideal.hostDivf_def, Ideal.hostUnary_log_def, Ideal.ofBits_def]
  unfold Spec.klpNode Spec.klTerm Spec.eps
  rfl

theorem klq_at (h : Spec.inGraph x6 (ix1 q) (ix1 p)) :
    val_main_v51 (F := Ideal) x3 x4 x6 (ix1 p)
      = Spec.klqNode (x3 (ix1 p)) (x4 (ix1 p)) (Spec.segSum x6 x3 (ix1 q)) (Spec.segSum x6 x4 (ix1 q)) := by
  rw [val_main_v51_apply, val_main_v50_apply, val_main_v49_apply, val_main_v46_apply, val_main_v48_apply,
    mid_at x3 x4 x6 p q h, sharen_at x4 x6 p q h, val_main_v45_apply, val_main_cst_12_apply, val_main_v47_apply,
    val_main_cst_13_apply]
  simp only [Ideal.mulf_def, Ideal.addf_def, Ideal.hostDivf_def, Ideal.hostUnary_log_def, Ideal.ofBits_def]
  unfold Spec.klqNode Spec.klTerm Spec.eps
  rfl

end Node

/-- The two summed divergence terms, per graph. -/
theorem klp_eq (x3 x4 : NodeF Ideal) (x6 : NodeW Ideal) : val_main_v44 (F := Ideal) x3 x4 x6 = Spec.klpG x6 x3 x4 := by
  funext g
  obtain ⟨q, rfl⟩ : ∃ q : Fin 4096, g = ix1 q := ⟨g 0, eq_ix1 g⟩
  unfold val_main_v44
  rw [scatter_zeros (val_main_v42 (F := Ideal)) zero6 x6 (val_main_v43 (F := Ideal) x6) (col7 x6) _ (ix1 q)]
  unfold Spec.klpG
  refine Finset.sum_congr rfl fun n hn => ?_
  obtain ⟨p, rfl⟩ : ∃ p : Fin 8388608, n = ix1 p := ⟨n 0, eq_ix1 n⟩
  exact klp_at x3 x4 x6 p q (Finset.mem_filter.1 hn).2

theorem klq_eq (x3 x4 : NodeF Ideal) (x6 : NodeW Ideal) : val_main_v54 (F := Ideal) x3 x4 x6 = Spec.klqG x6 x3 x4 := by
  funext g
  obtain ⟨q, rfl⟩ : ∃ q : Fin 4096, g = ix1 q := ⟨g 0, eq_ix1 g⟩
  unfold val_main_v54
  rw [scatter_zeros (val_main_v52 (F := Ideal)) zero6 x6 (val_main_v53 (F := Ideal) x6) (col7 x6) _ (ix1 q)]
  unfold Spec.klqG
  refine Finset.sum_congr rfl fun n hn => ?_
  obtain ⟨p, rfl⟩ : ∃ p : Fin 8388608, n = ix1 p := ⟨n 0, eq_ix1 n⟩
  exact klq_at x3 x4 x6 p q (Finset.mem_filter.1 hn).2

section Results
variable (m : (ℓ : Loc nD τ sig) → Buf (Elt Ideal) ℓ) (c : Dev nD)

theorem res_total_eq :
    Cert.ReferenceIdeal.Value.res_out0 (F := Ideal) m c
      = resTotal (F := Ideal)
          (Spec.counts (m ((c.tc : Thread nD τ).loc main_arg6)))
          (Spec.klpG (m ((c.tc : Thread nD τ).loc main_arg6)) (m ((c.tc : Thread nD τ).loc main_arg3)) (m ((c.tc : Thread nD τ).loc main_arg4)))
          (Spec.klqG (m ((c.tc : Thread nD τ).loc main_arg6)) (m ((c.tc : Thread nD τ).loc main_arg3)) (m ((c.tc : Thread nD τ).loc main_arg4)))
          (m ((c.tc : Thread nD τ).loc main_arg0)) (m ((c.tc : Thread nD τ).loc main_arg1)) (m ((c.tc : Thread nD τ).loc main_arg2))
          (m ((c.tc : Thread nD τ).loc main_arg5)) := by
  refine (val_main_v78_eq m c).trans ((total_stage _ _ _ _ _ _ _).trans ?_)
  rw [counts_eq, klp_eq, klq_eq]

theorem res_train_eq :
    val_main_v5 (F := Ideal) (m ((c.tc : Thread nD τ).loc main_arg0)) (m ((c.tc : Thread nD τ).loc main_arg5))
      = resTrain (F := Ideal)
          (Spec.counts (m ((c.tc : Thread nD τ).loc main_arg6)))
          (Spec.klpG (m ((c.tc : Thread nD τ).loc main_arg6)) (m ((c.tc : Thread nD τ).loc main_arg3)) (m ((c.tc : Thread nD τ).loc main_arg4)))
          (Spec.klqG (m ((c.tc : Thread nD τ).loc main_arg6)) (m ((c.tc : Thread nD τ).loc main_arg3)) (m ((c.tc : Thread nD τ).loc main_arg4)))
          (m ((c.tc : Thread nD τ).loc main_arg0)) (m ((c.tc : Thread nD τ).loc main_arg1)) (m ((c.tc : Thread nD τ).loc main_arg2))
          (m ((c.tc : Thread nD τ).loc main_arg5)) := rfl

theorem res_cor_eq :
    Cert.ReferenceIdeal.Value.res_out2 (F := Ideal) m c
      = resCor (F := Ideal)
          (Spec.counts (m ((c.tc : Thread nD τ).loc main_arg6)))
          (Spec.klpG (m ((c.tc : Thread nD τ).loc main_arg6)) (m ((c.tc : Thread nD τ).loc main_arg3)) (m ((c.tc : Thread nD τ).loc main_arg4)))
          (Spec.klqG (m ((c.tc : Thread nD τ).loc main_arg6)) (m ((c.tc : Thread nD τ).loc main_arg3)) (m ((c.tc : Thread nD τ).loc main_arg4)))
          (m ((c.tc : Thread nD τ).loc main_arg0)) (m ((c.tc : Thread nD τ).loc main_arg1)) (m ((c.tc : Thread nD τ).loc main_arg2))
          (m ((c.tc : Thread nD τ).loc main_arg5)) := by
  refine (val_main_v76_eq m c).trans ((cor_stage (m ((c.tc : Thread nD τ).loc main_arg0)) _ _ _ _ (m ((c.tc : Thread nD τ).loc main_arg5)) _).trans ?_)
  rw [counts_eq, klp_eq, klq_eq]

end Results

end Cert.ReferenceIdeal.RefValue

end
-- ==== Proof.KernelHost.lean ====
/- What the host operations of the kernel's program make of the arrays around its two passes. Before the first pass the three node arrays are read
   as 65536 rows of 128; after each pass the two halves of its output are added into a zero; the three per-graph vectors are read off those sums
   (graph g at row g / 64, column g mod 64 of a column group); the rest is the reference's own chain. -/
import proofs.«400573_j52158082842660_3_alg».proof.Proof.Gen.KernelIdeal.Regions
import proofs.«400573_j52158082842660_3_alg».proof.Proof.Spec
import proofs.«400573_j52158082842660_3_alg».proof.Proof.RefValue
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Val

open Idealize.ShloMosaic Idealize.ShloMosaic.TcCoe
open Cert.KernelIdeal Cert.KernelIdeal.Gen
open Idealize.ShloMosaic.ValueIdx

section Reading
variable (m : (ℓ : Loc nD τ sig) → Buf (Elt Ideal) ℓ) (outs : Outs (F := Ideal)) (c : Dev nD)

abbrev ids : Cert.Spec.Nodes.Idx → BitVec 32 := m ((c : Thread nD τ).loc main_arg6)
abbrev sps : Cert.Spec.Nodes.Idx → EReal := m ((c : Thread nD τ).loc main_arg3)
abbrev sns : Cert.Spec.Nodes.Idx → EReal := m ((c : Thread nD τ).loc main_arg4)

abbrev out9 : S2x64x192.Idx → EReal := outs 5 main_v9 c
abbrev out12 : S2x64x128.Idx → EReal := outs 7 main_v12 c

theorem reshape_rows {α : Type} (x : S8388608.Idx → α) :
    shapeCast S65536x128 x shapeCasts_S8388608_S65536x128 = Cert.Spec.rows x := by
  funext i
  refine (shapeCast_apply (s := S8388608) (t := S65536x128) x shapeCasts_S8388608_S65536x128 i (Cert.Spec.nodeOf (i 0) (i 1)) ?_)
  rw [Shape.rowMajor_val_one, Shape.rowMajor_val_two]
  show 128 * (i 0).val + (i 1).val = (i 0).val * 128 + (i 1).val
  omega

theorem v6_V4 : (V4 m c main_v6 : S65536x128.Idx → BitVec 32) = Cert.Spec.rows (ids m c) := by
  dsimp only [V4]
  after_results
  exact reshape_rows _

theorem v7_V4 : (V4 m c main_v7 : S65536x128.Idx → EReal) = Cert.Spec.rows (sps m c) := by
  dsimp only [V4]
  after_results
  exact reshape_rows _

theorem v8_V4 : (V4 m c main_v8 : S65536x128.Idx → EReal) = Cert.Spec.rows (sns m c) := by
  dsimp only [V4]
  after_results
  exact reshape_rows _

theorem v6_V6 : (V6 m outs c main_v6 : S65536x128.Idx → BitVec 32) = Cert.Spec.rows (ids m c) := by
  rw [V6_of m outs c main_v6 (by decide), V5_of m outs c main_v6 (by decide)]
  exact v6_V4 m c

theorem v7_V6 : (V6 m outs c main_v7 : S65536x128.Idx → EReal) = Cert.Spec.rows (sps m c) := by
  rw [V6_of m outs c main_v7 (by decide), V5_of m outs c main_v7 (by decide)]
  exact v7_V4 m c

theorem v8_V6 : (V6 m outs c main_v8 : S65536x128.Idx → EReal) = Cert.Spec.rows (sns m c) := by
  rw [V6_of m outs c main_v8 (by decide), V5_of m outs c main_v8 (by decide)]
  exact v8_V4 m c

theorem host_V5_v9 : V5 m outs c main_v9 = outs 5 main_v9 c := by
  simp only [V5, Function.update_self]

theorem host_V7_v12 : V7 m outs c main_v12 = outs 7 main_v12 c := by
  simp only [V7, Function.update_self]

theorem host_lift192 (hR : S2x64x192.Reduces [0] S64x192) (h : Fin 64) (k : Fin 192) (d : Fin 2) :
    hR.lift (ix2 h k) d = ix3 d h k := by
  funext a
  match a with
  | ⟨0, _⟩ => rfl
  | ⟨1, _⟩ => rfl
  | ⟨2, _⟩ => rfl

theorem host_lift128 (hR : S2x64x128.Reduces [0] S64x128) (h : Fin 64) (k : Fin 128) (d : Fin 2) :
    hR.lift (ix2 h k) d = ix3 d h k := by
  funext a
  match a with
  | ⟨0, _⟩ => rfl
  | ⟨1, _⟩ => rfl
  | ⟨2, _⟩ => rfl

theorem host_init_zero : (constant (F := Ideal) S_ .f32 0x00000000#32) (Shape.Idx.first h_S_) = (0 : EReal) :=
  Ideal.ofBits_zero_f32

theorem host_sum_halves192 (x : S2x64x192.Idx → EReal) (h : Fin 64) (k : Fin 192) :
    Host.reduceAdd (F := Ideal) (φ := .f32) x (constant S_ .f32 0x00000000#32) reducesTo_S2x64x192_S64x192_d0 h_S_ (ix2 h k)
      = 0 + (x (ix3 0 h k) + x (ix3 1 h k)) := by
  have hR : S2x64x192.Reduces [0] S64x192 := by decide
  rw [hostReduceAdd_apply, Ideal.hostReduceAdd_single _ hR, host_init_zero]
  refine congrArg (fun z : EReal => 0 + z) ?_
  refine (Fin.sum_univ_two (fun d : Fin 2 => x (hR.lift (ix2 h k) d))).trans ?_
  rw [host_lift192, host_lift192]

theorem host_sum_halves128 (x : S2x64x128.Idx → EReal) (h : Fin 64) (k : Fin 128) :
    Host.reduceAdd (F := Ideal) (φ := .f32) x (constant S_ .f32 0x00000000#32) reducesTo_S2x64x128_S64x128_d0 h_S_ (ix2 h k)
      = 0 + (x (ix3 0 h k) + x (ix3 1 h k)) := by
  have hR : S2x64x128.Reduces [0] S64x128 := by decide
  rw [hostReduceAdd_apply, Ideal.hostReduceAdd_single _ hR, host_init_zero]
  refine congrArg (fun z : EReal => 0 + z) ?_
  refine (Fin.sum_univ_two (fun d : Fin 2 => x (hR.lift (ix2 h k) d))).trans ?_
  rw [host_lift128, host_lift128]

theorem v10_apply (h : Fin 64) (k : Fin 192) :
    (V6 m outs c main_v10 : S64x192.Idx → EReal) (ix2 h k) = 0 + (out9 outs c (ix3 0 h k) + out9 outs c (ix3 1 h k)) := by
  dsimp only [V6]
  after_results
  rw [host_V5_v9]
  exact host_sum_halves192 (out9 outs c) h k

theorem v11_apply (h : Fin 64) (k : Fin 128) :
    (V6 m outs c main_v11 : S64x128.Idx → EReal) (ix2 h k)
      = 0 + (out9 outs c (ix3 0 h (k.castLE (by decide))) + out9 outs c (ix3 1 h (k.castLE (by decide)))) := by
  dsimp only [V6]
  after_results
  rw [host_V5_v9]
  refine (extractStridedSlice_apply (s := S64x192) (t := S64x128) ![0, 0] _ slices_S64x192_S64x128_0_0 (ix2 h k)
    (ix2 h (k.castLE (by decide))) fun a => ?_).trans (host_sum_halves192 (out9 outs c) h _)
  match a with
  | ⟨0, _⟩ => show h.val = 0 + h.val; omega
  | ⟨1, _⟩ => show k.val = 0 + k.val; omega

/-- Column group 2 of the first sum, regrouped and transposed, is the vector whose entry g is row g / 64, column 128 + g mod 64. -/
theorem host_column192 (x : S64x192.Idx → EReal) (g : Fin 4096) :
    shapeCast S4096 (extractStridedSlice S4096x1 ![0, 2] (shapeCast S4096x3 (transpose S64x64x3 [0, 2, 1]
        (shapeCast S64x3x64 x shapeCasts_S64x192_S64x3x64) transposes_S64x3x64_S64x64x3_0_2_1) shapeCasts_S64x64x3_S4096x3)
        slices_S4096x3_S4096x1_0_2) shapeCasts_S4096x1_S4096 (ix1 g)
      = x (ix2 ⟨g.val / 64, by omega⟩ ⟨128 + g.val % 64, by omega⟩) := by
  have hg := g.isLt
  refine (shapeCast_apply (s := S4096x1) (t := S4096) _ shapeCasts_S4096x1_S4096 (ix1 g) (ix2 g 0) ?_).trans ?_
  · rw [Shape.rowMajor_val_two, Shape.rowMajor_val_one]
    show g.val * 1 + 0 = g.val
    omega
  refine (extractStridedSlice_apply (s := S4096x3) (t := S4096x1) ![0, 2] _ slices_S4096x3_S4096x1_0_2 (ix2 g 0) (ix2 g 2)
    fun a => ?_).trans ?_
  · match a with
    | ⟨0, _⟩ => show g.val = 0 + g.val; omega
    | ⟨1, _⟩ => rfl
  refine (shapeCast_apply (s := S64x64x3) (t := S4096x3) _ shapeCasts_S64x64x3_S4096x3 (ix2 g 2)
    (ix3 ⟨g.val / 64, by omega⟩ ⟨g.val % 64, by omega⟩ 2) ?_).trans ?_
  · rw [Shape.rowMajor_val_three, Shape.rowMajor_val_two]
    show (g.val / 64 * 64 + g.val % 64) * 3 + 2 = g.val * 3 + 2
    omega
  refine (transpose_apply (s := S64x3x64) (t := S64x64x3) [0, 2, 1] _ transposes_S64x3x64_S64x64x3_0_2_1
    (ix3 ⟨g.val / 64, by omega⟩ ⟨g.val % 64, by omega⟩ 2) (ix3 ⟨g.val / 64, by omega⟩ 2 ⟨g.val % 64, by omega⟩) fun b => ?_).trans ?_
  · match b with
    | ⟨0, _⟩ => rfl
    | ⟨1, _⟩ => rfl
    | ⟨2, _⟩ => rfl
  refine shapeCast_apply (s := S64x192) (t := S64x3x64) x shapeCasts_S64x192_S64x3x64 _ _ ?_
  rw [Shape.rowMajor_val_two, Shape.rowMajor_val_three]
  show g.val / 64 * 192 + (128 + g.val % 64) = (g.val / 64 * 3 + 2) * 64 + g.val % 64
  omega

theorem host_column128_0 (x : S64x128.Idx → EReal) (g : Fin 4096) :
    shapeCast S4096 (extractStridedSlice S4096x1 ![0, 0] (shapeCast S4096x2 (transpose S64x64x2 [0, 2, 1]
        (shapeCast S64x2x64 x shapeCasts_S64x128_S64x2x64) transposes_S64x2x64_S64x64x2_0_2_1) shapeCasts_S64x64x2_S4096x2)
        slices_S4096x2_S4096x1_0_0) shapeCasts_S4096x1_S4096 (ix1 g)
      = x (ix2 ⟨g.val / 64, by omega⟩ ⟨g.val % 64, by omega⟩) := by
  have hg := g.isLt
  refine (shapeCast_apply (s := S4096x1) (t := S4096) _ shapeCasts_S4096x1_S4096 (ix1 g) (ix2 g 0) ?_).trans ?_
  · rw [Shape.rowMajor_val_two, Shape.rowMajor_val_one]
    show g.val * 1 + 0 = g.val
    omega
  refine (extractStridedSlice_apply (s := S4096x2) (t := S4096x1) ![0, 0] _ slices_S4096x2_S4096x1_0_0 (ix2 g 0) (ix2 g 0)
    fun a => ?_).trans ?_
  · match a with
    | ⟨0, _⟩ => show g.val = 0 + g.val; omega
    | ⟨1, _⟩ => rfl
  refine (shapeCast_apply (s := S64x64x2) (t := S4096x2) _ shapeCasts_S64x64x2_S4096x2 (ix2 g 0)
    (ix3 ⟨g.val / 64, by omega⟩ ⟨g.val % 64, by omega⟩ 0) ?_).trans ?_
  · rw [Shape.rowMajor_val_three, Shape.rowMajor_val_two]
    show (g.val / 64 * 64 + g.val % 64) * 2 + 0 = g.val * 2 + 0
    omega
  refine (transpose_apply (s := S64x2x64) (t := S64x64x2) [0, 2, 1] _ transposes_S64x2x64_S64x64x2_0_2_1
    (ix3 ⟨g.val / 64, by omega⟩ ⟨g.val % 64, by omega⟩ 0) (ix3 ⟨g.val / 64, by omega⟩ 0 ⟨g.val % 64, by omega⟩) fun b => ?_).trans ?_
  · match b with
    | ⟨0, _⟩ => rfl
    | ⟨1, _⟩ => rfl
    | ⟨2, _⟩ => rfl
  refine shapeCast_apply (s := S64x128) (t := S64x2x64) x shapeCasts_S64x128_S64x2x64 _ _ ?_
  rw [Shape.rowMajor_val_two, Shape.rowMajor_val_three]
  show g.val / 64 * 128 + g.val % 64 = (g.val / 64 * 2 + 0) * 64 + g.val % 64
  omega

theorem host_column128_1 (x : S64x128.Idx → EReal) (g : Fin 4096) :
    shapeCast S4096 (extractStridedSlice S4096x1 ![0, 1] (shapeCast S4096x2 (transpose S64x64x2 [0, 2, 1]
        (shapeCast S64x2x64 x shapeCasts_S64x128_S64x2x64) transposes_S64x2x64_S64x64x2_0_2_1) shapeCasts_S64x64x2_S4096x2)
        slices_S4096x2_S4096x1_0_1) shapeCasts_S4096x1_S4096 (ix1 g)
      = x (ix2 ⟨g.val / 64, by omega⟩ ⟨64 + g.val % 64, by omega⟩) := by
  have hg := g.isLt
  refine (shapeCast_apply (s := S4096x1) (t := S4096) _ shapeCasts_S4096x1_S4096 (ix1 g) (ix2 g 0) ?_).trans ?_
  · rw [Shape.rowMajor_val_two, Shape.rowMajor_val_one]
    show g.val * 1 + 0 = g.val
    omega
  refine (extractStridedSlice_apply (s := S4096x2) (t := S4096x1) ![0, 1] _ slices_S4096x2_S4096x1_0_1 (ix2 g 0) (ix2 g 1)
    fun a => ?_).trans ?_
  · match a with
    | ⟨0, _⟩ => show g.val = 0 + g.val; omega
    | ⟨1, _⟩ => rfl
  refine (shapeCast_apply (s := S64x64x2) (t := S4096x2) _ shapeCasts_S64x64x2_S4096x2 (ix2 g 1)
    (ix3 ⟨g.val / 64, by omega⟩ ⟨g.val % 64, by omega⟩ 1) ?_).trans ?_
  · rw [Shape.rowMajor_val_three, Shape.rowMajor_val_two]
    show (g.val / 64 * 64 + g.val % 64) * 2 + 1 = g.val * 2 + 1
    omega
  refine (transpose_apply (s := S64x2x64) (t := S64x64x2) [0, 2, 1] _ transposes_S64x2x64_S64x64x2_0_2_1
    (ix3 ⟨g.val / 64, by omega⟩ ⟨g.val % 64, by omega⟩ 1) (ix3 ⟨g.val / 64, by omega⟩ 1 ⟨g.val % 64, by omega⟩) fun b => ?_).trans ?_
  · match b with
    | ⟨0, _⟩ => rfl
    | ⟨1, _⟩ => rfl
    | ⟨2, _⟩ => rfl
  refine shapeCast_apply (s := S64x128) (t := S64x2x64) x shapeCasts_S64x128_S64x2x64 _ _ ?_
  rw [Shape.rowMajor_val_two, Shape.rowMajor_val_three]
  show g.val / 64 * 128 + (64 + g.val % 64) = (g.val / 64 * 2 + 1) * 64 + g.val % 64
  omega

theorem v13_apply (h : Fin 64) (k : Fin 128) :
    (V8 m outs c main_v13 : S64x128.Idx → EReal) (ix2 h k) = 0 + (out12 outs c (ix3 0 h k) + out12 outs c (ix3 1 h k)) := by
  dsimp only [V8]
  after_results
  rw [host_V7_v12]
  exact host_sum_halves128 (out12 outs c) h k

theorem v10_V8 : V8 m outs c main_v10 = V6 m outs c main_v10 :=
  (V8_of m outs c main_v10 (by decide)).trans (V7_of m outs c main_v10 (by decide))

theorem v18_apply (g : Fin 4096) :
    (V8 m outs c main_v18 : S4096.Idx → EReal) (ix1 g)
      = (V6 m outs c main_v10 : S64x192.Idx → EReal) (ix2 ⟨g.val / 64, by omega⟩ ⟨128 + g.val % 64, by omega⟩) := by
  dsimp only [V8]
  after_results
  rw [V7_of m outs c main_v10 (by decide)]
  exact host_column192 _ g

theorem host_v13_eq : (V8 m outs c main_v13 : S64x128.Idx → EReal)
    = Host.reduceAdd (F := Ideal) (φ := .f32) (out12 outs c) (constant S_ .f32 0x00000000#32) reducesTo_S2x64x128_S64x128_d0 h_S_ := by
  dsimp only [V8]
  after_results
  rw [host_V7_v12]

theorem v23_apply (g : Fin 4096) :
    (V8 m outs c main_v23 : S4096.Idx → EReal) (ix1 g)
      = (V8 m outs c main_v13 : S64x128.Idx → EReal) (ix2 ⟨g.val / 64, by omega⟩ ⟨g.val % 64, by omega⟩) := by
  rw [host_v13_eq]
  dsimp only [V8]
  after_results
  rw [host_V7_v12]
  exact host_column128_0 _ g

theorem v25_apply (g : Fin 4096) :
    (V8 m outs c main_v25 : S4096.Idx → EReal) (ix1 g)
      = (V8 m outs c main_v13 : S64x128.Idx → EReal) (ix2 ⟨g.val / 64, by omega⟩ ⟨64 + g.val % 64, by omega⟩) := by
  rw [host_v13_eq]
  dsimp only [V8]
  after_results
  rw [host_V7_v12]
  exact host_column128_1 _ g

end Reading

section Tail
variable {F : FTy → Type} [FloatOps F]

open Cert.ReferenceIdeal.RefValue (GraphF resTrain resCor resTotal)

variable (m : (ℓ : Loc nD τ sig) → Buf (Elt F) ℓ) (outs : Outs (F := F)) (c : Dev nD)

theorem host_v5_V4 (cnt klp klq : GraphF F) :
    V4 m c main_v5 = resTrain cnt klp klq (m ((c : Thread nD τ).loc main_arg0)) (m ((c : Thread nD τ).loc main_arg1))
      (m ((c : Thread nD τ).loc main_arg2)) (m ((c : Thread nD τ).loc main_arg5)) := by
  dsimp only [V4]
  after_results_simp
  simp only [StableHlo.TRef.ofBuf, StableHlo.TRef.toBuf, cast_eq]
  rfl

theorem host_V7_arg1 : V7 m outs c main_arg1 = m ((c : Thread nD τ).loc main_arg1) :=
  (V7_of m outs c main_arg1 (by decide)).trans <| (V6_of m outs c main_arg1 (by decide)).trans <|
  (V5_of m outs c main_arg1 (by decide)).trans <| (V4_of m c main_arg1 (by decide)).trans <|
  (V3_of m c main_arg1 (by decide)).trans <| (V2_of m c main_arg1 (by decide)).trans <| (V1_of m c main_arg1 (by decide)).trans rfl
theorem host_V7_arg2 : V7 m outs c main_arg2 = m ((c : Thread nD τ).loc main_arg2) :=
  (V7_of m outs c main_arg2 (by decide)).trans <| (V6_of m outs c main_arg2 (by decide)).trans <|
  (V5_of m outs c main_arg2 (by decide)).trans <| (V4_of m c main_arg2 (by decide)).trans <|
  (V3_of m c main_arg2 (by decide)).trans <| (V2_of m c main_arg2 (by decide)).trans <| (V1_of m c main_arg2 (by decide)).trans rfl

theorem v5_eq :
    V8 m outs c main_v5 = resTrain (V8 m outs c main_v18) (V8 m outs c main_v23) (V8 m outs c main_v25)
      (m ((c : Thread nD τ).loc main_arg0)) (m ((c : Thread nD τ).loc main_arg1))
      (m ((c : Thread nD τ).loc main_arg2)) (m ((c : Thread nD τ).loc main_arg5)) :=
  (V8_of m outs c main_v5 (by decide)).trans <| (V7_of m outs c main_v5 (by decide)).trans <|
  (V6_of m outs c main_v5 (by decide)).trans <| (V5_of m outs c main_v5 (by decide)).trans (host_v5_V4 m c _ _ _)

theorem v43_eq :
    V8 m outs c main_v43 = resCor (V8 m outs c main_v18) (V8 m outs c main_v23) (V8 m outs c main_v25)
      (m ((c : Thread nD τ).loc main_arg0)) (m ((c : Thread nD τ).loc main_arg1))
      (m ((c : Thread nD τ).loc main_arg2)) (m ((c : Thread nD τ).loc main_arg5)) := by
  dsimp only [V8]
  after_results_simp
  rw [host_V7_arg1, host_V7_arg2]
  rfl

/-- The first result: the second plus a tenth of the third. -/
theorem v45_eq :
    V8 m outs c main_v45 = resTotal (V8 m outs c main_v18) (V8 m outs c main_v23) (V8 m outs c main_v25)
      (m ((c : Thread nD τ).loc main_arg0)) (m ((c : Thread nD τ).loc main_arg1))
      (m ((c : Thread nD τ).loc main_arg2)) (m ((c : Thread nD τ).loc main_arg5)) := by
  have e : V8 m outs c main_v45
      = addf (V8 m outs c main_v5) (mulf (constant S_ .f32 0x3DCCCCCD#32) (V8 m outs c main_v43)) := by
    dsimp only [V8]
    after_results_simp
  rw [e, v5_eq, v43_eq]
  rfl

end Tail

end Cert.KernelIdeal.Val

end
-- ==== Proof.SpecLemmas.lean ====
/- The arithmetic of the words and of the sums. A word w, read signed, is 64 · (w shifted right arithmetically by 6) + (w's low six bits), so the
   two one-hot entries are both 1 exactly when w names graph 64 h + l; a sum over all nodes is a sum over halves, blocks and rows. -/
import proofs.«400573_j52158082842660_3_alg».proof.Proof.Spec

noncomputable section

namespace Cert.Spec

open Idealize.ShloMosaic
open scoped Classical

theorem toInt_ofNat_small (k : ℕ) (hk : k < 64) : (BitVec.ofNat 32 k).toInt = (k : Int) := by
  have h1 : (BitVec.ofNat 32 k).toNat = k := by
    rw [BitVec.toNat_ofNat]; omega
  rw [BitVec.toInt_eq_toNat_cond, h1]
  split <;> omega

theorem ofNat_small_inj (a b : Fin 64) (hab : BitVec.ofNat 32 a.val = BitVec.ofNat 32 b.val) : a = b := by
  have h1 := congrArg BitVec.toNat hab
  rw [BitVec.toNat_ofNat, BitVec.toNat_ofNat] at h1
  apply Fin.ext
  have := a.isLt; have := b.isLt
  omega

theorem toNat_and_63 (w : BitVec 32) : (w &&& 63#32).toNat = w.toNat % 64 := by
  rw [BitVec.toNat_and, show (63#32 : BitVec 32).toNat = 2 ^ 6 - 1 from rfl, Nat.and_two_pow_sub_one_eq_mod]

theorem toInt_sshiftRight_6 (w : BitVec 32) : (w.sshiftRight 6).toInt = w.toInt / 64 := by
  rw [BitVec.toInt_sshiftRight, Int.shiftRight_eq_div_pow]
  rfl

/-- The shift is h and the low bits are l exactly when w, read signed, is 64 h + l. -/
theorem word_split (w : BitVec 32) (h l : Fin 64) :
    (w.sshiftRight 6 = BitVec.ofNat 32 h.val ∧ w &&& 63#32 = BitVec.ofNat 32 l.val) ↔
      w.toInt = ((64 * h.val + l.val : ℕ) : Int) := by
  have hI := BitVec.toInt_eq_toNat_cond w
  have hlt : w.toNat < 2 ^ 32 := w.isLt
  have hh64 := h.isLt
  have hl64 := l.isLt
  constructor
  · rintro ⟨hh, hl⟩
    have h1 : w.toInt / 64 = (h.val : Int) := by
      rw [← toInt_sshiftRight_6, hh, toInt_ofNat_small _ h.isLt]
    have h2 : w.toNat % 64 = l.val := by
      rw [← toNat_and_63, hl, BitVec.toNat_ofNat]; omega
    split at hI <;> omega
  · intro hw
    have hn : w.toNat = 64 * h.val + l.val := by
      split at hI <;> omega
    constructor
    · apply BitVec.eq_of_toInt_eq
      rw [toInt_sshiftRight_6, toInt_ofNat_small _ h.isLt, hw]
      omega
    · apply BitVec.eq_of_toNat_eq
      rw [toNat_and_63, hn, BitVec.toNat_ofNat]
      omega

theorem inGraph_graphOf (id : Nodes.Idx → BitVec 32) (h l : Fin 64) (n : Nodes.Idx) :
    inGraph id (graphOf h l) n ↔ (id n).toInt = ((64 * h.val + l.val : ℕ) : Int) := Iff.rfl

/-- The product of the two one-hot entries with x is x when w names graph 64 h + l and 0 otherwise, for every extended real x. -/
theorem ohHi_mul_ohLo (w : BitVec 32) (h l : Fin 64) (x : EReal) :
    ohHi w h * (ohLo w l * x) = if w.toInt = ((64 * h.val + l.val : ℕ) : Int) then x else 0 := by
  unfold ohHi ohLo
  by_cases hh : w.sshiftRight 6 = BitVec.ofNat 32 h.val
  · by_cases hl : w &&& 63#32 = BitVec.ofNat 32 l.val
    · rw [if_pos hh, if_pos hl, if_pos ((word_split w h l).1 ⟨hh, hl⟩), one_mul, one_mul]
    · rw [if_pos hh, if_neg hl, if_neg (fun hc => hl ((word_split w h l).2 hc).2), zero_mul, mul_zero]
  · rw [if_neg hh, if_neg (fun hc => hh ((word_split w h l).2 hc).1), zero_mul]

theorem nodeAt_val (c : Fin 2) (j r : Fin 2048) : ((nodeAt c j r) 0).val = 2048 * (2048 * c.val + j.val) + r.val := by
  show 128 * (16 * (2048 * c.val + j.val) + r.val / 128) + r.val % 128 = _
  omega

def nodeEquiv : Fin 2 × Fin 2048 × Fin 2048 ≃ Nodes.Idx where
  toFun p := nodeAt p.1 p.2.1 p.2.2
  invFun n := (⟨(n 0).val / 4194304, by have : (n 0).val < 8388608 := (n 0).isLt; omega⟩,
    ⟨(n 0).val / 2048 % 2048, by omega⟩, ⟨(n 0).val % 2048, by omega⟩)
  left_inv p := by
    obtain ⟨c, j, r⟩ := p
    have hc := c.isLt; have hj := j.isLt; have hr := r.isLt
    have hv := nodeAt_val c j r
    refine Prod.ext (Fin.ext ?_) (Prod.ext (Fin.ext ?_) (Fin.ext ?_))
    · show ((nodeAt c j r) 0).val / 4194304 = c.val
      omega
    · show ((nodeAt c j r) 0).val / 2048 % 2048 = j.val
      omega
    · show ((nodeAt c j r) 0).val % 2048 = r.val
      omega
  right_inv n := by
    have hn : (n 0).val < 8388608 := (n 0).isLt
    rw [ValueIdx.eq_ix1 n]
    funext d
    match d with
    | ⟨0, _⟩ =>
      apply Fin.ext
      show 128 * (16 * (2048 * ((n 0).val / 4194304) + (n 0).val / 2048 % 2048) + (n 0).val % 2048 / 128) + (n 0).val % 2048 % 128 = (n 0).val
      omega

theorem nodeEquiv_apply (c : Fin 2) (j r : Fin 2048) : nodeEquiv (c, j, r) = nodeAt c j r := rfl

theorem sum_nodeAt (f : Nodes.Idx → EReal) :
    ∑ c : Fin 2, ∑ j : Fin 2048, ∑ r : Fin 2048, f (nodeAt c j r) = ∑ n, f n := by
  rw [← Equiv.sum_comp nodeEquiv f, Fintype.sum_prod_type]
  refine Finset.sum_congr rfl fun c _ => ?_
  rw [Fintype.sum_prod_type]
  rfl

/-- Hence the sum of one-hot products over all nodes is the segment sum over graph 64 h + l. -/
theorem segSum_of_onehot (id : Nodes.Idx → BitVec 32) (x : Nodes.Idx → EReal) (h l : Fin 64) :
    ∑ c : Fin 2, ∑ j : Fin 2048, ∑ r : Fin 2048,
        ohHi (id (nodeAt c j r)) h * (ohLo (id (nodeAt c j r)) l * x (nodeAt c j r)) =
      segSum id x (graphOf h l) := by
  rw [sum_nodeAt (fun n => ohHi (id n) h * (ohLo (id n) l * x n))]
  unfold segSum
  rw [Finset.sum_filter]
  refine Finset.sum_congr rfl fun n _ => ?_
  rw [ohHi_mul_ohLo]
  by_cases hn : inGraph id (graphOf h l) n
  · rw [if_pos hn, if_pos ((inGraph_graphOf id h l n).1 hn)]
  · rw [if_neg hn, if_neg (fun hc => hn ((inGraph_graphOf id h l n).2 hc))]

theorem pick_hi (w : BitVec 32) (T : Fin 64 → EReal) (h0 : Fin 64)
    (hw : w.sshiftRight 6 = BitVec.ofNat 32 h0.val) : ∑ h : Fin 64, ohHi w h * T h = T h0 := by
  rw [Finset.sum_eq_single h0]
  · unfold ohHi; rw [if_pos hw, one_mul]
  · intro h _ hne
    unfold ohHi
    rw [if_neg (fun hc => hne (ofNat_small_inj h h0 (hc.symm.trans hw))), zero_mul]
  · intro hnot; exact absurd (Finset.mem_univ _) hnot

theorem pick_hi_none (w : BitVec 32) (T : Fin 64 → EReal)
    (hw : ∀ h : Fin 64, w.sshiftRight 6 ≠ BitVec.ofNat 32 h.val) : ∑ h : Fin 64, ohHi w h * T h = 0 :=
  Finset.sum_eq_zero fun h _ => by unfold ohHi; rw [if_neg (hw h), zero_mul]

theorem pick_lo (w : BitVec 32) (T : Fin 64 → EReal) (l0 : Fin 64)
    (hw : w &&& 63#32 = BitVec.ofNat 32 l0.val) : ∑ l : Fin 64, ohLo w l * T l = T l0 := by
  rw [Finset.sum_eq_single l0]
  · unfold ohLo; rw [if_pos hw, one_mul]
  · intro l _ hne
    unfold ohLo
    rw [if_neg (fun hc => hne (ofNat_small_inj l l0 (hc.symm.trans hw))), zero_mul]
  · intro hnot; exact absurd (Finset.mem_univ _) hnot

theorem pick_lo' (w : BitVec 32) (T : Fin 64 → EReal) (l0 : Fin 64)
    (hw : w &&& 63#32 = BitVec.ofNat 32 l0.val) : ∑ l : Fin 64, T l * ohLo w l = T l0 := by
  rw [← pick_lo w T l0 hw]
  exact Finset.sum_congr rfl fun l _ => mul_comm _ _

theorem lo_exists (w : BitVec 32) : ∃ l : Fin 64, w &&& 63#32 = BitVec.ofNat 32 l.val := by
  refine ⟨⟨w.toNat % 64, Nat.mod_lt _ (by omega)⟩, BitVec.eq_of_toNat_eq ?_⟩
  rw [toNat_and_63, BitVec.toNat_ofNat]
  show w.toNat % 64 = w.toNat % 64 % 2 ^ 32
  omega

theorem sum_real {ι : Type} (s : Finset ι) (x : ι → EReal) (hx : ∀ n ∈ s, ∃ r : ℝ, x n = (r : EReal)) :
    ∃ r : ℝ, ∑ n ∈ s, x n = (r : EReal) := by
  induction s using Finset.induction_on with
  | empty => exact ⟨0, by rw [Finset.sum_empty, EReal.coe_zero]⟩
  | insert a s ha ih =>
    obtain ⟨r1, h1⟩ := hx a (Finset.mem_insert_self _ _)
    obtain ⟨r2, h2⟩ := ih (fun n hn => hx n (Finset.mem_insert_of_mem hn))
    exact ⟨r1 + r2, by rw [Finset.sum_insert ha, h1, h2, EReal.coe_add]⟩

theorem segSum_real (id : Nodes.Idx → BitVec 32) (x : Nodes.Idx → EReal) (hx : ∀ n, ∃ r : ℝ, x n = (r : EReal))
    (g : Graphs.Idx) : ∃ r : ℝ, segSum id x g = (r : EReal) :=
  sum_real _ x fun n _ => hx n

/-- x − x = 0 for a real x (it fails at the infinities). -/
theorem sub_self_of_real (x : EReal) (hx : ∃ r : ℝ, x = (r : EReal)) : x - x = 0 := by
  obtain ⟨r, rfl⟩ := hx
  rw [← EReal.coe_sub, sub_self, EReal.coe_zero]

theorem counts_eq (id : Nodes.Idx → BitVec 32) (g : Graphs.Idx) : counts id g = segSum id (fun _ => 1) g := rfl

theorem hi_lo_of_inGraph (id : Nodes.Idx → BitVec 32) (h l : Fin 64) (n : Nodes.Idx) (hn : inGraph id (graphOf h l) n) :
    (id n).sshiftRight 6 = BitVec.ofNat 32 h.val ∧ id n &&& 63#32 = BitVec.ofNat 32 l.val :=
  (word_split (id n) h l).2 ((inGraph_graphOf id h l n).1 hn)

theorem sum_onehot_of_inGraph (id : Nodes.Idx → BitVec 32) (x y : Nodes.Idx → EReal) (h l : Fin 64)
    (hxy : ∀ n, inGraph id (graphOf h l) n → x n = y n) :
    ∑ c : Fin 2, ∑ j : Fin 2048, ∑ r : Fin 2048,
        ohHi (id (nodeAt c j r)) h * (ohLo (id (nodeAt c j r)) l * x (nodeAt c j r)) =
      ∑ n ∈ Finset.univ.filter (inGraph id (graphOf h l)), y n := by
  rw [segSum_of_onehot]
  unfold segSum
  exact Finset.sum_congr rfl fun n hn => hxy n (Finset.mem_filter.1 hn).2

theorem graphOf_div_mod (g : Graphs.Idx) :
    graphOf ⟨(g 0).val / 64, by have : (g 0).val < 4096 := (g 0).isLt; omega⟩ ⟨(g 0).val % 64, by omega⟩ = g := by
  have hg : (g 0).val < 4096 := (g 0).isLt
  rw [ValueIdx.eq_ix1 g]
  funext d
  match d with
  | ⟨0, _⟩ =>
    apply Fin.ext
    show 64 * ((g 0).val / 64) + (g 0).val % 64 = (g 0).val
    omega

end Cert.Spec

end
-- ==== Proof.StatsPayload.lean ====
/- The first pass's arithmetic, entry by entry over the extended reals. A block is 2048 rows (row r is entry (r / 128, r % 128) of the 16 × 128
   block), each with a word w and two scores x, y. The update adds to entry (h, k) the sum over the rows of [w's high part is h] · scaled_r k, where
   scaled_r is [w's low part is l] times x, y or 1 in the three groups of 64 columns; summed over all blocks this is a segment sum over graph 64 h + l. -/
import proofs.«400573_j52158082842660_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«400573_j52158082842660_3_alg».proof.Proof.Spec
import proofs.«400573_j52158082842660_3_alg».proof.Proof.SpecLemmas

noncomputable section

namespace Cert.KernelIdeal.Val

open Idealize.ShloMosaic Idealize.ShloMosaic.ValueIdx Idealize.SL.Sem
open Cert.KernelIdeal Cert.KernelIdeal.Gen

def rowIx (r : Fin 2048) : S16x128.Idx := ix2 (⟨r.val / 128, by omega⟩ : Fin 16) (⟨r.val % 128, by omega⟩ : Fin 128)

theorem statsColumn_apply {α : Type} (x : S16x128.Idx → α) (hc : S16x128.ShapeCasts S2048x1) (r : Fin 2048) (u : Fin 1) :
    shapeCast S2048x1 x hc (ix2 r u) = x (rowIx r) := by
  refine shapeCast_apply x hc (ix2 r u) (rowIx r) ?_
  rw [Shape.rowMajor_val_two, Shape.rowMajor_val_two]
  show r.val / 128 * 128 + r.val % 128 = r.val * 1 + u.val
  have := u.isLt
  omega

theorem statsSpread_apply {α : Type} (x : S2048x1.Idx → α) (hb : S2048x1.Broadcasts S2048x64) (r : Fin 2048) (c : Fin 64) :
    broadcastTo S2048x64 x hb (ix2 r c) = x (ix2 r (0 : Fin 1)) := by
  refine broadcastTo_apply x hb (ix2 r c) (ix2 r (0 : Fin 1)) ?_
  intro a
  match a with
  | ⟨0, _⟩ => rfl
  | ⟨1, _⟩ => rfl

theorem statsLane_apply (hi : S2048x64.Iotas .tc 32 [1]) (r : Fin 2048) (c : Fin 64) :
    iota .tc S2048x64 32 [1] hi (ix2 r c) = BitVec.ofNat 32 c.val :=
  iota_single_apply .tc S2048x64 32 1 hi (ix2 r c)

theorem lhs_stats_0 (j : S64x192.Idx) (q : dot_S2048x64_S2048x192_S64x192_0_0_1_1_n_n.contr.Idx) :
    (dot_S2048x64_S2048x192_S64x192_0_0_1_1_n_n.lhsIdx j q 0).val = (q ⟨0, by decide⟩).val :=
  DotDims.lhsIdx_val_of_single dot_S2048x64_S2048x192_S64x192_0_0_1_1_n_n (cl := 0) rfl j q

theorem lhs_stats_1 (j : S64x192.Idx) (q : dot_S2048x64_S2048x192_S64x192_0_0_1_1_n_n.contr.Idx) :
    (dot_S2048x64_S2048x192_S64x192_0_0_1_1_n_n.lhsIdx j q 1).val = (j 0).val := by
  unfold DotDims.lhsIdx
  rw [dif_neg (show ¬(1 : Fin S2048x64.rank) ∈ dot_S2048x64_S2048x192_S64x192_0_0_1_1_n_n.lhsBatch by decide),
    dif_pos (show (1 : Fin S2048x64.rank) ∈ dot_S2048x64_S2048x192_S64x192_0_0_1_1_n_n.lhsNonContracting by decide)]
  rfl

theorem rhs_stats_0 (j : S64x192.Idx) (q : dot_S2048x64_S2048x192_S64x192_0_0_1_1_n_n.contr.Idx) :
    (dot_S2048x64_S2048x192_S64x192_0_0_1_1_n_n.rhsIdx j q 0).val = (q ⟨0, by decide⟩).val :=
  DotDims.rhsIdx_val_of_single dot_S2048x64_S2048x192_S64x192_0_0_1_1_n_n (cr := 0) rfl j q

theorem rhs_stats_1 (j : S64x192.Idx) (q : dot_S2048x64_S2048x192_S64x192_0_0_1_1_n_n.contr.Idx) :
    (dot_S2048x64_S2048x192_S64x192_0_0_1_1_n_n.rhsIdx j q 1).val = (j 1).val := by
  unfold DotDims.rhsIdx
  rw [dif_neg (show ¬(1 : Fin S2048x192.rank) ∈ dot_S2048x64_S2048x192_S64x192_0_0_1_1_n_n.rhsBatch by decide),
    dif_pos (show (1 : Fin S2048x192.rank) ∈ dot_S2048x64_S2048x192_S64x192_0_0_1_1_n_n.rhsNonContracting by decide)]
  rfl

/-- The block product contracts the 2048 rows of both operands: entry (h, k) is the sum over the rows of A r h · B r k. -/
theorem statsRowsProduct_apply (A : FVec Ideal S2048x64 .bf16) (B : FVec Ideal S2048x192 .bf16) (h : Fin 64) (k : Fin 192) :
    matmul dot_S2048x64_S2048x192_S64x192_0_0_1_1_n_n none A B (constant S64x192 .f32 0x00000000#32) (ix2 h k)
      = ∑ r : Fin 2048, A (ix2 r h) * B (ix2 r k) := by
  refine (Ideal.matmul_constant_zero_apply dot_S2048x64_S2048x192_S64x192_0_0_1_1_n_n none A B (ix2 h k)).trans ?_
  rw [← Equiv.sum_comp (contrEquiv1 dot_S2048x64_S2048x192_S64x192_0_0_1_1_n_n 2048 rfl rfl).symm]
  refine Finset.sum_congr rfl fun r _ => ?_
  have hq : (((contrEquiv1 dot_S2048x64_S2048x192_S64x192_0_0_1_1_n_n 2048 rfl rfl).symm r) ⟨0, by decide⟩ : ℕ) = r.val :=
    contrEquiv1_symm_val dot_S2048x64_S2048x192_S64x192_0_0_1_1_n_n 2048 rfl rfl r
  have eL : dot_S2048x64_S2048x192_S64x192_0_0_1_1_n_n.lhsIdx (ix2 h k)
      ((contrEquiv1 dot_S2048x64_S2048x192_S64x192_0_0_1_1_n_n 2048 rfl rfl).symm r) = ix2 r h := by
    funext a
    apply Fin.ext
    match a with
    | ⟨0, _⟩ => exact (lhs_stats_0 _ _).trans hq
    | ⟨1, _⟩ => exact lhs_stats_1 _ _
  have eR : dot_S2048x64_S2048x192_S64x192_0_0_1_1_n_n.rhsIdx (ix2 h k)
      ((contrEquiv1 dot_S2048x64_S2048x192_S64x192_0_0_1_1_n_n 2048 rfl rfl).symm r) = ix2 r k := by
    funext a
    apply Fin.ext
    match a with
    | ⟨0, _⟩ => exact (rhs_stats_0 _ _).trans hq
    | ⟨1, _⟩ => exact rhs_stats_1 _ _
  rw [eL, eR]

theorem statsIndicator_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases hab : a = b
  · subst hab
    simp [IntOp.cmpi]
  · have hne : (a == b) = false := by simpa using hab
    simp [IntOp.cmpi, hne, hab]

theorem statsShift6 (w : BitVec 32) : IntOp.shrsi .vector w 6#32 = w.sshiftRight 6 := by
  simp [IntOp.shrsi]

/-- Entry (r, h) of the high one-hot matrix of a column of words. -/
theorem statsOnehotHi_apply (v5 : IVec S2048x1 32) (hb : S2048x1.Broadcasts S2048x64) (hi : S2048x64.Iotas .tc 32 [1])
    (h1 : 1 < 32) (h2 : FTy.bf16.bits < FTy.f32.bits) (r : Fin 2048) (h : Fin 64) :
    (truncf .bf16 (sitofp .f32 (extui 32 (cmpi .eq (broadcastTo S2048x64 (shrsi v5 (broadcast S2048x1 6#32)) hb)
      (iota .tc S2048x64 32 [1] hi)) h1) : FVec Ideal S2048x64 .f32) h2 : FVec Ideal S2048x64 .bf16) (ix2 r h)
      = Cert.Spec.ohHi (v5 (ix2 r (0 : Fin 1))) h := by
  show (FloatOps.sitofp (F := Ideal) .f32 ((IntOp.cmpi .eq (broadcastTo S2048x64 (shrsi v5 (broadcast S2048x1 6#32)) hb (ix2 r h))
      (iota .tc S2048x64 32 [1] hi (ix2 r h))).setWidth 32) : EReal) = _
  rw [statsSpread_apply, statsLane_apply, statsIndicator_word]
  show (if IntOp.shrsi .vector (v5 (ix2 r (0 : Fin 1))) 6#32 = _ then (1 : EReal) else 0) = _
  rw [statsShift6]
  rfl

theorem statsOnehotLo_apply (v5 : IVec S2048x1 32) (hb : S2048x1.Broadcasts S2048x64) (hi : S2048x64.Iotas .tc 32 [1])
    (h1 : 1 < 32) (h2 : FTy.bf16.bits < FTy.f32.bits) (r : Fin 2048) (l : Fin 64) :
    (truncf .bf16 (sitofp .f32 (extui 32 (cmpi .eq (broadcastTo S2048x64 (andi v5 (broadcast S2048x1 63#32)) hb)
      (iota .tc S2048x64 32 [1] hi)) h1) : FVec Ideal S2048x64 .f32) h2 : FVec Ideal S2048x64 .bf16) (ix2 r l)
      = Cert.Spec.ohLo (v5 (ix2 r (0 : Fin 1))) l := by
  show (FloatOps.sitofp (F := Ideal) .f32 ((IntOp.cmpi .eq (broadcastTo S2048x64 (andi v5 (broadcast S2048x1 63#32)) hb (ix2 r l))
      (iota .tc S2048x64 32 [1] hi (ix2 r l))).setWidth 32) : EReal) = _
  rw [statsSpread_apply, statsLane_apply, statsIndicator_word]
  rfl

theorem statsGroups_apply (a b c : FVec Ideal S2048x64 .bf16)
    (hc : Shape.Concatenates (([⟨S2048x64, a⟩, ⟨S2048x64, b⟩, ⟨S2048x64, c⟩] : List ((s : Shape) × (s.Idx → Ideal .bf16))).map (·.1)) S2048x192 1)
    (r : Fin 2048) (k : Fin 192) :
    concatenate S2048x192 1 [⟨S2048x64, a⟩, ⟨S2048x64, b⟩, ⟨S2048x64, c⟩] hc (ix2 r k)
      = if k.val < 64 then a (ix2 r (⟨k.val % 64, by omega⟩ : Fin 64))
        else if k.val < 128 then b (ix2 r (⟨k.val % 64, by omega⟩ : Fin 64))
        else c (ix2 r (⟨k.val % 64, by omega⟩ : Fin 64)) := by
  have hk := k.isLt
  have hoff : ∀ (bx : Fin S2048x64.rank), bx.cast (rfl : S2048x64.rank = S2048x192.rank) ≠ (1 : Fin S2048x192.rank) →
      ((ix2 r (⟨k.val % 64, by omega⟩ : Fin 64) : S2048x64.Idx) bx).val = ((ix2 r k : S2048x192.Idx) (bx.cast rfl)).val := by
    intro bx hbx
    match bx with
    | ⟨0, _⟩ => rfl
    | ⟨1, _⟩ => exact absurd rfl hbx
  by_cases h0 : k.val < 64
  · rw [if_pos h0]
    refine concatenate_apply_piece 1 _ hc (ix2 r k) 0 (by simp) S2048x64 a rfl rfl 0 rfl _ hoff ?_
    show 0 + k.val % 64 = k.val
    omega
  · rw [if_neg h0]
    by_cases h1 : k.val < 128
    · rw [if_pos h1]
      refine concatenate_apply_piece 1 _ hc (ix2 r k) 1 (by simp) S2048x64 b rfl rfl 64 rfl _ hoff ?_
      show 64 + k.val % 64 = k.val
      omega
    · rw [if_neg h1]
      refine concatenate_apply_piece 1 _ hc (ix2 r k) 2 (by simp) S2048x64 c rfl rfl 128 rfl _ hoff ?_
      show 128 + k.val % 64 = k.val
      omega

def scaledAt (w : BitVec 32) (x y : EReal) (k : Fin 192) : EReal :=
  if k.val < 64 then Cert.Spec.ohLo w (⟨k.val % 64, by omega⟩ : Fin 64) * x
  else if k.val < 128 then Cert.Spec.ohLo w (⟨k.val % 64, by omega⟩ : Fin 64) * y
  else Cert.Spec.ohLo w (⟨k.val % 64, by omega⟩ : Fin 64)

def statsStep (ids : S16x128.Idx → BitVec 32) (sp sn : S16x128.Idx → EReal) (h : Fin 64) (k : Fin 192) : EReal :=
  ∑ r : Fin 2048, Cert.Spec.ohHi (ids (rowIx r)) h * scaledAt (ids (rowIx r)) (sp (rowIx r)) (sn (rowIx r)) k

/-- The update at entry (h, k): what was there plus the point's contribution. -/
theorem k0_pay3_apply (v3 : Vec Ideal S16x128 .i32) (v22 v24 : Vec Ideal S16x128 .f32) (v36 : Vec Ideal S64x192 .f32)
    (h : Fin 64) (k : Fin 192) :
    k0_pay3 (F := Ideal) v3 v22 v24 v36 (ix2 h k) = v36 (ix2 h k) + statsStep v3 v22 v24 h k := by
  unfold k0_pay3
  dsimp only
  refine (congrFun (shapeCast_self _ shapeCasts_S64x192_S64x192) (ix2 h k)).trans ?_
  refine congrArg (v36 (ix2 h k) + ·) ?_
  refine (statsRowsProduct_apply _ _ h k).trans ?_
  unfold statsStep
  refine Finset.sum_congr rfl fun r _ => ?_
  have hw : shapeCast S2048x1 (shapeCast S16x128 v3 shapeCasts_S16x128_S16x128) shapeCasts_S16x128_S2048x1
      (ix2 r (0 : Fin 1)) = v3 (rowIx r) := by
    rw [statsColumn_apply, shapeCast_self]
  have hx : ∀ v : Vec Ideal S16x128 .f32,
      (truncf .bf16 (shapeCast S2048x1 (shapeCast S16x128 v shapeCasts_S16x128_S16x128) shapeCasts_S16x128_S2048x1)
        bitsLt_bf16_f32 : FVec Ideal S2048x1 .bf16) (ix2 r (0 : Fin 1)) = v (rowIx r) := by
    intro v
    show shapeCast S2048x1 (shapeCast S16x128 v shapeCasts_S16x128_S16x128) shapeCasts_S16x128_S2048x1 (ix2 r (0 : Fin 1)) = _
    rw [statsColumn_apply, shapeCast_self]
  refine congrArg₂ (· * ·) ((statsOnehotHi_apply _ _ _ _ _ r h).trans (by rw [hw])) ?_
  refine (statsGroups_apply _ _ _ _ r k).trans ?_
  unfold scaledAt
  by_cases h0 : k.val < 64
  · rw [if_pos h0, if_pos h0]
    refine congrArg₂ (· * ·) ((statsOnehotLo_apply _ _ _ _ _ r _).trans (by rw [hw])) ?_
    exact (statsSpread_apply _ _ r _).trans (hx v22)
  · rw [if_neg h0, if_neg h0]
    by_cases h1 : k.val < 128
    · rw [if_pos h1, if_pos h1]
      refine congrArg₂ (· * ·) ((statsOnehotLo_apply _ _ _ _ _ r _).trans (by rw [hw])) ?_
      exact (statsSpread_apply _ _ r _).trans (hx v24)
    · rw [if_neg h1, if_neg h1]
      exact (statsOnehotLo_apply _ _ _ _ _ r _).trans (by rw [hw])

theorem k0_pay2_apply (j : S64x192.Idx) : k0_pay2 (F := Ideal) j = 0 := by
  unfold k0_pay2
  refine (congrFun (shapeCast_self _ shapeCasts_S64x192_S64x192) j).trans ?_
  exact Ideal.ofBits_zero_f32

theorem k0_pay1_apply (v44 : Vec Ideal S64x192 .f32) (u : Fin 1) (h : Fin 64) (k : Fin 192) :
    k0_pay1 (F := Ideal) v44 (ix3 u h k) = v44 (ix2 h k) := by
  unfold k0_pay1
  exact shapeCast_ab_1ab_apply v44 shapeCasts_S64x192_S1x64x192 u h k

def blockOf {α : Type} (x : S65536x128.Idx → α) (c : Fin 2) (j : Fin 2048) : S16x128.Idx → α :=
  fun y => x (ix2 (⟨16 * (2048 * c.val + j.val) + (y 0).val, by have := idx2_lt0 y; omega⟩ : Fin 65536) (y 1))

/-- The whole array the pass computes: member c is the sum of the contributions of the 2048 blocks of half c. -/
def statsRaw (b2 : S65536x128.Idx → BitVec 32) (sp2 sn2 : S65536x128.Idx → EReal) : S2x64x192.Idx → EReal :=
  fun i => ∑ j : Fin 2048, statsStep (blockOf b2 (i 0) j) (blockOf sp2 (i 0) j) (blockOf sn2 (i 0) j) (i 1) (i 2)

theorem statsScaledAt_pos (w : BitVec 32) (x y : EReal) (l : Fin 64) :
    scaledAt w x y (⟨l.val, by omega⟩ : Fin 192) = Cert.Spec.ohLo w l * x := by
  have hl := l.isLt
  unfold scaledAt
  rw [if_pos (show l.val < 64 from hl)]
  exact congrArg (fun q => Cert.Spec.ohLo w q * x) (Fin.ext (Nat.mod_eq_of_lt hl))

theorem statsScaledAt_neg (w : BitVec 32) (x y : EReal) (l : Fin 64) :
    scaledAt w x y (⟨64 + l.val, by omega⟩ : Fin 192) = Cert.Spec.ohLo w l * y := by
  have hl := l.isLt
  unfold scaledAt
  rw [if_neg (show ¬(64 + l.val < 64) by omega), if_pos (show 64 + l.val < 128 by omega)]
  exact congrArg (fun q => Cert.Spec.ohLo w q * y) (Fin.ext (show (64 + l.val) % 64 = l.val by omega))

theorem statsScaledAt_cnt (w : BitVec 32) (x y : EReal) (l : Fin 64) :
    scaledAt w x y (⟨128 + l.val, by omega⟩ : Fin 192) = Cert.Spec.ohLo w l := by
  have hl := l.isLt
  unfold scaledAt
  rw [if_neg (show ¬(128 + l.val < 64) by omega), if_neg (show ¬(128 + l.val < 128) by omega)]
  exact congrArg (fun q => Cert.Spec.ohLo w q) (Fin.ext (show (128 + l.val) % 64 = l.val by omega))

theorem statsBlockOf_rows {α : Type} (x : Cert.Spec.Nodes.Idx → α) (c : Fin 2) (j r : Fin 2048) :
    blockOf (Cert.Spec.rows x) c j (rowIx r) = x (Cert.Spec.nodeAt c j r) := rfl

theorem statsRaw_halves (b2 : S65536x128.Idx → BitVec 32) (sp2 sn2 : S65536x128.Idx → EReal) (h : Fin 64) (k : Fin 192) :
    statsRaw b2 sp2 sn2 (ix3 (0 : Fin 2) h k) + statsRaw b2 sp2 sn2 (ix3 (1 : Fin 2) h k)
      = ∑ c : Fin 2, ∑ j : Fin 2048, ∑ r : Fin 2048,
          Cert.Spec.ohHi (blockOf b2 c j (rowIx r)) h
            * scaledAt (blockOf b2 c j (rowIx r)) (blockOf sp2 c j (rowIx r)) (blockOf sn2 c j (rowIx r)) k := by
  rw [Fin.sum_univ_two]
  rfl

/-- Summed over the two halves, the three column groups are the segment sums of the first score, of the second, and the node counts. -/
theorem statsRaw_seg_pos (id : Cert.Spec.Nodes.Idx → BitVec 32) (sp sn : Cert.Spec.Nodes.Idx → EReal) (h l : Fin 64) :
    statsRaw (Cert.Spec.rows id) (Cert.Spec.rows sp) (Cert.Spec.rows sn) (ix3 (0 : Fin 2) h (⟨l.val, by omega⟩ : Fin 192))
      + statsRaw (Cert.Spec.rows id) (Cert.Spec.rows sp) (Cert.Spec.rows sn) (ix3 (1 : Fin 2) h (⟨l.val, by omega⟩ : Fin 192))
      = Cert.Spec.segSum id sp (Cert.Spec.graphOf h l) := by
  rw [statsRaw_halves, ← Cert.Spec.segSum_of_onehot id sp h l]
  refine Finset.sum_congr rfl fun c _ => Finset.sum_congr rfl fun j _ => Finset.sum_congr rfl fun r _ => ?_
  rw [statsBlockOf_rows, statsBlockOf_rows, statsBlockOf_rows, statsScaledAt_pos]

theorem statsRaw_seg_neg (id : Cert.Spec.Nodes.Idx → BitVec 32) (sp sn : Cert.Spec.Nodes.Idx → EReal) (h l : Fin 64) :
    statsRaw (Cert.Spec.rows id) (Cert.Spec.rows sp) (Cert.Spec.rows sn) (ix3 (0 : Fin 2) h (⟨64 + l.val, by omega⟩ : Fin 192))
      + statsRaw (Cert.Spec.rows id) (Cert.Spec.rows sp) (Cert.Spec.rows sn) (ix3 (1 : Fin 2) h (⟨64 + l.val, by omega⟩ : Fin 192))
      = Cert.Spec.segSum id sn (Cert.Spec.graphOf h l) := by
  rw [statsRaw_halves, ← Cert.Spec.segSum_of_onehot id sn h l]
  refine Finset.sum_congr rfl fun c _ => Finset.sum_congr rfl fun j _ => Finset.sum_congr rfl fun r _ => ?_
  rw [statsBlockOf_rows, statsBlockOf_rows, statsBlockOf_rows, statsScaledAt_neg]

theorem statsRaw_seg_cnt (id : Cert.Spec.Nodes.Idx → BitVec 32) (sp sn : Cert.Spec.Nodes.Idx → EReal) (h l : Fin 64) :
    statsRaw (Cert.Spec.rows id) (Cert.Spec.rows sp) (Cert.Spec.rows sn) (ix3 (0 : Fin 2) h (⟨128 + l.val, by omega⟩ : Fin 192))
      + statsRaw (Cert.Spec.rows id) (Cert.Spec.rows sp) (Cert.Spec.rows sn) (ix3 (1 : Fin 2) h (⟨128 + l.val, by omega⟩ : Fin 192))
      = Cert.Spec.segSum id (fun _ => 1) (Cert.Spec.graphOf h l) := by
  rw [statsRaw_halves, ← Cert.Spec.segSum_of_onehot id (fun _ => 1) h l]
  refine Finset.sum_congr rfl fun c _ => Finset.sum_congr rfl fun j _ => Finset.sum_congr rfl fun r _ => ?_
  rw [statsBlockOf_rows, statsBlockOf_rows, statsBlockOf_rows, statsScaledAt_cnt, mul_one]

end Cert.KernelIdeal.Val

end
-- ==== Proof.StatsValue.lean ====
/- What the first pass leaves in its output array: after block j of half c the accumulator is the sum of the contributions of blocks 0 … j of
   that half; at j = 2047 it is written, under a leading axis of extent one, as member c of the 2 × 64 × 192 array. -/
import proofs.«400573_j52158082842660_3_alg».proof.Proof.StatsFrame
import proofs.«400573_j52158082842660_3_alg».proof.Proof.StatsPayload
import Idealize.ShloMosaic.Lib.Pipeline.Value
import Idealize.ShloMosaic.Lib.Tactic

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)

section Sweep

variable (V : (c : Dev nD) → (b : Ref sig .tc) → Buf (Elt Ideal) ((c : Thread nD τ).loc b))

abbrev statsIdsBlk (c : Dev nD) (t : Fin cfg0.N) : Vec Ideal S16x128 .i32 := iblk0 V c 0 t
abbrev statsSpBlk (c : Dev nD) (t : Fin cfg0.N) : Vec Ideal S16x128 .f32 := iblk0 V c 1 t
abbrev statsSnBlk (c : Dev nD) (t : Fin cfg0.N) : Vec Ideal S16x128 .f32 := iblk0 V c 2 t
abbrev statsIdsArr (c : Dev nD) : S65536x128.Idx → BitVec 32 := V c main_v6
abbrev statsSpArr (c : Dev nD) : S65536x128.Idx → EReal := V c main_v7
abbrev statsSnArr (c : Dev nD) : S65536x128.Idx → EReal := V c main_v8

def statsStepAt (c : Dev nD) (m : ℕ) (h : Fin 64) (k : Fin 192) : EReal :=
  if hm : m < cfg0.N then statsStep (statsIdsBlk V c ⟨m, hm⟩) (statsSpBlk V c ⟨m, hm⟩) (statsSnBlk V c ⟨m, hm⟩) h k else 0

theorem statsStepAt_of_lt (c : Dev nD) (m : ℕ) (hm : m < cfg0.N) (h : Fin 64) (k : Fin 192) :
    statsStepAt V c m h k = statsStep (statsIdsBlk V c ⟨m, hm⟩) (statsSpBlk V c ⟨m, hm⟩) (statsSnBlk V c ⟨m, hm⟩) h k := dif_pos hm

theorem statsSweep_idx (c : Dev nD) {n n' : ℕ} (e : n = n') (hn : n < cfg0.N) (hn' : n' < cfg0.N) :
    acc0 V c n hn = acc0 V c n' hn' := by
  subst e; rfl

theorem statsInGrid (c0 : Fin 2) (j : ℕ) (hj : j < 2048) : 2048 * c0.val + j < cfg0.N := by
  have := c0.isLt
  rw [show cfg0.N = 4096 from N_0]; omega

/-- After block j of half c0 the accumulator holds, at (h, k), the contributions of blocks 0 … j of that half. -/
theorem statsSweep_inv (c : Dev nD) (c0 : Fin 2) : ∀ (j : ℕ) (hj : j < 2048) (h : Fin 64) (k : Fin 192),
    acc0 V c (2048 * c0.val + j) (statsInGrid c0 j hj) (ix2 h k)
      = ∑ j' ∈ Finset.range (j + 1), statsStepAt V c (2048 * c0.val + j') h k
  | 0, hj, h, k => by
    have h0 : (⟨2048 * c0.val + 0, statsInGrid c0 0 hj⟩ : Fin cfg0.N).val % 2048 = 0 := by dsimp only; omega
    rw [acc0_reset V c ⟨2048 * c0.val + 0, statsInGrid c0 0 hj⟩ h0]
    refine (k0_pay3_apply _ _ _ _ h k).trans ?_
    rw [k0_pay2_apply, zero_add, Finset.sum_range_one, statsStepAt_of_lt V c _ (statsInGrid c0 0 hj)]
  | j + 1, hj, h, k => by
    have h0 : ¬ (⟨2048 * c0.val + (j + 1), statsInGrid c0 (j + 1) hj⟩ : Fin cfg0.N).val % 2048 = 0 := by dsimp only; omega
    have hprev : acc0 V c ((⟨2048 * c0.val + (j + 1), statsInGrid c0 (j + 1) hj⟩ : Fin cfg0.N).val - 1) (Nat.lt_of_le_of_lt (Nat.sub_le _ _) (⟨2048 * c0.val + (j + 1), statsInGrid c0 (j + 1) hj⟩ : Fin cfg0.N).isLt) (ix2 h k)
        = ∑ j' ∈ Finset.range (j + 1), statsStepAt V c (2048 * c0.val + j') h k := by
      rw [statsSweep_idx V c (show (⟨2048 * c0.val + (j + 1), statsInGrid c0 (j + 1) hj⟩ : Fin cfg0.N).val - 1 = 2048 * c0.val + j by dsimp only; omega) _ (statsInGrid c0 j (by omega))]
      exact statsSweep_inv c c0 j (by omega) h k
    rw [Finset.sum_range_succ, ← hprev, statsStepAt_of_lt V c _ (statsInGrid c0 (j + 1) hj) h k,
      acc0_step V c ⟨2048 * c0.val + (j + 1), statsInGrid c0 (j + 1) hj⟩ h0]
    exact k0_pay3_apply _ _ _ _ h k

end Sweep

theorem statsBlockIndex_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val / 2048 ∧ win0_3.index t (1 : Fin 3) = 0 ∧ win0_3.index t (2 : Fin 3) = 0 :=
  (by decide +kernel : ∀ t : Fin grid0.N, _)

section Blocks

variable (V : (c : Dev nD) → (b : Ref sig .tc) → Buf (Elt Ideal) ((c : Thread nD τ).loc b))

/-- The blocks of point 2048 c0 + j are rows 16 (2048 c0 + j) … of the three arrays. -/
theorem statsIdsBlk_eq (c : Dev nD) (c0 : Fin 2) (j : Fin 2048) :
    statsIdsBlk V c ⟨2048 * c0.val + j.val, statsInGrid c0 j.val j.isLt⟩ = blockOf (statsIdsArr V c) c0 j := by
  obtain ⟨e0, e1, -⟩ := statsBlockIndex_facts ⟨2048 * c0.val + j.val, statsInGrid c0 j.val j.isLt⟩
  funext y
  unfold blockOf
  show iblk0 V c 0 ⟨2048 * c0.val + j.val, statsInGrid c0 j.val j.isLt⟩ y = _
  unfold iblk0
  rw [View.read_apply]
  show V c main_v6 _ = V c main_v6 _
  congr 1
  funext a
  apply Fin.ext
  match a with
  | ⟨0, _⟩ =>
    show win0_0.index ⟨2048 * c0.val + j.val, statsInGrid c0 j.val j.isLt⟩ (0 : Fin 2) * 16 + 1 * (y 0).val = 16 * (2048 * c0.val + j.val) + (y 0).val
    rw [e0]; dsimp only; omega
  | ⟨1, _⟩ =>
    show win0_0.index ⟨2048 * c0.val + j.val, statsInGrid c0 j.val j.isLt⟩ (1 : Fin 2) * 128 + 1 * (y 1).val = (y 1).val
    rw [e1]; omega

theorem statsSpBlk_eq (c : Dev nD) (c0 : Fin 2) (j : Fin 2048) :
    statsSpBlk V c ⟨2048 * c0.val + j.val, statsInGrid c0 j.val j.isLt⟩ = blockOf (statsSpArr V c) c0 j := by
  obtain ⟨-, -, e2, e3, -⟩ := statsBlockIndex_facts ⟨2048 * c0.val + j.val, statsInGrid c0 j.val j.isLt⟩
  funext y
  unfold blockOf
  show iblk0 V c 1 ⟨2048 * c0.val + j.val, statsInGrid c0 j.val j.isLt⟩ y = _
  unfold iblk0
  rw [View.read_apply]
  show V c main_v7 _ = V c main_v7 _
  congr 1
  funext a
  apply Fin.ext
  match a with
  | ⟨0, _⟩ =>
    show win0_1.index ⟨2048 * c0.val + j.val, statsInGrid c0 j.val j.isLt⟩ (0 : Fin 2) * 16 + 1 * (y 0).val = 16 * (2048 * c0.val + j.val) + (y 0).val
    rw [e2]; dsimp only; omega
  | ⟨1, _⟩ =>
    show win0_1.index ⟨2048 * c0.val + j.val, statsInGrid c0 j.val j.isLt⟩ (1 : Fin 2) * 128 + 1 * (y 1).val = (y 1).val
    rw [e3]; omega

theorem statsSnBlk_eq (c : Dev nD) (c0 : Fin 2) (j : Fin 2048) :
    statsSnBlk V c ⟨2048 * c0.val + j.val, statsInGrid c0 j.val j.isLt⟩ = blockOf (statsSnArr V c) c0 j := by
  obtain ⟨-, -, -, -, e4, e5, -⟩ := statsBlockIndex_facts ⟨2048 * c0.val + j.val, statsInGrid c0 j.val j.isLt⟩
  funext y
  unfold blockOf
  show iblk0 V c 2 ⟨2048 * c0.val + j.val, statsInGrid c0 j.val j.isLt⟩ y = _
  unfold iblk0
  rw [View.read_apply]
  show V c main_v8 _ = V c main_v8 _
  congr 1
  funext a
  apply Fin.ext
  match a with
  | ⟨0, _⟩ =>
    show win0_2.index ⟨2048 * c0.val + j.val, statsInGrid c0 j.val j.isLt⟩ (0 : Fin 2) * 16 + 1 * (y 0).val = 16 * (2048 * c0.val + j.val) + (y 0).val
    rw [e4]; dsimp only; omega
  | ⟨1, _⟩ =>
    show win0_2.index ⟨2048 * c0.val + j.val, statsInGrid c0 j.val j.isLt⟩ (1 : Fin 2) * 128 + 1 * (y 1).val = (y 1).val
    rw [e5]; omega

theorem statsStepAt_eq (c : Dev nD) (c0 : Fin 2) (j : Fin 2048) (h : Fin 64) (k : Fin 192) :
    statsStepAt V c (2048 * c0.val + j.val) h k
      = statsStep (blockOf (statsIdsArr V c) c0 j) (blockOf (statsSpArr V c) c0 j) (blockOf (statsSnArr V c) c0 j) h k := by
  rw [statsStepAt_of_lt V c _ (statsInGrid c0 j.val j.isLt), statsIdsBlk_eq, statsSpBlk_eq, statsSnBlk_eq]

theorem statsOut_last (c : Dev nD) (c0 : Fin 2) (u : Fin 1) (h : Fin 64) (k : Fin 192) :
    k0_pay1 (acc0 V c (2048 * c0.val + 2047) (statsInGrid c0 2047 (by decide))) (ix3 u h k)
      = statsRaw (statsIdsArr V c) (statsSpArr V c) (statsSnArr V c) (ix3 c0 h k) := by
  refine (k0_pay1_apply _ u h k).trans ?_
  refine (statsSweep_inv V c c0 2047 (by decide) h k).trans ?_
  show ∑ j' ∈ Finset.range 2048, statsStepAt V c (2048 * c0.val + j') h k = _
  rw [Finset.sum_range]
  exact Finset.sum_congr rfl fun j _ => statsStepAt_eq V c c0 j h k

theorem statsOut_last_at (c : Dev nD) (c0 : Fin 2) (z : S1x64x192.Idx) (i : S2x64x192.Idx)
    (h0 : (i 0).val = c0.val) (h1 : (i 1).val = (z 1).val) (h2 : (i 2).val = (z 2).val) :
    k0_pay1 (acc0 V c (2048 * c0.val + 2047) (statsInGrid c0 2047 (by decide))) z
      = statsRaw (statsIdsArr V c) (statsSpArr V c) (statsSnArr V c) i := by
  obtain ⟨u, p, q, rfl⟩ : ∃ (u : Fin 1) (p : Fin 64) (q : Fin 192), z = ix3 u p q := ⟨z 0, z 1, z 2, eq_ix3 z⟩
  have hi : i = ix3 c0 p q := funext fun a => Fin.ext (match a with | ⟨0, _⟩ => h0 | ⟨1, _⟩ => h1 | ⟨2, _⟩ => h2)
  rw [hi]
  exact statsOut_last V c c0 u p q

theorem statsFlushed_eq (c : Dev nD) (t : Fin cfg0.N) (hf : (cfg0.win 3).flush t = true) :
    (dat0 V c).flushed 3 t
      = ((cfg0.win 3).blk t).view.read (Elt Ideal) (statsRaw (statsIdsArr V c) (statsSpArr V c) (statsSnArr V c)) := by
  have hN : cfg0.N = 4096 := N_0
  have h1 : t.val % 2048 = 2047 := (flush0_3 t).mp hf
  have hlt := t.isLt
  obtain ⟨c0, rfl⟩ : ∃ c0 : Fin 2, t = ⟨2048 * c0.val + 2047, statsInGrid c0 2047 (by decide)⟩ :=
    ⟨⟨t.val / 2048, by omega⟩, Fin.ext (by dsimp only; omega)⟩
  obtain ⟨-, -, -, -, -, -, e6, e7, e8⟩ := statsBlockIndex_facts ⟨2048 * c0.val + 2047, statsInGrid c0 2047 (by decide)⟩
  show (cfg0.win 3).cut (grid0.coords ⟨2048 * c0.val + 2047, statsInGrid c0 2047 (by decide)⟩) ((dat0 V c).after 3 ⟨2048 * c0.val + 2047, statsInGrid c0 2047 (by decide)⟩) = _
  rw [after0_out]
  funext y
  rw [View.read_apply]
  show k0_pay1 (acc0 V c (2048 * c0.val + 2047) (statsInGrid c0 2047 (by decide))) _
    = statsRaw (statsIdsArr V c) (statsSpArr V c) (statsSnArr V c) _
  have hy0 : (y 0).val < 1 := (y 0).isLt
  refine statsOut_last_at V c c0 _ _ ?_ ?_ ?_
  · show win0_3.index ⟨2048 * c0.val + 2047, statsInGrid c0 2047 (by decide)⟩ (0 : Fin 3) * 1 + 1 * (y 0).val = c0.val
    rw [e6]; dsimp only; omega
  · show win0_3.index ⟨2048 * c0.val + 2047, statsInGrid c0 2047 (by decide)⟩ (1 : Fin 3) * 64 + 1 * (y 1).val = (y 1).val
    rw [e7]; omega
  · show win0_3.index ⟨2048 * c0.val + 2047, statsInGrid c0 2047 (by decide)⟩ (2 : Fin 3) * 192 + 1 * (y 2).val = (y 2).val
    rw [e8]; omega

/-- The two writing points' blocks are the two members of the output array. -/
theorem stats_final (c : Dev nD) :
    (dat0 V c).arrAt 3 cfg0.N = statsRaw (statsIdsArr V c) (statsSpArr V c) (statsSnArr V c) :=
  (dat0 V c).arrAt_eq_of_cover 3 (statsRaw (statsIdsArr V c) (statsSpArr V c) (statsSnArr V c)) (statsFlushed_eq V c) fun i => by
    have hN : cfg0.N = 4096 := N_0
    have hi0 : (i 0).val < 2 := (i 0).isLt
    have hi1 : (i 1).val < 64 := (i 1).isLt
    have hi2 : (i 2).val < 192 := (i 2).isLt
    have hT : 2048 * (i 0).val + 2047 < cfg0.N := by omega
    obtain ⟨-, -, -, -, -, -, e6, e7, e8⟩ := statsBlockIndex_facts ⟨2048 * (i 0).val + 2047, hT⟩
    refine ⟨⟨2048 * (i 0).val + 2047, hT⟩, (flush0_3 _).mpr (by dsimp only; omega), ?_⟩
    show i ∈ ((View.whole main_v9).slice (win0_3.rect ⟨2048 * (i 0).val + 2047, hT⟩)).set
    rw [View.set_slice_whole, Rect.mem_set_unit]
    intro a
    match a with
    | ⟨0, _⟩ =>
      show win0_3.index ⟨2048 * (i 0).val + 2047, hT⟩ (0 : Fin 3) * 1 ≤ (i 0).val
        ∧ (i 0).val < win0_3.index ⟨2048 * (i 0).val + 2047, hT⟩ (0 : Fin 3) * 1 + 1
      rw [e6]; dsimp only; omega
    | ⟨1, _⟩ =>
      show win0_3.index ⟨2048 * (i 0).val + 2047, hT⟩ (1 : Fin 3) * 64 ≤ (i 1).val
        ∧ (i 1).val < win0_3.index ⟨2048 * (i 0).val + 2047, hT⟩ (1 : Fin 3) * 64 + 64
      rw [e7]; omega
    | ⟨2, _⟩ =>
      show win0_3.index ⟨2048 * (i 0).val + 2047, hT⟩ (2 : Fin 3) * 192 ≤ (i 2).val
        ∧ (i 2).val < win0_3.index ⟨2048 * (i 0).val + 2047, hT⟩ (2 : Fin 3) * 192 + 192
      rw [e8]; omega

end Blocks

end Cert.KernelIdeal.Val

end
-- ==== Proof.KlPayload.lean ====
/- The second pass's arithmetic, entry by entry over the extended reals. Per row, the first product picks the table row the word's high part names
   (the table plus the table minus itself); the lane sums against the low one-hot pick the two totals of the node's graph; the node's two shares, their
   midpoint and the two logarithmic terms follow lane by lane; the last product adds, at entry (h, k), the sum over the rows of
   [high part is h] · [low part is k mod 64] · term. -/
import proofs.«400573_j52158082842660_3_alg».proof.Proof.Gen.KernelIdeal.Skeleton
import proofs.«400573_j52158082842660_3_alg».proof.Proof.Spec
import proofs.«400573_j52158082842660_3_alg».proof.Proof.SpecLemmas
import proofs.«400573_j52158082842660_3_alg».proof.Proof.StatsPayload
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Val

open Cert.KernelIdeal Cert.KernelIdeal.Gen
open Idealize.ShloMosaic Idealize.ShloMosaic.ValueIdx
open Cert.Spec (ohHi ohLo)

def colP (l : Fin 64) : Fin 128 := ⟨l.val, by omega⟩
def colQ (l : Fin 64) : Fin 128 := ⟨64 + l.val, by omega⟩

def laneOf (k : Fin 128) : Fin 64 := ⟨k.val % 64, by omega⟩

def klGatherRow (w : BitVec 32) (T : S64x128.Idx → EReal) (c : Fin 128) : EReal :=
  (∑ h : Fin 64, ohHi w h * T (ix2 h c)) + (∑ h : Fin 64, ohHi w h * (T (ix2 h c) - T (ix2 h c)))

def gatherP (w : BitVec 32) (T : S64x128.Idx → EReal) : EReal := ∑ l : Fin 64, klGatherRow w T (colP l) * ohLo w l

def gatherQ (w : BitVec 32) (T : S64x128.Idx → EReal) : EReal := ∑ l : Fin 64, klGatherRow w T (colQ l) * ohLo w l

def klCol (k : Fin 128) (x y P Q : EReal) : EReal := if k.val < 64 then Spec.klpNode x y P Q else Spec.klqNode x y P Q

def nodeTerm (w : BitVec 32) (x y : EReal) (T : S64x128.Idx → EReal) (h : Fin 64) (k : Fin 128) : EReal :=
  ohHi w h * (ohLo w (laneOf k) * klCol k x y (gatherP w T) (gatherQ w T))

def blockSum (b : S16x128.Idx → BitVec 32) (sp sn : S16x128.Idx → EReal) (T : S64x128.Idx → EReal) (h : Fin 64) (k : Fin 128) : EReal :=
  ∑ r : Fin 2048, nodeTerm (b (rowIx r)) (sp (rowIx r)) (sn (rowIx r)) T h k

theorem kl_wordCol_apply (b : Vec Ideal S16x128 .i32) (r : Fin 2048) :
    k1_pay3 (F := Ideal) b (ix2 r (0 : Fin 1)) = b (rowIx r) := by
  unfold k1_pay3
  refine (statsColumn_apply _ shapeCasts_S16x128_S2048x1 r 0).trans ?_
  exact congrFun (shapeCast_self b shapeCasts_S16x128_S16x128) (rowIx r)

theorem kl_oneHot_apply (col : IVec S2048x1 32) (r : Fin 2048) (h : Fin 64) :
    (sitofp .f32 (extui 32 (cmpi .eq (broadcastTo S2048x64 col broadcasts_S2048x1_S2048x64)
        (iota .tc S2048x64 32 [1] iota_S2048x64_d1_w32)) natLt_1_32) : FVec Ideal S2048x64 .f32) (ix2 r h)
      = if col (ix2 r (0 : Fin 1)) = BitVec.ofNat 32 h.val then (1 : EReal) else 0 := by
  show FloatOps.sitofp (F := Ideal) .f32 ((IntOp.cmpi .eq (broadcastTo S2048x64 col broadcasts_S2048x1_S2048x64 (ix2 r h))
      (iota .tc S2048x64 32 [1] iota_S2048x64_d1_w32 (ix2 r h))).setWidth 32) = _
  rw [statsIndicator_word, iota_single_apply,
    broadcastTo_apply col broadcasts_S2048x1_S2048x64 (ix2 r h) (ix2 r (0 : Fin 1))
      (fun a => by match a with | ⟨0, _⟩ => rfl | ⟨1, _⟩ => rfl)]

theorem kl_ohHi_read (b : Vec Ideal S16x128 .i32) (r : Fin 2048) (h : Fin 64) :
    k1_pay4 (F := Ideal) b (ix2 r h) = ohHi (b (rowIx r)) h := by
  unfold k1_pay4
  refine (kl_oneHot_apply _ r h).trans ?_
  show (if IntOp.shrsi .vector (k1_pay3 (F := Ideal) b (ix2 r (0 : Fin 1))) 6#32 = BitVec.ofNat 32 h.val then (1 : EReal) else 0) = _
  rw [kl_wordCol_apply, statsShift6]
  rfl

theorem kl_ohLo_read (b : Vec Ideal S16x128 .i32) (r : Fin 2048) (l : Fin 64) :
    k1_pay5 (F := Ideal) b (ix2 r l) = ohLo (b (rowIx r)) l := by
  unfold k1_pay5
  refine (kl_oneHot_apply _ r l).trans ?_
  show (if IntOp.andi (k1_pay3 (F := Ideal) b (ix2 r (0 : Fin 1))) 63#32 = BitVec.ofNat 32 l.val then (1 : EReal) else 0) = _
  rw [kl_wordCol_apply]
  rfl

theorem kl_ohLo16_read (b : Vec Ideal S16x128 .i32) (r : Fin 2048) (l : Fin 64) :
    k1_pay6 (F := Ideal) b (ix2 r l) = ohLo (b (rowIx r)) l := kl_ohLo_read b r l

theorem kl_ohLo32_read (b : Vec Ideal S16x128 .i32) (r : Fin 2048) (l : Fin 64) :
    k1_pay10 (F := Ideal) b (ix2 r l) = ohLo (b (rowIx r)) l := kl_ohLo_read b r l

theorem kl_lhs_rowsDot_0 (j : S2048x128.Idx) (k : dot_S2048x64_S64x128_S2048x128_1_0_0_1_n_n.contr.Idx) :
    (dot_S2048x64_S64x128_S2048x128_1_0_0_1_n_n.lhsIdx j k 0).val = (j 0).val := by
  unfold DotDims.lhsIdx
  rw [dif_neg (show ¬(0 : Fin S2048x64.rank) ∈ dot_S2048x64_S64x128_S2048x128_1_0_0_1_n_n.lhsBatch by decide),
    dif_pos (show (0 : Fin S2048x64.rank) ∈ dot_S2048x64_S64x128_S2048x128_1_0_0_1_n_n.lhsNonContracting by decide)]
  rfl

theorem kl_lhs_rowsDot_1 (j : S2048x128.Idx) (k : dot_S2048x64_S64x128_S2048x128_1_0_0_1_n_n.contr.Idx) :
    (dot_S2048x64_S64x128_S2048x128_1_0_0_1_n_n.lhsIdx j k 1).val = (k ⟨0, by decide⟩).val :=
  DotDims.lhsIdx_val_of_single (d := dot_S2048x64_S64x128_S2048x128_1_0_0_1_n_n) (cl := 1) rfl j k

theorem kl_rhs_rowsDot_0 (j : S2048x128.Idx) (k : dot_S2048x64_S64x128_S2048x128_1_0_0_1_n_n.contr.Idx) :
    (dot_S2048x64_S64x128_S2048x128_1_0_0_1_n_n.rhsIdx j k 0).val = (k ⟨0, by decide⟩).val :=
  DotDims.rhsIdx_val_of_single (d := dot_S2048x64_S64x128_S2048x128_1_0_0_1_n_n) (cr := 0) rfl j k

theorem kl_rhs_rowsDot_1 (j : S2048x128.Idx) (k : dot_S2048x64_S64x128_S2048x128_1_0_0_1_n_n.contr.Idx) :
    (dot_S2048x64_S64x128_S2048x128_1_0_0_1_n_n.rhsIdx j k 1).val = (j 1).val := by
  unfold DotDims.rhsIdx
  rw [dif_neg (show ¬(1 : Fin S64x128.rank) ∈ dot_S2048x64_S64x128_S2048x128_1_0_0_1_n_n.rhsBatch by decide),
    dif_pos (show (1 : Fin S64x128.rank) ∈ dot_S2048x64_S64x128_S2048x128_1_0_0_1_n_n.rhsNonContracting by decide)]
  rfl

/-- The gathering product contracts the 64 table rows: entry (r, c) is the sum over h of L r h · R h c. -/
theorem kl_rowsDot_apply (L : FVec Ideal S2048x64 .bf16) (R : FVec Ideal S64x128 .bf16) (r : Fin 2048) (c : Fin 128) :
    matmul dot_S2048x64_S64x128_S2048x128_1_0_0_1_n_n none L R (constant S2048x128 .f32 0x00000000#32) (ix2 r c)
      = ∑ h : Fin 64, L (ix2 r h) * R (ix2 h c) := by
  refine (Ideal.matmul_constant_zero_apply dot_S2048x64_S64x128_S2048x128_1_0_0_1_n_n none L R (ix2 r c)).trans ?_
  rw [← Equiv.sum_comp (contrEquiv1 dot_S2048x64_S64x128_S2048x128_1_0_0_1_n_n 64 rfl rfl).symm]
  refine Finset.sum_congr rfl fun h _ => ?_
  have hk := contrEquiv1_symm_val dot_S2048x64_S64x128_S2048x128_1_0_0_1_n_n 64 rfl rfl h
  have eL : dot_S2048x64_S64x128_S2048x128_1_0_0_1_n_n.lhsIdx (ix2 r c)
      ((contrEquiv1 dot_S2048x64_S64x128_S2048x128_1_0_0_1_n_n 64 rfl rfl).symm h) = ix2 r h := by
    funext a; refine Fin.ext ?_
    match a with
    | ⟨0, _⟩ => exact kl_lhs_rowsDot_0 _ _
    | ⟨1, _⟩ => exact (kl_lhs_rowsDot_1 _ _).trans hk
  have eR : dot_S2048x64_S64x128_S2048x128_1_0_0_1_n_n.rhsIdx (ix2 r c)
      ((contrEquiv1 dot_S2048x64_S64x128_S2048x128_1_0_0_1_n_n 64 rfl rfl).symm h) = ix2 h c := by
    funext a; refine Fin.ext ?_
    match a with
    | ⟨0, _⟩ => exact (kl_rhs_rowsDot_0 _ _).trans hk
    | ⟨1, _⟩ => exact kl_rhs_rowsDot_1 _ _
  rw [eL, eR]

section Layout
variable {α : Type}

theorem kl_toBlock_apply (v : S2048x1.Idx → α) (r : Fin 2048) :
    shapeCast S16x128 v shapeCasts_S2048x1_S16x128 (rowIx r) = v (ix2 r (0 : Fin 1)) :=
  shapeCast_apply v shapeCasts_S2048x1_S16x128 (rowIx r) (ix2 r (0 : Fin 1)) (by
    rw [Shape.rowMajor_val_two, Shape.rowMajor_val_two]
    show r.val * 1 + 0 = r.val / 128 * 128 + r.val % 128
    omega)

theorem kl_vecCol_apply (v : S2048.Idx → α) (r : Fin 2048) :
    shapeCast S2048x1 v shapeCasts_S2048_S2048x1 (ix2 r (0 : Fin 1)) = v (ix1 r) :=
  shapeCast_apply v shapeCasts_S2048_S2048x1 (ix2 r (0 : Fin 1)) (ix1 r) (by
    rw [Shape.rowMajor_val_one, Shape.rowMajor_val_two]
    show r.val = r.val * 1 + 0
    omega)

end Layout

theorem kl_laneSum_apply (src : FVec Ideal S2048x64 .f32) (r : Fin 2048) :
    multiReduction .add [1] S2048 src 0x00000000#32 reduces_S2048x64_S2048 (.inl rfl) rfl (ix1 r)
      = ∑ l : Fin 64, src (ix2 r l) := by
  refine (Ideal.multiReduction_add_single src 0x00000000#32 reduces_S2048x64_S2048 (.inl rfl) rfl (ix1 r)).trans ?_
  show ∑ l : Fin 64, src (reduces_S2048x64_S2048.lift (ix1 r) l) = _
  refine Finset.sum_congr rfl fun l _ => congrArg src ?_
  funext a; refine Fin.ext ?_
  match a with
  | ⟨0, _⟩ => rfl
  | ⟨1, _⟩ => rfl

theorem kl_rows_read (b : Vec Ideal S16x128 .i32) (T : Vec Ideal S64x128 .f32) (r : Fin 2048) (c : Fin 128) :
    k1_pay9 (F := Ideal) b T (ix2 r c) = klGatherRow (b (rowIx r)) T c := by
  have e : shapeCast S64x128 T shapeCasts_S64x128_S64x128 = T := shapeCast_self T shapeCasts_S64x128_S64x128
  unfold k1_pay9 klGatherRow
  refine (addf_apply _ _ (ix2 r c)).trans ?_
  refine congrArg₂ (· + ·) ((kl_rowsDot_apply _ _ r c).trans ?_) ((kl_rowsDot_apply _ _ r c).trans ?_)
  · exact Finset.sum_congr rfl fun h _ => congrArg₂ (· * ·) (kl_ohHi_read b r h) (congrFun e (ix2 h c))
  · exact Finset.sum_congr rfl fun h _ => congrArg₂ (· * ·) (kl_ohHi_read b r h)
      (congrArg₂ (· - ·) (congrFun e (ix2 h c)) (congrFun e (ix2 h c)))

theorem kl_gatherP_read (b : Vec Ideal S16x128 .i32) (T : Vec Ideal S64x128 .f32) (r : Fin 2048) :
    k1_pay11 (F := Ideal) b T (ix2 r (0 : Fin 1)) = gatherP (b (rowIx r)) T := by
  unfold k1_pay11 gatherP
  refine (kl_vecCol_apply _ r).trans ?_
  refine (kl_laneSum_apply _ r).trans ?_
  refine Finset.sum_congr rfl fun l _ => ?_
  refine (mulf_apply _ _ (ix2 r l)).trans ?_
  refine congrArg₂ (· * ·) ?_ (kl_ohLo32_read b r l)
  refine (slice2_axis1_apply 0 _ slices_S2048x128_o0_0_S2048x64 r l (colP l) (by show l.val = 0 + l.val; omega)).trans ?_
  exact kl_rows_read b T r (colP l)

theorem kl_gatherQ_term_read (b : Vec Ideal S16x128 .i32) (T : Vec Ideal S64x128 .f32) (r : Fin 2048) (l : Fin 64) :
    k1_pay12 (F := Ideal) b T (ix2 r l) = klGatherRow (b (rowIx r)) T (colQ l) * ohLo (b (rowIx r)) l := by
  unfold k1_pay12
  refine (mulf_apply _ _ (ix2 r l)).trans ?_
  refine congrArg₂ (· * ·) ?_ (kl_ohLo32_read b r l)
  refine (slice2_axis1_apply 64 _ slices_S2048x128_o0_64_S2048x64 r l (colQ l) rfl).trans ?_
  exact kl_rows_read b T r (colQ l)

theorem kl_lhs_accDot_0 (j : S64x128.Idx) (k : dot_S2048x64_S2048x128_S64x128_0_0_1_1_n_n.contr.Idx) :
    (dot_S2048x64_S2048x128_S64x128_0_0_1_1_n_n.lhsIdx j k 0).val = (k ⟨0, by decide⟩).val :=
  DotDims.lhsIdx_val_of_single (d := dot_S2048x64_S2048x128_S64x128_0_0_1_1_n_n) (cl := 0) rfl j k

theorem kl_lhs_accDot_1 (j : S64x128.Idx) (k : dot_S2048x64_S2048x128_S64x128_0_0_1_1_n_n.contr.Idx) :
    (dot_S2048x64_S2048x128_S64x128_0_0_1_1_n_n.lhsIdx j k 1).val = (j 0).val := by
  unfold DotDims.lhsIdx
  rw [dif_neg (show ¬(1 : Fin S2048x64.rank) ∈ dot_S2048x64_S2048x128_S64x128_0_0_1_1_n_n.lhsBatch by decide),
    dif_pos (show (1 : Fin S2048x64.rank) ∈ dot_S2048x64_S2048x128_S64x128_0_0_1_1_n_n.lhsNonContracting by decide)]
  rfl

theorem kl_rhs_accDot_0 (j : S64x128.Idx) (k : dot_S2048x64_S2048x128_S64x128_0_0_1_1_n_n.contr.Idx) :
    (dot_S2048x64_S2048x128_S64x128_0_0_1_1_n_n.rhsIdx j k 0).val = (k ⟨0, by decide⟩).val :=
  DotDims.rhsIdx_val_of_single (d := dot_S2048x64_S2048x128_S64x128_0_0_1_1_n_n) (cr := 0) rfl j k

theorem kl_rhs_accDot_1 (j : S64x128.Idx) (k : dot_S2048x64_S2048x128_S64x128_0_0_1_1_n_n.contr.Idx) :
    (dot_S2048x64_S2048x128_S64x128_0_0_1_1_n_n.rhsIdx j k 1).val = (j 1).val := by
  unfold DotDims.rhsIdx
  rw [dif_neg (show ¬(1 : Fin S2048x128.rank) ∈ dot_S2048x64_S2048x128_S64x128_0_0_1_1_n_n.rhsBatch by decide),
    dif_pos (show (1 : Fin S2048x128.rank) ∈ dot_S2048x64_S2048x128_S64x128_0_0_1_1_n_n.rhsNonContracting by decide)]
  rfl

/-- The accumulating product contracts the 2048 rows: entry (h, k) is the sum over r of L r h · R r k. -/
theorem kl_accDot_apply (L : FVec Ideal S2048x64 .bf16) (R : FVec Ideal S2048x128 .bf16) (h : Fin 64) (k : Fin 128) :
    matmul dot_S2048x64_S2048x128_S64x128_0_0_1_1_n_n none L R (constant S64x128 .f32 0x00000000#32) (ix2 h k)
      = ∑ r : Fin 2048, L (ix2 r h) * R (ix2 r k) := by
  refine (Ideal.matmul_constant_zero_apply dot_S2048x64_S2048x128_S64x128_0_0_1_1_n_n none L R (ix2 h k)).trans ?_
  rw [← Equiv.sum_comp (contrEquiv1 dot_S2048x64_S2048x128_S64x128_0_0_1_1_n_n 2048 rfl rfl).symm]
  refine Finset.sum_congr rfl fun r _ => ?_
  have hk := contrEquiv1_symm_val dot_S2048x64_S2048x128_S64x128_0_0_1_1_n_n 2048 rfl rfl r
  have eL : dot_S2048x64_S2048x128_S64x128_0_0_1_1_n_n.lhsIdx (ix2 h k)
      ((contrEquiv1 dot_S2048x64_S2048x128_S64x128_0_0_1_1_n_n 2048 rfl rfl).symm r) = ix2 r h := by
    funext a; refine Fin.ext ?_
    match a with
    | ⟨0, _⟩ => exact (kl_lhs_accDot_0 _ _).trans hk
    | ⟨1, _⟩ => exact kl_lhs_accDot_1 _ _
  have eR : dot_S2048x64_S2048x128_S64x128_0_0_1_1_n_n.rhsIdx (ix2 h k)
      ((contrEquiv1 dot_S2048x64_S2048x128_S64x128_0_0_1_1_n_n 2048 rfl rfl).symm r) = ix2 r k := by
    funext a; refine Fin.ext ?_
    match a with
    | ⟨0, _⟩ => exact (kl_rhs_accDot_0 _ _).trans hk
    | ⟨1, _⟩ => exact kl_rhs_accDot_1 _ _
  rw [eL, eR]

theorem kl_laneSumBlock_apply (src : FVec Ideal S2048x64 .f32) (r : Fin 2048) :
    shapeCast S16x128 (shapeCast S2048x1 (multiReduction .add [1] S2048 src 0x00000000#32 reduces_S2048x64_S2048 (.inl rfl) rfl)
        shapeCasts_S2048_S2048x1) shapeCasts_S2048x1_S16x128 (rowIx r) = ∑ l : Fin 64, src (ix2 r l) :=
  (kl_toBlock_apply _ r).trans ((kl_vecCol_apply _ r).trans (kl_laneSum_apply src r))

theorem kl_update_apply (v16 v21 : FVec Ideal S2048x64 .bf16) (v23 v25 : FVec Ideal S16x128 .f32)
    (v39 : FVec Ideal S2048x1 .f32) (v41 : FVec Ideal S2048x64 .f32) (acc : Vec Ideal S64x128 .f32) (h : Fin 64) (k : Fin 128) :
    k1_pay13 (F := Ideal) v16 v21 v23 v25 v39 v41 acc (ix2 h k)
      = acc (ix2 h k) + ∑ r : Fin 2048, v16 (ix2 r h) * (v21 (ix2 r (laneOf k))
          * klCol k (v23 (rowIx r)) (v25 (rowIx r)) (v39 (ix2 r (0 : Fin 1))) (∑ l : Fin 64, v41 (ix2 r l))) := by
  unfold k1_pay13
  refine (congrFun (shapeCast_self _ shapeCasts_S64x128_S64x128) (ix2 h k)).trans ?_
  refine (addf_apply _ _ (ix2 h k)).trans ?_
  refine congrArg (acc (ix2 h k) + ·) ?_
  refine (kl_accDot_apply _ _ h k).trans ?_
  refine Finset.sum_congr rfl fun r _ => congrArg (v16 (ix2 r h) * ·) ?_
  by_cases hlt : k.val < 64
  ·
    have hl : (⟨k.val, hlt⟩ : Fin 64) = laneOf k := Fin.ext (Nat.mod_eq_of_lt hlt).symm
    refine (concatenate_pair_apply_left (1 : Fin S2048x128.rank) _ _ concatenates_S2048x64_S2048x64_S2048x128_d1 (ix2 r k) rfl
      (ix2 r (⟨k.val, hlt⟩ : Fin 64)) (fun b => by match b with | ⟨0, _⟩ => rfl | ⟨1, _⟩ => rfl)).trans ?_
    refine (mulf_apply _ _ _).trans ?_
    refine congrArg₂ (· * ·) (congrArg v21 (by rw [hl])) ?_
    refine (statsSpread_apply _ broadcasts_S2048x1_S2048x64 r _).trans ?_
    refine (truncf_apply (φ := .f32) (ψ := .bf16) _ bitsLt_bf16_f32 (ix2 r (0 : Fin 1))).trans ?_
    refine (statsColumn_apply _ shapeCasts_S16x128_S2048x1 r 0).trans ?_
    refine Eq.trans ?_ (if_pos hlt).symm
    refine Eq.trans (?_ : _ = Spec.klpNode (v23 (rowIx r)) (v25 (rowIx r)) (shapeCast S16x128 v39 shapeCasts_S2048x1_S16x128 (rowIx r))
      (shapeCast S16x128 (shapeCast S2048x1 (multiReduction .add [1] S2048 v41 0x00000000#32 reduces_S2048x64_S2048 (.inl rfl) rfl)
        shapeCasts_S2048_S2048x1) shapeCasts_S2048x1_S16x128 (rowIx r))) ?_
    · rfl
    · rw [kl_toBlock_apply, kl_laneSumBlock_apply]
  ·
    have hge : 64 ≤ k.val := Nat.le_of_not_lt hlt
    have hk128 : k.val < 128 := k.isLt
    have hl : (⟨k.val - 64, by omega⟩ : Fin 64) = laneOf k := Fin.ext (by show k.val - 64 = k.val % 64; omega)
    refine (concatenate_pair_apply_right (1 : Fin S2048x128.rank) _ _ concatenates_S2048x64_S2048x64_S2048x128_d1 (ix2 r k) rfl rfl
      (ix2 r (⟨k.val - 64, by omega⟩ : Fin 64))
      (fun b => by match b with | ⟨0, _⟩ => exact fun _ => rfl | ⟨1, _⟩ => exact fun hne => absurd rfl hne)
      (by show k.val - 64 + 64 = k.val; omega)).trans ?_
    refine (mulf_apply _ _ _).trans ?_
    refine congrArg₂ (· * ·) (congrArg v21 (by rw [hl])) ?_
    refine (statsSpread_apply _ broadcasts_S2048x1_S2048x64 r _).trans ?_
    refine (truncf_apply (φ := .f32) (ψ := .bf16) _ bitsLt_bf16_f32 (ix2 r (0 : Fin 1))).trans ?_
    refine (statsColumn_apply _ shapeCasts_S16x128_S2048x1 r 0).trans ?_
    refine Eq.trans ?_ (if_neg hlt).symm
    refine Eq.trans (?_ : _ = Spec.klqNode (v23 (rowIx r)) (v25 (rowIx r)) (shapeCast S16x128 v39 shapeCasts_S2048x1_S16x128 (rowIx r))
      (shapeCast S16x128 (shapeCast S2048x1 (multiReduction .add [1] S2048 v41 0x00000000#32 reduces_S2048x64_S2048 (.inl rfl) rfl)
        shapeCasts_S2048_S2048x1) shapeCasts_S2048x1_S16x128 (rowIx r))) ?_
    · rfl
    · rw [kl_toBlock_apply, kl_laneSumBlock_apply]

theorem kl_scoreP_read (sp : Vec Ideal S16x128 .f32) : k1_pay7 (F := Ideal) sp = sp := shapeCast_self sp shapeCasts_S16x128_S16x128
theorem kl_scoreN_read (sn : Vec Ideal S16x128 .f32) : k1_pay8 (F := Ideal) sn = sn := shapeCast_self sn shapeCasts_S16x128_S16x128

/-- The update at entry (h, k): what was there plus the block's sum of node terms. -/
theorem blockUpdate_apply (b : Vec Ideal S16x128 .i32) (sp sn : Vec Ideal S16x128 .f32) (T acc : Vec Ideal S64x128 .f32)
    (h : Fin 64) (k : Fin 128) :
    k1_pay13 (F := Ideal) (k1_pay4 b) (k1_pay6 b) (k1_pay7 sp) (k1_pay8 sn) (k1_pay11 b T) (k1_pay12 b T) acc (ix2 h k)
      = acc (ix2 h k) + blockSum b sp sn T h k := by
  rw [kl_update_apply, kl_scoreP_read, kl_scoreN_read]
  unfold blockSum nodeTerm gatherQ
  refine congrArg (acc (ix2 h k) + ·) (Finset.sum_congr rfl fun r _ => ?_)
  rw [kl_ohHi_read, kl_ohLo16_read, kl_gatherP_read, Finset.sum_congr rfl fun l _ => kl_gatherQ_term_read b T r l]

theorem zeros_apply (i : S64x128.Idx) : k1_pay2 (F := Ideal) i = 0 := by
  unfold k1_pay2
  refine (congrFun (shapeCast_self _ shapeCasts_S64x128_S64x128) i).trans ?_
  exact Ideal.ofBits_zero_f32

theorem outBlock_apply (acc : Vec Ideal S64x128 .f32) (h : Fin 64) (k : Fin 128) :
    k1_pay1 (F := Ideal) acc (ix3 (0 : Fin 1) h k) = acc (ix2 h k) := by
  unfold k1_pay1
  refine shapeCast_apply acc shapeCasts_S64x128_S1x64x128 (ix3 (0 : Fin 1) h k) (ix2 h k) ?_
  rw [Shape.rowMajor_val_two, Shape.rowMajor_val_three]
  show h.val * 128 + k.val = (0 * 64 + h.val) * 128 + k.val
  omega

def rowAt (c : Fin 2) (j r : Fin 2048) : S65536x128.Idx :=
  ix2 (⟨16 * (2048 * c.val + j.val) + r.val / 128, by omega⟩ : Fin 65536) (⟨r.val % 128, by omega⟩ : Fin 128)

def klRawAt (b2 : S65536x128.Idx → BitVec 32) (sp2 sn2 : S65536x128.Idx → EReal) (T : S64x128.Idx → EReal)
    (c : Fin 2) (h : Fin 64) (k : Fin 128) : EReal :=
  ∑ j : Fin 2048, ∑ r : Fin 2048, nodeTerm (b2 (rowAt c j r)) (sp2 (rowAt c j r)) (sn2 (rowAt c j r)) T h k

def klRaw (b2 : S65536x128.Idx → BitVec 32) (sp2 sn2 : S65536x128.Idx → EReal) (T : S64x128.Idx → EReal) :
    S2x64x128.Idx → EReal := fun i => klRawAt b2 sp2 sn2 T (i 0) (i 1) (i 2)

theorem kl_gatherRow_of_hi (w : BitVec 32) (T : S64x128.Idx → EReal) (hT : ∀ i, ∃ x : ℝ, T i = (x : EReal)) (h0 : Fin 64)
    (hw : w.sshiftRight 6 = BitVec.ofNat 32 h0.val) (c : Fin 128) : klGatherRow w T c = T (ix2 h0 c) := by
  have e1 : ∑ h : Fin 64, ohHi w h * T (ix2 h c) = T (ix2 h0 c) := Spec.pick_hi w (fun h => T (ix2 h c)) h0 hw
  have e2 : ∑ h : Fin 64, ohHi w h * (T (ix2 h c) - T (ix2 h c)) = T (ix2 h0 c) - T (ix2 h0 c) :=
    Spec.pick_hi w (fun h => T (ix2 h c) - T (ix2 h c)) h0 hw
  unfold klGatherRow
  rw [e1, e2, Spec.sub_self_of_real _ (hT _), add_zero]

theorem gather_in_range (w : BitVec 32) (T : S64x128.Idx → EReal) (hT : ∀ i, ∃ x : ℝ, T i = (x : EReal)) (h0 l0 : Fin 64)
    (hw : w.toInt = ((64 * h0.val + l0.val : ℕ) : Int)) : gatherP w T = T (ix2 h0 (colP l0)) := by
  obtain ⟨hh, hl⟩ := (Spec.word_split w h0 l0).mpr hw
  unfold gatherP
  simp only [kl_gatherRow_of_hi w T hT h0 hh]
  exact Spec.pick_lo' w (fun l => T (ix2 h0 (colP l))) l0 hl

theorem gather_in_range' (w : BitVec 32) (T : S64x128.Idx → EReal) (hT : ∀ i, ∃ x : ℝ, T i = (x : EReal)) (h0 l0 : Fin 64)
    (hw : w.toInt = ((64 * h0.val + l0.val : ℕ) : Int)) : gatherQ w T = T (ix2 h0 (colQ l0)) := by
  obtain ⟨hh, hl⟩ := (Spec.word_split w h0 l0).mpr hw
  unfold gatherQ
  simp only [kl_gatherRow_of_hi w T hT h0 hh]
  exact Spec.pick_lo' w (fun l => T (ix2 h0 (colQ l))) l0 hl

/-- With a real table whose entries are the graphs' totals, the pass's array holds the per-graph sums of the two divergence terms. -/
theorem klRaw_seg (id : Spec.Nodes.Idx → BitVec 32) (sp sn : Spec.Nodes.Idx → EReal) (T : S64x128.Idx → EReal)
    (hT : ∀ i, ∃ x : ℝ, T i = (x : EReal))
    (hT0 : ∀ h l : Fin 64, T (ix2 h (colP l)) = Spec.segSum id sp (Spec.graphOf h l))
    (hT1 : ∀ h l : Fin 64, T (ix2 h (colQ l)) = Spec.segSum id sn (Spec.graphOf h l)) (h l : Fin 64) :
    klRaw (Spec.rows id) (Spec.rows sp) (Spec.rows sn) T (ix3 (0 : Fin 2) h (colP l))
        + klRaw (Spec.rows id) (Spec.rows sp) (Spec.rows sn) T (ix3 (1 : Fin 2) h (colP l))
      = Spec.klpG id sp sn (Spec.graphOf h l) := by
  have hlane : laneOf (colP l) = l := Fin.ext (Nat.mod_eq_of_lt l.isLt)
  have hcol : ∀ x y P Q, klCol (colP l) x y P Q = Spec.klpNode x y P Q := fun x y P Q => if_pos l.isLt
  refine Eq.trans ?_ (Spec.sum_onehot_of_inGraph id
    (fun n => Spec.klpNode (sp n) (sn n) (gatherP (id n) T) (gatherQ (id n) T))
    (fun n => Spec.klpNode (sp n) (sn n) (Spec.segSum id sp (Spec.graphOf h l)) (Spec.segSum id sn (Spec.graphOf h l))) h l
    (fun n hn => by
      have hw := (Spec.inGraph_graphOf id h l n).mp hn
      show Spec.klpNode (sp n) (sn n) (gatherP (id n) T) (gatherQ (id n) T) = _
      rw [gather_in_range (id n) T hT h l hw, gather_in_range' (id n) T hT h l hw, hT0, hT1]))
  rw [Fin.sum_univ_two]
  show (∑ j : Fin 2048, ∑ r : Fin 2048, nodeTerm (id (Spec.nodeAt 0 j r)) (sp (Spec.nodeAt 0 j r)) (sn (Spec.nodeAt 0 j r)) T h (colP l))
      + (∑ j : Fin 2048, ∑ r : Fin 2048, nodeTerm (id (Spec.nodeAt 1 j r)) (sp (Spec.nodeAt 1 j r)) (sn (Spec.nodeAt 1 j r)) T h (colP l)) = _
  unfold nodeTerm
  simp only [hlane, hcol]

theorem klRaw_seg' (id : Spec.Nodes.Idx → BitVec 32) (sp sn : Spec.Nodes.Idx → EReal) (T : S64x128.Idx → EReal)
    (hT : ∀ i, ∃ x : ℝ, T i = (x : EReal))
    (hT0 : ∀ h l : Fin 64, T (ix2 h (colP l)) = Spec.segSum id sp (Spec.graphOf h l))
    (hT1 : ∀ h l : Fin 64, T (ix2 h (colQ l)) = Spec.segSum id sn (Spec.graphOf h l)) (h l : Fin 64) :
    klRaw (Spec.rows id) (Spec.rows sp) (Spec.rows sn) T (ix3 (0 : Fin 2) h (colQ l))
        + klRaw (Spec.rows id) (Spec.rows sp) (Spec.rows sn) T (ix3 (1 : Fin 2) h (colQ l))
      = Spec.klqG id sp sn (Spec.graphOf h l) := by
  have hlane : laneOf (colQ l) = l := Fin.ext (by show (64 + l.val) % 64 = l.val; have := l.isLt; omega)
  have hcol : ∀ x y P Q, klCol (colQ l) x y P Q = Spec.klqNode x y P Q :=
    fun x y P Q => if_neg (by show ¬ (64 + l.val < 64); omega)
  refine Eq.trans ?_ (Spec.sum_onehot_of_inGraph id
    (fun n => Spec.klqNode (sp n) (sn n) (gatherP (id n) T) (gatherQ (id n) T))
    (fun n => Spec.klqNode (sp n) (sn n) (Spec.segSum id sp (Spec.graphOf h l)) (Spec.segSum id sn (Spec.graphOf h l))) h l
    (fun n hn => by
      have hw := (Spec.inGraph_graphOf id h l n).mp hn
      show Spec.klqNode (sp n) (sn n) (gatherP (id n) T) (gatherQ (id n) T) = _
      rw [gather_in_range (id n) T hT h l hw, gather_in_range' (id n) T hT h l hw, hT0, hT1]))
  rw [Fin.sum_univ_two]
  show (∑ j : Fin 2048, ∑ r : Fin 2048, nodeTerm (id (Spec.nodeAt 0 j r)) (sp (Spec.nodeAt 0 j r)) (sn (Spec.nodeAt 0 j r)) T h (colQ l))
      + (∑ j : Fin 2048, ∑ r : Fin 2048, nodeTerm (id (Spec.nodeAt 1 j r)) (sp (Spec.nodeAt 1 j r)) (sn (Spec.nodeAt 1 j r)) T h (colQ l)) = _
  unfold nodeTerm
  simp only [hlane, hcol]

end Cert.KernelIdeal.Val

end
-- ==== Proof.KlValue.lean ====
/- What the second pass leaves in its output array: after point n the accumulator is the sum of the points since the last multiple of 2048; at
   j = 2047 it is written, under a leading axis of extent one, as member c of the 2 × 64 × 128 array. -/
import proofs.«400573_j52158082842660_3_alg».proof.Proof.KlFrame
import proofs.«400573_j52158082842660_3_alg».proof.Proof.KlPayload
import Idealize.ShloMosaic.Lib.Pipeline.Value
import Idealize.ShloMosaic.Lib.Tactic

noncomputable section

namespace Cert.KernelIdeal.Val

open Cert.KernelIdeal Cert.KernelIdeal.Gen
open Idealize.ShloMosaic Idealize.ShloMosaic.ValueIdx
open Cert.Spec (ohHi ohLo)

section Points
open Idealize.ShloMosaic.TcCoe Idealize.SL.Sem
open Idealize.ShloMosaic.Pipeline (Dat)

def klRowOf (p : ℕ) (r : Fin 2048) : S65536x128.Idx :=
  ix2 (⟨(16 * p + r.val / 128) % 65536, Nat.mod_lt _ (by decide)⟩ : Fin 65536) (⟨r.val % 128, by omega⟩ : Fin 128)

theorem kl_rowOf_eq_rowAt (c : Fin 2) (j r : Fin 2048) : klRowOf (2048 * c.val + j.val) r = rowAt c j r := by
  unfold klRowOf rowAt
  refine congrArg₂ ix2 (Fin.ext ?_) rfl
  show (16 * (2048 * c.val + j.val) + r.val / 128) % 65536 = 16 * (2048 * c.val + j.val) + r.val / 128
  have := c.isLt; have := j.isLt; have := r.isLt
  omega

def klPointSum (b2 : S65536x128.Idx → BitVec 32) (sp2 sn2 : S65536x128.Idx → EReal) (T : S64x128.Idx → EReal)
    (p : ℕ) (h : Fin 64) (k : Fin 128) : EReal :=
  ∑ r : Fin 2048, nodeTerm (b2 (klRowOf p r)) (sp2 (klRowOf p r)) (sn2 (klRowOf p r)) T h k

theorem kl_sum_pointSum (b2 : S65536x128.Idx → BitVec 32) (sp2 sn2 : S65536x128.Idx → EReal) (T : S64x128.Idx → EReal)
    (c : Fin 2) (h : Fin 64) (k : Fin 128) :
    ∑ j ∈ Finset.range 2048, klPointSum b2 sp2 sn2 T (2048 * c.val + j) h k = klRawAt b2 sp2 sn2 T c h k := by
  rw [Finset.sum_range]
  unfold klRawAt klPointSum
  refine Finset.sum_congr rfl fun j _ => Finset.sum_congr rfl fun r _ => ?_
  rw [kl_rowOf_eq_rowAt]

/-- A sequence that restarts at f n when 2048 divides n and otherwise adds f n to its predecessor is the sum of f since the last restart. -/
theorem kl_runningSum (N : ℕ) (a : (n : ℕ) → n < N → EReal) (f : ℕ → EReal)
    (h0 : ∀ n (hn : n < N), n % 2048 = 0 → a n hn = 0 + f n)
    (hs : ∀ n (hn : n < N) (hn' : n - 1 < N), ¬ n % 2048 = 0 → a n hn = a (n - 1) hn' + f n) :
    ∀ n (hn : n < N), a n hn = ∑ j ∈ Finset.range (n % 2048 + 1), f (n - n % 2048 + j)
  | 0, hn => by
    rw [h0 0 hn rfl, zero_add]
    simp
  | n + 1, hn => by
    by_cases hz : (n + 1) % 2048 = 0
    · rw [h0 _ hn hz, hz, zero_add]
      simp
    · have hn' : n < N := by omega
      have e1 : (n + 1) % 2048 = n % 2048 + 1 := by omega
      have e2 : n + 1 - (n % 2048 + 1) = n - n % 2048 := by omega
      have e3 : n - n % 2048 + (n % 2048 + 1) = n + 1 := by have := Nat.mod_le n 2048; omega
      rw [hs _ hn (by simpa using hn') hz]
      show a n _ + f (n + 1) = _
      rw [kl_runningSum N a f h0 hs n hn', e1, e2, Finset.sum_range_succ (fun j => f (n - n % 2048 + j)) (n % 2048 + 1), e3]

theorem kl_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 3) = t.val / 2048 ∧ win1_4.index t (1 : Fin 3) = 0 ∧ win1_4.index t (2 : Fin 3) = 0 :=
  (by decide +kernel : ∀ t : Fin grid1.N, _)

variable (V : (c : Dev nD) → (b : Ref sig .tc) → Buf (Elt Ideal) ((c : Thread nD τ).loc b))

abbrev klWordsArr (c : Dev nD) : S65536x128.Idx → BitVec 32 := V c main_v6
abbrev klPosArr (c : Dev nD) : S65536x128.Idx → EReal := V c main_v7
abbrev klNegArr (c : Dev nD) : S65536x128.Idx → EReal := V c main_v8
abbrev klTableArr (c : Dev nD) : S64x128.Idx → EReal := V c main_v11

abbrev klWordsBlk (c : Dev nD) (t : Fin cfg1.N) : Vec Ideal S16x128 .i32 := Fr.iblk1 V c 0 t
abbrev klPosBlk (c : Dev nD) (t : Fin cfg1.N) : Vec Ideal S16x128 .f32 := Fr.iblk1 V c 1 t
abbrev klNegBlk (c : Dev nD) (t : Fin cfg1.N) : Vec Ideal S16x128 .f32 := Fr.iblk1 V c 2 t
abbrev klTableBlk (c : Dev nD) (t : Fin cfg1.N) : Vec Ideal S64x128 .f32 := Fr.iblk1 V c 3 t

/-- Row r of a block of point t is row 16 t + r / 128, lane r % 128 of its array. -/
theorem kl_wordsBlk_apply (c : Dev nD) (t : Fin cfg1.N) (r : Fin 2048) : klWordsBlk V c t (rowIx r) = klWordsArr V c (klRowOf t.val r) := by
  obtain ⟨e0, e1, -⟩ := kl_idx_facts t
  have hN : t.val < 4096 := lt_of_lt_of_eq t.isLt N_1
  have hr := r.isLt
  unfold klWordsBlk Fr.iblk1
  rw [View.read_apply]
  show V c main_v6 _ = V c main_v6 _
  congr 1
  funext a
  apply Fin.ext
  match a with
  | ⟨0, _⟩ => show win1_0.index t (0 : Fin 2) * 16 + 1 * (r.val / 128) = (16 * t.val + r.val / 128) % 65536; rw [e0]; omega
  | ⟨1, _⟩ => show win1_0.index t (1 : Fin 2) * 128 + 1 * (r.val % 128) = r.val % 128; rw [e1]; omega

theorem kl_posBlk_apply (c : Dev nD) (t : Fin cfg1.N) (r : Fin 2048) : klPosBlk V c t (rowIx r) = klPosArr V c (klRowOf t.val r) := by
  obtain ⟨-, -, e0, e1, -⟩ := kl_idx_facts t
  have hN : t.val < 4096 := lt_of_lt_of_eq t.isLt N_1
  have hr := r.isLt
  unfold klPosBlk Fr.iblk1
  rw [View.read_apply]
  show V c main_v7 _ = V c main_v7 _
  congr 1
  funext a
  apply Fin.ext
  match a with
  | ⟨0, _⟩ => show win1_1.index t (0 : Fin 2) * 16 + 1 * (r.val / 128) = (16 * t.val + r.val / 128) % 65536; rw [e0]; omega
  | ⟨1, _⟩ => show win1_1.index t (1 : Fin 2) * 128 + 1 * (r.val % 128) = r.val % 128; rw [e1]; omega

theorem kl_negBlk_apply (c : Dev nD) (t : Fin cfg1.N) (r : Fin 2048) : klNegBlk V c t (rowIx r) = klNegArr V c (klRowOf t.val r) := by
  obtain ⟨-, -, -, -, e0, e1, -⟩ := kl_idx_facts t
  have hN : t.val < 4096 := lt_of_lt_of_eq t.isLt N_1
  have hr := r.isLt
  unfold klNegBlk Fr.iblk1
  rw [View.read_apply]
  show V c main_v8 _ = V c main_v8 _
  congr 1
  funext a
  apply Fin.ext
  match a with
  | ⟨0, _⟩ => show win1_2.index t (0 : Fin 2) * 16 + 1 * (r.val / 128) = (16 * t.val + r.val / 128) % 65536; rw [e0]; omega
  | ⟨1, _⟩ => show win1_2.index t (1 : Fin 2) * 128 + 1 * (r.val % 128) = r.val % 128; rw [e1]; omega

theorem kl_tableBlk_eq (c : Dev nD) (t : Fin cfg1.N) : klTableBlk V c t = klTableArr V c := by
  obtain ⟨-, -, -, -, -, -, e0, e1, -⟩ := kl_idx_facts t
  funext y
  unfold klTableBlk Fr.iblk1
  rw [View.read_apply]
  show V c main_v11 _ = V c main_v11 y
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 128 + 1 * (y 1).val = (y 1).val; rw [e1]; omega

theorem kl_blockSum_eq_pointSum (c : Dev nD) (t : Fin cfg1.N) (h : Fin 64) (k : Fin 128) :
    blockSum (klWordsBlk V c t) (klPosBlk V c t) (klNegBlk V c t) (klTableBlk V c t) h k
      = klPointSum (klWordsArr V c) (klPosArr V c) (klNegArr V c) (klTableArr V c) t.val h k := by
  unfold blockSum klPointSum
  refine Finset.sum_congr rfl fun r _ => ?_
  rw [kl_wordsBlk_apply, kl_posBlk_apply, kl_negBlk_apply, kl_tableBlk_eq]

end Points

section Value
open Idealize.ShloMosaic.TcCoe Idealize.SL.Sem
open Idealize.ShloMosaic.Pipeline (Dat)

variable (V : (c : Dev nD) → (b : Ref sig .tc) → Buf (Elt Ideal) ((c : Thread nD τ).loc b))

theorem kl_acc_eq (c : Dev nD) (h : Fin 64) (k : Fin 128) : ∀ (n : ℕ) (hn : n < cfg1.N),
    Fr.acc1 V c n hn (ix2 h k)
      = ∑ j ∈ Finset.range (n % 2048 + 1),
          klPointSum (klWordsArr V c) (klPosArr V c) (klNegArr V c) (klTableArr V c) (n - n % 2048 + j) h k := by
  refine kl_runningSum cfg1.N (fun n hn => Fr.acc1 V c n hn (ix2 h k))
    (fun p => klPointSum (klWordsArr V c) (klPosArr V c) (klNegArr V c) (klTableArr V c) p h k) ?_ ?_
  · intro n hn h0
    show Fr.acc1 V c (⟨n, hn⟩ : Fin cfg1.N).val (⟨n, hn⟩ : Fin cfg1.N).isLt (ix2 h k) = _
    rw [Fr.acc1_reset V c ⟨n, hn⟩ h0]
    refine (blockUpdate_apply (klWordsBlk V c ⟨n, hn⟩) (klPosBlk V c ⟨n, hn⟩) (klNegBlk V c ⟨n, hn⟩) (klTableBlk V c ⟨n, hn⟩) (k1_pay2 (F := Ideal)) h k).trans ?_
    rw [zeros_apply, kl_blockSum_eq_pointSum]
  · intro n hn hn' h0
    show Fr.acc1 V c (⟨n, hn⟩ : Fin cfg1.N).val (⟨n, hn⟩ : Fin cfg1.N).isLt (ix2 h k) = _
    rw [Fr.acc1_step V c ⟨n, hn⟩ h0]
    refine (blockUpdate_apply (klWordsBlk V c ⟨n, hn⟩) (klPosBlk V c ⟨n, hn⟩) (klNegBlk V c ⟨n, hn⟩) (klTableBlk V c ⟨n, hn⟩) (Fr.acc1 V c (n - 1) hn') h k).trans ?_
    rw [kl_blockSum_eq_pointSum]

abbrev klArr (c : Dev nD) : Buf (Elt Ideal) ((c : Thread nD τ).loc main_v12) :=
  klRaw (klWordsArr V c) (klPosArr V c) (klNegArr V c) (klTableArr V c)

theorem kl_flushed_eq (c : Dev nD) (t : Fin cfg1.N) (hf : (cfg1.win 4).flush t = true) :
    (Fr.dat1 (F := Ideal) V c).flushed 4 t = ((cfg1.win 4).blk t).view.read (Elt Ideal) (klArr V c) := by
  have h1 : t.val % 2048 = 2047 := (flush1_4 t).mp hf
  have h0 : ¬t.val % 2048 = 0 := by omega
  have hN : t.val < 4096 := lt_of_lt_of_eq t.isLt N_1
  obtain ⟨-, -, -, -, -, -, -, -, e0, e1, e2⟩ := kl_idx_facts t
  show (cfg1.win 4).cut (grid1.coords t) ((Fr.dat1 (F := Ideal) V c).after 4 t) = _
  rw [Fr.after1_4]
  funext y
  obtain ⟨q, h, k, rfl⟩ : ∃ (q : Fin 1) (h : Fin 64) (k : Fin 128), y = ix3 q h k := ⟨y 0, y 1, y 2, eq_ix3 y⟩
  obtain rfl : q = 0 := Subsingleton.elim _ _
  have hemb : ((cfg1.win 4).blk t).view.emb (ix3 (0 : Fin 1) h k) = ix3 (⟨t.val / 2048, by omega⟩ : Fin 2) h k := by
    funext a
    apply Fin.ext
    match a with
    | ⟨0, _⟩ => show win1_4.index t (0 : Fin 3) * 1 + 1 * 0 = t.val / 2048; rw [e0]; omega
    | ⟨1, _⟩ => show win1_4.index t (1 : Fin 3) * 64 + 1 * h.val = h.val; rw [e1]; omega
    | ⟨2, _⟩ => show win1_4.index t (2 : Fin 3) * 128 + 1 * k.val = k.val; rw [e2]; omega
  rw [View.read_apply]
  show k1_pay1 (Fr.acc1 V c t.val t.isLt) (ix3 (0 : Fin 1) h k) = klArr V c (((cfg1.win 4).blk t).view.emb (ix3 (0 : Fin 1) h k))
  rw [hemb, outBlock_apply _ h k, kl_acc_eq V c h k t.val t.isLt, h1]
  show _ = klRawAt (klWordsArr V c) (klPosArr V c) (klNegArr V c) (klTableArr V c) (⟨t.val / 2048, by omega⟩ : Fin 2) h k
  rw [← kl_sum_pointSum]
  refine Finset.sum_congr rfl fun j _ => ?_
  have e : t.val - 2047 + j = 2048 * (t.val / 2048) + j := by omega
  show klPointSum _ _ _ _ (t.val - 2047 + j) h k = klPointSum _ _ _ _ (2048 * (t.val / 2048) + j) h k
  rw [e]

theorem kl_mem_outBlk (t : Fin cfg1.N) (i : S2x64x128.Idx) :
    i ∈ ((cfg1.win 4).blk t).view.set ↔ ∀ a : Fin 3, win1_4.index t a * S1x64x128.size a ≤ (i a).val
      ∧ (i a).val < win1_4.index t a * S1x64x128.size a + S1x64x128.size a := by
  show i ∈ ((View.whole main_v12).slice (win1_4.rect t)).set ↔ _
  rw [View.set_slice_whole, Rect.mem_set_unit]
  exact Iff.rfl

/-- Entry (c, h, k) of the result array is covered by the writing point 2048 c + 2047. -/
theorem kl_final (c : Dev nD) :
    (Fr.dat1 (F := Ideal) V c).arrAt 4 cfg1.N = klRaw (V c main_v6) (V c main_v7) (V c main_v8) (V c main_v11) :=
  (Fr.dat1 (F := Ideal) V c).arrAt_eq_of_cover 4 (klArr V c) (fun t hf => kl_flushed_eq V c t hf) fun i => by
    have hi0 : (i 0).val < 2 := (i 0).isLt
    have hi1 : (i 1).val < 64 := (i 1).isLt
    have hi2 : (i 2).val < 128 := (i 2).isLt
    have hlt : 2048 * (i 0).val + 2047 < cfg1.N := by rw [show cfg1.N = 4096 from N_1]; omega
    refine ⟨⟨2048 * (i 0).val + 2047, hlt⟩, (flush1_4 _).mpr (by show (2048 * (i 0).val + 2047) % 2048 = 2047; omega), ?_⟩
    obtain ⟨-, -, -, -, -, -, -, -, e0, e1, e2⟩ := kl_idx_facts ⟨2048 * (i 0).val + 2047, hlt⟩
    rw [kl_mem_outBlk]
    intro a
    match a with
    | ⟨0, _⟩ =>
      show win1_4.index ⟨2048 * (i 0).val + 2047, hlt⟩ (0 : Fin 3) * 1 ≤ (i 0).val ∧ (i 0).val < win1_4.index ⟨2048 * (i 0).val + 2047, hlt⟩ (0 : Fin 3) * 1 + 1
      rw [e0]; show (2048 * (i 0).val + 2047) / 2048 * 1 ≤ (i 0).val ∧ (i 0).val < (2048 * (i 0).val + 2047) / 2048 * 1 + 1; omega
    | ⟨1, _⟩ =>
      show win1_4.index ⟨2048 * (i 0).val + 2047, hlt⟩ (1 : Fin 3) * 64 ≤ (i 1).val ∧ (i 1).val < win1_4.index ⟨2048 * (i 0).val + 2047, hlt⟩ (1 : Fin 3) * 64 + 64
      rw [e1]; omega
    | ⟨2, _⟩ =>
      show win1_4.index ⟨2048 * (i 0).val + 2047, hlt⟩ (2 : Fin 3) * 128 ≤ (i 2).val ∧ (i 2).val < win1_4.index ⟨2048 * (i 0).val + 2047, hlt⟩ (2 : Fin 3) * 128 + 128
      rw [e2]; omega

end Value

end Cert.KernelIdeal.Val

end
-- ==== Proof.Finite.lean ====
/- Under the precondition every entry of the two score arrays is a real number: an extended real whose absolute value max x (−x) is below +∞ is
   neither infinity. -/
import proofs.«400573_j52158082842660_3_alg».proof.Defs
import proofs.«400573_j52158082842660_3_alg».proof.Proof.Gen.Pre_finite_inputs
import proofs.«400573_j52158082842660_3_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.KernelIdeal.Val

open Cert.KernelIdeal Idealize.ShloMosaic Idealize.ShloMosaic.TcCoe Idealize.SL.Sem

instance oneIndex : Subsingleton (⟨0, ![]⟩ : Shape).Idx := ⟨fun _ _ => funext fun d => d.elim0⟩

theorem inf_f32 : Ideal.ofBits .f32 0x7F800000#32 = ⊤ := by simp [Ideal.ofBits, Ideal.ieee]

theorem real_of_abs_lt (x : EReal) (h : Ideal.cmp .olt (max x (-x)) (Ideal.ofBits .f32 0x7F800000#32) = 1#1) :
    ∃ r : ℝ, x = (r : EReal) := by
  rw [inf_f32] at h
  have hlt : max x (-x) < ⊤ := by
    unfold Ideal.cmp at h
    by_contra hn
    simp [hn] at h
  induction x using EReal.rec with
  | bot => simp at hlt
  | top => simp at hlt
  | coe r => exact ⟨r, rfl⟩

theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf (F := Ideal) .olt (Host.absf (F := Ideal) x)
            (broadcastInDim s ![] hb (constant (F := Ideal) ⟨0, ![]⟩ .f32 0x7F800000#32)))
          (constantI ⟨0, ![]⟩ 1 1#1) hr hu ValueIdx.ix0 = 1#1)
    (n : s.Idx) : ∃ r : ℝ, x n = (r : EReal) := by
  have h1 := Host.reduce_andi_all _ _ hr hu ValueIdx.ix0 e n
  have hbc : broadcastInDim s ![] hb (constant (F := Ideal) ⟨0, ![]⟩ .f32 0x7F800000#32) n
      = constant (F := Ideal) ⟨0, ![]⟩ .f32 0x7F800000#32 ValueIdx.ix0 :=
    broadcastInDim_apply _ hb _ n ValueIdx.ix0 (fun a => a.elim0)
  have h2 : Ideal.cmp .olt (max (x n) (-(x n))) (Ideal.ofBits .f32 0x7F800000#32) = 1#1 := by
    have h3 : FloatOps.cmpf (F := Ideal) .olt (FloatOps.hostAbsf (x n))
        (broadcastInDim s ![] hb (constant (F := Ideal) ⟨0, ![]⟩ .f32 0x7F800000#32) n) = 1#1 := h1
    rw [hbc] at h3
    exact h3
  exact real_of_abs_lt (x n) h2

/-- The fourth and fifth conjuncts of the precondition are the tests of the two score arrays. -/
theorem scores_real (m : (ℓ : Loc nD τ sig) → Buf (Elt Ideal) ℓ) (h : Cert.Pre_KernelIdeal m) (c : Dev nD) :
    (∀ n : Spec.Nodes.Idx, ∃ r : ℝ, (m ((c.tc : Thread nD τ).loc main_arg3) : Spec.Nodes.Idx → EReal) n = (r : EReal))
    ∧ (∀ n : Spec.Nodes.Idx, ∃ r : ℝ, (m ((c.tc : Thread nD τ).loc main_arg4) : Spec.Nodes.Idx → EReal) n = (r : EReal)) := by
  have h0 := congrFun (h c) ValueIdx.ix0
  dsimp only [Cert.Pre_finite_inputs.fn, Cert.Pre_finite_inputs.fn_part1] at h0
  obtain ⟨h18, h22⟩ := IntOp.andi_eq_one.1 h0
  obtain ⟨_, h17⟩ := IntOp.andi_eq_one.1 h18
  exact ⟨fun n => all_real _ _ _ _ h17 n, fun n => all_real _ _ _ _ h22 n⟩

end Cert.KernelIdeal.Val

end
-- ==== Proof.Bridge.lean ====
/- The kernel program's three results as the mathematics of the specification: the first pass's array holds the segment sums, so the counts are the
   node counts and the table handed to the second pass holds every graph's two totals (real numbers, by finiteness); the second pass's array then
   holds the per-graph sums of the two divergence terms. -/
import proofs.«400573_j52158082842660_3_alg».proof.Proof.AsmData
import proofs.«400573_j52158082842660_3_alg».proof.Proof.KernelHost
import proofs.«400573_j52158082842660_3_alg».proof.Proof.StatsValue
import proofs.«400573_j52158082842660_3_alg».proof.Proof.KlValue
import proofs.«400573_j52158082842660_3_alg».proof.Proof.StatsPayload
import proofs.«400573_j52158082842660_3_alg».proof.Proof.KlPayload
import proofs.«400573_j52158082842660_3_alg».proof.Proof.SpecLemmas
import proofs.«400573_j52158082842660_3_alg».proof.Proof.Finite
import proofs.«400573_j52158082842660_3_alg».proof.Proof.RefValue
import Idealize.ShloMosaic.Lib.ValueIdx

noncomputable section

namespace Cert.KernelIdeal.Val

open Idealize.ShloMosaic Idealize.ShloMosaic.TcCoe
open Cert.KernelIdeal Cert.KernelIdeal.Gen
open Idealize.ShloMosaic.ValueIdx

variable (m : (ℓ : Loc nD τ sig) → Buf (Elt Ideal) ℓ) (c : Dev nD)

theorem bridge_out9_eq :
    out9 (Fr.outsK m) c = statsRaw (Spec.rows (ids m c)) (Spec.rows (sps m c)) (Spec.rows (sns m c)) := by
  have e6 : (Fr.Vr4 m c main_v6 : S65536x128.Idx → BitVec 32) = Spec.rows (ids m c) := v6_V4 m c
  have e7 : (Fr.Vr4 m c main_v7 : S65536x128.Idx → EReal) = Spec.rows (sps m c) := v7_V4 m c
  have e8 : (Fr.Vr4 m c main_v8 : S65536x128.Idx → EReal) = Spec.rows (sns m c) := v8_V4 m c
  have hfold : out9 (Fr.outsK m) c
      = statsRaw (Fr.Vr4 m c main_v6 : S65536x128.Idx → BitVec 32) (Fr.Vr4 m c main_v7 : S65536x128.Idx → EReal)
          (Fr.Vr4 m c main_v8 : S65536x128.Idx → EReal) :=
    (Fr.outsK_stats m c).symm.trans (stats_final (Fr.Vr4 m) c)
  rw [hfold, e6, e7, e8]

/-- Entry g of the count vector is column 128 + g mod 64 of row g / 64 of the two halves' sum: the number of nodes of graph g. -/
theorem kernel_counts : (V8 m (Fr.outsK m) c main_v18 : S4096.Idx → EReal) = Spec.counts (ids m c) := by
  have key : ∀ g : Fin 4096,
      (V8 m (Fr.outsK m) c main_v18 : S4096.Idx → EReal) (ix1 g) = Spec.counts (ids m c) (ix1 g) := fun g => by
    have hg : g.val < 4096 := g.isLt
    rw [v18_apply m (Fr.outsK m) c g, v10_apply m (Fr.outsK m) c, bridge_out9_eq m c, zero_add]
    refine (statsRaw_seg_cnt (ids m c) (sps m c) (sns m c) ⟨g.val / 64, by omega⟩ ⟨g.val % 64, by omega⟩).trans ?_
    show Spec.counts (ids m c) (Spec.graphOf _ _) = _
    exact congrArg (Spec.counts (ids m c)) (Spec.graphOf_div_mod (ix1 g))
  funext (i : S4096.Idx)
  exact (congrArg _ (eq_ix1 i)).trans ((key (i 0)).trans (congrArg _ (eq_ix1 i).symm))

abbrev bridgeTable : S64x128.Idx → EReal := (V6 m (Fr.outsK m) c main_v11 : S64x128.Idx → EReal)

theorem bridge_table_pos (h l : Fin 64) :
    bridgeTable m c (ix2 h (colP l)) = Spec.segSum (ids m c) (sps m c) (Spec.graphOf h l) := by
  show (V6 m (Fr.outsK m) c main_v11 : S64x128.Idx → EReal) (ix2 h (colP l)) = _
  rw [v11_apply m (Fr.outsK m) c h (colP l), bridge_out9_eq m c, zero_add]
  exact statsRaw_seg_pos (ids m c) (sps m c) (sns m c) h l

theorem bridge_table_neg (h l : Fin 64) :
    bridgeTable m c (ix2 h (colQ l)) = Spec.segSum (ids m c) (sns m c) (Spec.graphOf h l) := by
  show (V6 m (Fr.outsK m) c main_v11 : S64x128.Idx → EReal) (ix2 h (colQ l)) = _
  rw [v11_apply m (Fr.outsK m) c h (colQ l), bridge_out9_eq m c, zero_add]
  exact statsRaw_seg_neg (ids m c) (sps m c) (sns m c) h l

theorem bridge_col_cases (k : Fin 128) : (∃ l : Fin 64, k = colP l) ∨ (∃ l : Fin 64, k = colQ l) := by
  by_cases hk : k.val < 64
  · exact Or.inl ⟨⟨k.val, hk⟩, Fin.ext rfl⟩
  · exact Or.inr ⟨⟨k.val - 64, by have := k.isLt; omega⟩, Fin.ext (by show k.val = 64 + (k.val - 64); omega)⟩

section Real
variable (hfin : (∀ n : Cert.Spec.Nodes.Idx, ∃ r : ℝ, (m ((c.tc : Thread nD τ).loc main_arg3) : Cert.Spec.Nodes.Idx → EReal) n = (r : EReal))
    ∧ (∀ n : Cert.Spec.Nodes.Idx, ∃ r : ℝ, (m ((c.tc : Thread nD τ).loc main_arg4) : Cert.Spec.Nodes.Idx → EReal) n = (r : EReal)))
include hfin

theorem bridge_table_real (i : S64x128.Idx) : ∃ x : ℝ, bridgeTable m c i = (x : EReal) := by
  have key : ∀ (h : Fin 64) (k : Fin 128), ∃ x : ℝ, bridgeTable m c (ix2 h k) = (x : EReal) := fun h k => by
    rcases bridge_col_cases k with ⟨l, rfl⟩ | ⟨l, rfl⟩
    · rw [bridge_table_pos m c h l]
      exact Spec.segSum_real (ids m c) (sps m c) hfin.1 _
    · rw [bridge_table_neg m c h l]
      exact Spec.segSum_real (ids m c) (sns m c) hfin.2 _
  obtain ⟨x, hx⟩ := key (i 0) (i 1)
  exact ⟨x, (congrArg (bridgeTable m c) (eq_ix2 i)).trans hx⟩

theorem bridge_out12_eq :
    out12 (Fr.outsK m) c = klRaw (Spec.rows (ids m c)) (Spec.rows (sps m c)) (Spec.rows (sns m c)) (bridgeTable m c) := by
  have e6 : (Fr.Vr6 m c main_v6 : S65536x128.Idx → BitVec 32) = Spec.rows (ids m c) := v6_V6 m (Fr.outsA m) c
  have e7 : (Fr.Vr6 m c main_v7 : S65536x128.Idx → EReal) = Spec.rows (sps m c) := v7_V6 m (Fr.outsA m) c
  have e8 : (Fr.Vr6 m c main_v8 : S65536x128.Idx → EReal) = Spec.rows (sns m c) := v8_V6 m (Fr.outsA m) c
  have e11 : (Fr.Vr6 m c main_v11 : S64x128.Idx → EReal) = bridgeTable m c :=
    (congrFun (Fr.V6K m c) (main_v11 : Ref sig .tc)).symm
  have hfold : out12 (Fr.outsK m) c
      = klRaw (Fr.Vr6 m c main_v6 : S65536x128.Idx → BitVec 32) (Fr.Vr6 m c main_v7 : S65536x128.Idx → EReal)
          (Fr.Vr6 m c main_v8 : S65536x128.Idx → EReal) (Fr.Vr6 m c main_v11 : S64x128.Idx → EReal) :=
    (Fr.outsK_kl m c).symm.trans (kl_final (Fr.Vr6 m) c)
  rw [hfold, e6, e7, e8, e11]

theorem kernel_klp : (V8 m (Fr.outsK m) c main_v23 : S4096.Idx → EReal) = Spec.klpG (ids m c) (sps m c) (sns m c) := by
  have key : ∀ g : Fin 4096,
      (V8 m (Fr.outsK m) c main_v23 : S4096.Idx → EReal) (ix1 g) = Spec.klpG (ids m c) (sps m c) (sns m c) (ix1 g) := fun g => by
    have hg : g.val < 4096 := g.isLt
    rw [v23_apply m (Fr.outsK m) c g]
    have hcol : (⟨g.val % 64, by omega⟩ : Fin 128) = colP ⟨g.val % 64, by omega⟩ := Fin.ext rfl
    rw [hcol, v13_apply m (Fr.outsK m) c, bridge_out12_eq m c hfin, zero_add]
    refine (klRaw_seg (ids m c) (sps m c) (sns m c) (bridgeTable m c) (bridge_table_real m c hfin)
      (bridge_table_pos m c) (bridge_table_neg m c) ⟨g.val / 64, by omega⟩ ⟨g.val % 64, by omega⟩).trans ?_
    exact congrArg (Spec.klpG (ids m c) (sps m c) (sns m c)) (Spec.graphOf_div_mod (ix1 g))
  funext (i : S4096.Idx)
  exact (congrArg _ (eq_ix1 i)).trans ((key (i 0)).trans (congrArg _ (eq_ix1 i).symm))

theorem kernel_klq : (V8 m (Fr.outsK m) c main_v25 : S4096.Idx → EReal) = Spec.klqG (ids m c) (sps m c) (sns m c) := by
  have key : ∀ g : Fin 4096,
      (V8 m (Fr.outsK m) c main_v25 : S4096.Idx → EReal) (ix1 g) = Spec.klqG (ids m c) (sps m c) (sns m c) (ix1 g) := fun g => by
    have hg : g.val < 4096 := g.isLt
    rw [v25_apply m (Fr.outsK m) c g]
    have hcol : (⟨64 + g.val % 64, by omega⟩ : Fin 128) = colQ ⟨g.val % 64, by omega⟩ := Fin.ext rfl
    rw [hcol, v13_apply m (Fr.outsK m) c, bridge_out12_eq m c hfin, zero_add]
    refine (klRaw_seg' (ids m c) (sps m c) (sns m c) (bridgeTable m c) (bridge_table_real m c hfin)
      (bridge_table_pos m c) (bridge_table_neg m c) ⟨g.val / 64, by omega⟩ ⟨g.val % 64, by omega⟩).trans ?_
    exact congrArg (Spec.klqG (ids m c) (sps m c) (sns m c)) (Spec.graphOf_div_mod (ix1 g))
  funext (i : S4096.Idx)
  exact (congrArg _ (eq_ix1 i)).trans ((key (i 0)).trans (congrArg _ (eq_ix1 i).symm))

/-- The three results: the shared chain at the specification's three vectors. -/
theorem kernel_total :
    Gen.V8 m (Fr.outsK m) c main_v45
      = Cert.ReferenceIdeal.RefValue.resTotal (F := Ideal) (Cert.Spec.counts (ids m c)) (Cert.Spec.klpG (ids m c) (sps m c) (sns m c)) (Cert.Spec.klqG (ids m c) (sps m c) (sns m c))
          (m ((c : Thread nD τ).loc main_arg0)) (m ((c : Thread nD τ).loc main_arg1)) (m ((c : Thread nD τ).loc main_arg2)) (m ((c : Thread nD τ).loc main_arg5)) := by
  show V8 m (Fr.outsK m) c main_v45 = _
  rw [v45_eq m (Fr.outsK m) c, kernel_counts m c, kernel_klp m c hfin, kernel_klq m c hfin]

theorem kernel_train :
    Gen.V8 m (Fr.outsK m) c main_v5
      = Cert.ReferenceIdeal.RefValue.resTrain (F := Ideal) (Cert.Spec.counts (ids m c)) (Cert.Spec.klpG (ids m c) (sps m c) (sns m c)) (Cert.Spec.klqG (ids m c) (sps m c) (sns m c))
          (m ((c : Thread nD τ).loc main_arg0)) (m ((c : Thread nD τ).loc main_arg1)) (m ((c : Thread nD τ).loc main_arg2)) (m ((c : Thread nD τ).loc main_arg5)) := by
  show V8 m (Fr.outsK m) c main_v5 = _
  rw [v5_eq m (Fr.outsK m) c, kernel_counts m c, kernel_klp m c hfin, kernel_klq m c hfin]

theorem kernel_cor :
    Gen.V8 m (Fr.outsK m) c main_v43
      = Cert.ReferenceIdeal.RefValue.resCor (F := Ideal) (Cert.Spec.counts (ids m c)) (Cert.Spec.klpG (ids m c) (sps m c) (sns m c)) (Cert.Spec.klqG (ids m c) (sps m c) (sns m c))
          (m ((c : Thread nD τ).loc main_arg0)) (m ((c : Thread nD τ).loc main_arg1)) (m ((c : Thread nD τ).loc main_arg2)) (m ((c : Thread nD τ).loc main_arg5)) := by
  show V8 m (Fr.outsK m) c main_v43 = _
  rw [v43_eq m (Fr.outsK m) c, kernel_counts m c, kernel_klp m c hfin, kernel_klq m c hfin]

end Real

end Cert.KernelIdeal.Val

end
-- ==== Proof.lean ====
/- The five claims. The kernel takes per-graph statistics of eight million nodes in two passes over blocks of 2048 nodes, each pass a product of
   two one-hot matrices (a node word's high and low six bits) with the nodes' values, summed block by block; the reference takes them by
   scatter-adds along the node words and gathers them back per node. A node lands in graph g on both sides exactly when its word, read
   signed, is g (0 · x = 0 for every extended real), so the node counts and the two per-graph sums of divergence terms are the same functions
   of the inputs; the gathered totals agree because the table minus itself is 0, the one use of finiteness. The rest of both programs is one
   chain of host operations applied to equal arrays and never opened. -/
import proofs.«400573_j52158082842660_3_alg».proof.Defs
import proofs.«400573_j52158082842660_3_alg».proof.Proof.Gen.Kernel
import proofs.«400573_j52158082842660_3_alg».proof.Proof.Gen.KernelIdeal
import proofs.«400573_j52158082842660_3_alg».proof.Proof.Gen.ReferenceIdeal
import proofs.«400573_j52158082842660_3_alg».proof.Proof.Gen.Pre_finite_inputs
import proofs.«400573_j52158082842660_3_alg».proof.Proof.B_Assemble
import proofs.«400573_j52158082842660_3_alg».proof.Proof.ValueRun
import proofs.«400573_j52158082842660_3_alg».proof.Proof.Bridge
import proofs.«400573_j52158082842660_3_alg».proof.Proof.Finite
import Idealize.ShloMosaic.Adequacy
import Idealize.ShloMosaic.Init

noncomputable section

namespace Cert.Proof

open Idealize.ShloMosaic Idealize.SL.Sem

/-- The word-level program terminates, faults nowhere and keeps its arguments: the frame of the two regions. -/
theorem frame_k : Cert.frame_Kernel := fun m ρ _ => Cert.Kernel.Fr.frame m ρ

/-- So does the idealized program: its run with the three results dropped. -/
theorem frame_ki : Cert.frame_KernelIdeal := fun m ρ _ =>
  (θ_run Cert.KernelIdeal.defs _ _).mono (fun _ h c => (h c).2.2.2) (Cert.KernelIdeal.Fr.run_values (F := Ideal) m ρ)

/-- The reference is host operations only: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The two round trips through bf16 the idealization removed are the identity on extended reals. -/
theorem preserves : Cert.preserves_Kernel_KernelIdeal :=
  ⟨IdealRules.truncf_extf.statement _ .f32 .bf16, IdealRules.truncf_extf.statement _ .f32 .bf16⟩

open Cert.ReferenceIdeal.RefValue Cert.KernelIdeal.Val

/-- A function of the shared host chain at the node counts, the two per-graph sums of divergence terms and the four small arguments of the kernel's memory. -/
abbrev atSpec (f : GraphF Ideal → GraphF Ideal → GraphF Ideal → ClassF Ideal → ClassF Ideal → ClassF Ideal → GraphW Ideal → OneF Ideal)
    (m : (ℓ : Loc Cert.KernelIdeal.nD Cert.KernelIdeal.τ Cert.KernelIdeal.sig) → Buf (Elt Ideal) ℓ) (c : Dev Cert.KernelIdeal.nD) : OneF Ideal :=
  f (Cert.Spec.counts (ids m c)) (Cert.Spec.klpG (ids m c) (sps m c) (sns m c)) (Cert.Spec.klqG (ids m c) (sps m c) (sns m c))
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5))

/-- Both programs end at the shared host chain applied to the same three per-graph arrays; the reference's own arrays are the kernel's, by the seven agreements. -/
theorem algebraic : Cert.algebraic_KernelIdeal_ReferenceIdeal := by
  intro m ρ m' ρ' hpre hagree
  have hfin := fun c => scores_real m hpre c
  refine ⟨fun c => atSpec resTotal m c, fun c => atSpec resTrain m c, fun c => atSpec resCor m c, ?_, ?_⟩
  · exact (θ_run Cert.KernelIdeal.defs _ _).mono (fun _ h c =>
      ⟨(h c).1.trans (kernel_total m c (hfin c)), (h c).2.1.trans (kernel_train m c (hfin c)),
        (h c).2.2.1.trans (kernel_cor m c (hfin c)), (h c).2.2.2⟩) (Cert.KernelIdeal.Fr.run_values (F := Ideal) m ρ)
  · exact (θ_run (Cert.ReferenceIdeal.defs (F := Ideal)) _ _).mono (fun r h c => by
      obtain ⟨h78, h5, h76, hargs⟩ := h c
      obtain ⟨e0, e1, e2, e3, e4, e5, e6⟩ := hagree c
      refine ⟨?_, ?_, ?_, hargs⟩
      · refine (h78.trans (res_total_eq m' c)).trans ?_
        rw [e0, e1, e2, e3, e4, e5, e6]
      · refine (h5.trans ((Cert.ReferenceIdeal.Read.val_main_v5_eq (F := Ideal) _ _).trans (res_train_eq m' c))).trans ?_
        rw [e0, e1, e2, e3, e4, e5, e6]
      · refine (h76.trans (res_cor_eq m' c)).trans ?_
        rw [e0, e1, e2, e3, e4, e5, e6])
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
